-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S512x16 .f32 .bf16
  ∧ IdealRules.truncf_extf.Statement Cert.KernelIdeal.S512x16 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S32x512 : S_.BroadcastsInDim S32x512 (![] : Fin 0 → Fin S32x512.rank)
  reducesTo_S32x512_S_d0_1 : S32x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S2x32x32768 : S_.BroadcastsInDim S2x32x32768 (![] : Fin 0 → Fin S2x32x32768.rank)
  reducesTo_S2x32x32768_S_d0_1_2 : S2x32x32768.ReducesTo [0, 1, 2] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x512 .f32) (main_arg1 : FVec F S512x512 .f32) (main_arg2 : FVec F S2x32x32768 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S32x512 .f32 := Host.absf main_arg0
  let main_cst : FVec F S_ .f32 := constant S_ .f32 0x7F800000#32
  let main_v1 : FVec F S32x512 .f32 := broadcastInDim S32x512 ![] bcast_S_S32x512 main_cst
  let main_v2 : IVec S32x512 1 := cmpf .olt main_v0 main_v1
  let main_c : IVec S_ 1 := constantI S_ 1 1#1
  let main_v3 : IVec S_ 1 := (fun x v => Host.reduce IntOp.andi x v reducesTo_S32x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S2x32x32768 .f32 := Host.absf main_arg2
  let main_cst_2 : FVec F S_ .f32 := constant S_ .f32 0x7F800000#32
  let main_v10 : FVec F S2x32x32768 .f32 := broadcastInDim S2x32x32768 ![] bcast_S_S2x32x32768 main_cst_2
  let main_v11 : IVec S2x32x32768 1 := cmpf .olt main_v9 main_v10
  let main_c_3 : IVec S_ 1 := constantI S_ 1 1#1
  let main_v12 : IVec S_ 1 := (fun x v => Host.reduce IntOp.andi x v reducesTo_S2x32x32768_S_d0_1_2 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S1x3x128 : Shape := ⟨3, ![1, 3, 128]⟩
abbrev S3x1x128 : Shape := ⟨3, ![3, 1, 128]⟩
abbrev S64x3x128 : Shape := ⟨3, ![64, 3, 128]⟩
abbrev S3x64x128 : Shape := ⟨3, ![3, 64, 128]⟩
abbrev S65x3x64 : Shape := ⟨3, ![65, 3, 64]⟩
abbrev S1x3x64 : Shape := ⟨3, ![1, 3, 64]⟩
abbrev S3x1x64 : Shape := ⟨3, ![3, 1, 64]⟩
abbrev S64x3x64 : Shape := ⟨3, ![64, 3, 64]⟩
abbrev S3x64x64 : Shape := ⟨3, ![3, 64, 64]⟩
abbrev S128x3x128 : Shape := ⟨3, ![128, 3, 128]⟩
abbrev S128x3x64 : Shape := ⟨3, ![128, 3, 64]⟩
abbrev S1x64x128 : Shape := ⟨3, ![1, 64, 128]⟩
abbrev S64x128 : Shape := ⟨2, ![64, 128]⟩
abbrev S192x128 : Shape := ⟨2, ![192, 128]⟩
abbrev S1x64x64 : Shape := ⟨3, ![1, 64, 64]⟩
abbrev S64x64 : Shape := ⟨2, ![64, 64]⟩
abbrev S192x64 : Shape := ⟨2, ![192, 64]⟩
abbrev S2x32x512x64 : Shape := ⟨4, ![2, 32, 512, 64]⟩
abbrev S2x512x32x64 : Shape := ⟨4, ![2, 512, 32, 64]⟩
abbrev S1x64 : Shape := ⟨2, ![1, 64]⟩
abbrev S16x512 : Shape := ⟨2, ![16, 512]⟩
abbrev S2x512x16x64 : Shape := ⟨4, ![2, 512, 16, 64]⟩
abbrev S2x16x32768 : Shape := ⟨3, ![2, 16, 32768]⟩
abbrev S1x512x16x64 : Shape := ⟨4, ![1, 512, 16, 64]⟩
abbrev S512x16x64 : Shape := ⟨3, ![512, 16, 64]⟩
abbrev S512x16 : Shape := ⟨2, ![512, 16]⟩
abbrev S512x16x1 : Shape := ⟨3, ![512, 16, 1]⟩
abbrev S512x1024 : Shape := ⟨2, ![512, 1024]⟩
abbrev S512x16x192 : Shape := ⟨3, ![512, 16, 192]⟩
abbrev S8192x192 : Shape := ⟨2, ![8192, 192]⟩
abbrev S8192x128 : Shape := ⟨2, ![8192, 128]⟩
abbrev S512x16x128 : Shape := ⟨3, ![512, 16, 128]⟩
abbrev S1x1x128 : Shape := ⟨3, ![1, 1, 128]⟩
abbrev S8192x64 : Shape := ⟨2, ![8192, 64]⟩
abbrev S1x1x64 : Shape := ⟨3, ![1, 1, 64]⟩
abbrev S512x16x384 : Shape := ⟨3, ![512, 16, 384]⟩
abbrev S8192x384 : Shape := ⟨2, ![8192, 384]⟩
abbrev S16x512x64 : Shape := ⟨3, ![16, 512, 64]⟩
abbrev S16x32768 : Shape := ⟨2, ![16, 32768]⟩
abbrev S1x16x32768 : Shape := ⟨3, ![1, 16, 32768]⟩

abbrev nBuf : Space → Nat
  | .hbm => 82
  | .vmem => 21
  | .smem => 0
  | _ => 0

abbrev bufTy : (tb : Table) → Fin (tcTables nBuf tb) → BufTy
  | .hbm, ⟨0, _⟩ => ⟨S32x512, .f32⟩
  | .hbm, ⟨1, _⟩ => ⟨S512x512, .f32⟩
  | .hbm, ⟨2, _⟩ => ⟨S2x32x32768, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S65x3x128, .bf16⟩
  | .hbm, ⟨15, _⟩ => ⟨S1x3x128, .bf16⟩
  | .hbm, ⟨16, _⟩ => ⟨S3x1x128, .bf16⟩
  | .hbm, ⟨17, _⟩ => ⟨S64x3x128, .bf16⟩
  | .hbm, ⟨18, _⟩ => ⟨S3x64x128, .bf16⟩
  | .hbm, ⟨19, _⟩ => ⟨S65x3x64, .f32⟩
  | .hbm, ⟨20, _⟩ => ⟨S65x3x64, .bf16⟩
  | .hbm, ⟨21, _⟩ => ⟨S1x3x64, .bf16⟩
  | .hbm, ⟨22, _⟩ => ⟨S3x1x64, .bf16⟩
  | .hbm, ⟨23, _⟩ => ⟨S64x3x64, .bf16⟩
  | .hbm, ⟨24, _⟩ => ⟨S3x64x64, .bf16⟩
  | .hbm, ⟨25, _⟩ => ⟨S128x3x128, .f32⟩
  | .hbm, ⟨26, _⟩ => ⟨S128x3x128, .bf16⟩
  | .hbm, ⟨27, _⟩ => ⟨S64x3x128, .bf16⟩
  | .hbm, ⟨28, _⟩ => ⟨S3x64x128, .bf16⟩
  | .hbm, ⟨29, _⟩ => ⟨S64x3x128, .bf16⟩
  | .hbm, ⟨30, _⟩ => ⟨S3x64x128, .bf16⟩
  | .hbm, ⟨31, _⟩ => ⟨S128x3x64, .f32⟩
  | .hbm, ⟨32, _⟩ => ⟨S128x3x64, .bf16⟩
  | .hbm, ⟨33, _⟩ => ⟨S64x3x64, .bf16⟩
  | .hbm, ⟨34, _⟩ => ⟨S3x64x64, .bf16⟩
  | .hbm, ⟨35, _⟩ => ⟨S64x3x64, .bf16⟩
  | .hbm, ⟨36, _⟩ => ⟨S3x64x64, .bf16⟩
  | .hbm, ⟨37, _⟩ => ⟨S1x64x128, .bf16⟩
  | .hbm, ⟨38, _⟩ => ⟨S64x128, .bf16⟩
  | .hbm, ⟨39, _⟩ => ⟨S1x64x128, .bf16⟩
  | .hbm, ⟨40, _⟩ => ⟨S64x128, .bf16⟩
  | .hbm, ⟨41, _⟩ => ⟨S1x64x128, .bf16⟩
  | .hbm, ⟨42, _⟩ => ⟨S64x128, .bf16⟩
  | .hbm, ⟨43, _⟩ => ⟨S192x128, .bf16⟩
  | .hbm, ⟨44, _⟩ => ⟨S1x64x64, .bf16⟩
  | .hbm, ⟨45, _⟩ => ⟨S64x64, .bf16⟩
  | .hbm, ⟨46, _⟩ => ⟨S1x64x64, .bf16⟩
  | .hbm, ⟨47, _⟩ => ⟨S64x64, .bf16⟩
  | .hbm, ⟨48, _⟩ => ⟨S1x64x64, .bf16⟩
  | .hbm, ⟨49, _⟩ => ⟨S64x64, .bf16⟩
  | .hbm, ⟨50, _⟩ => ⟨S192x64, .bf16⟩
  | .hbm, ⟨51, _⟩ => ⟨S1x64x128, .bf16⟩
  | .hbm, ⟨52, _⟩ => ⟨S64x128, .bf16⟩
  | .hbm, ⟨53, _⟩ => ⟨S1x64x128, .bf16⟩
  | .hbm, ⟨54, _⟩ => ⟨S64x128, .bf16⟩
  | .hbm, ⟨55, _⟩ => ⟨S1x64x128, .bf16⟩
  | .hbm, ⟨56, _⟩ => ⟨S64x128, .bf16⟩
  | .hbm, ⟨57, _⟩ => ⟨S1x64x128, .bf16⟩
  | .hbm, ⟨58, _⟩ => ⟨S64x128, .bf16⟩
  | .hbm, ⟨59, _⟩ => ⟨S1x64x128, .bf16⟩
  | .hbm, ⟨60, _⟩ => ⟨S64x128, .bf16⟩
  | .hbm, ⟨61, _⟩ => ⟨S1x64x128, .bf16⟩
  | .hbm, ⟨62, _⟩ => ⟨S64x128, .bf16⟩
  | .hbm, ⟨63, _⟩ => ⟨S384x128, .bf16⟩
  | .hbm, ⟨64, _⟩ => ⟨S1x64x64, .bf16⟩
  | .hbm, ⟨65, _⟩ => ⟨S64x64, .bf16⟩
  | .hbm, ⟨66, _⟩ => ⟨S1x64x64, .bf16⟩
  | .hbm, ⟨67, _⟩ => ⟨S64x64, .bf16⟩
  | .hbm, ⟨68, _⟩ => ⟨S1x64x64, .bf16⟩
  | .hbm, ⟨69, _⟩ => ⟨S64x64, .bf16⟩
  | .hbm, ⟨70, _⟩ => ⟨S1x64x64, .bf16⟩
  | .hbm, ⟨71, _⟩ => ⟨S64x64, .bf16⟩
  | .hbm, ⟨72, _⟩ => ⟨S1x64x64, .bf16⟩
  | .hbm, ⟨73, _⟩ => ⟨S64x64, .bf16⟩
  | .hbm, ⟨74, _⟩ => ⟨S1x64x64, .bf16⟩
  | .hbm, ⟨75, _⟩ => ⟨S64x64, .bf16⟩
  | .hbm, ⟨76, _⟩ => ⟨S384x64, .bf16⟩
  | .hbm, ⟨77, _⟩ => ⟨S2x32x512x64, .f32⟩
  | .hbm, ⟨78, _⟩ => ⟨S2x512x32x64, .f32⟩
  | .hbm, ⟨79, _⟩ => ⟨S1x64, .f32⟩
  | .hbm, ⟨80, _⟩ => ⟨S32x512, .f32⟩
  | .hbm, ⟨81, _⟩ => ⟨S2x32x32768, .f32⟩
  | .local _ .vmem, ⟨0, _⟩ => ⟨S16x512, .f32⟩
  | .local _ .vmem, ⟨1, _⟩ => ⟨S16x512, .f32⟩
  | .local _ .vmem, ⟨2, _⟩ => ⟨S512x512, .f32⟩
  | .local _ .vmem, ⟨3, _⟩ => ⟨S2x512x16x64, .f32⟩
  | .local _ .vmem, ⟨4, _⟩ => ⟨S2x512x16x64, .f32⟩
  | .local _ .vmem, ⟨5, _⟩ => ⟨S3x1x128, .bf16⟩
  | .local _ .vmem, ⟨6, _⟩ => ⟨S192x128, .bf16⟩
  | .local _ .vmem, ⟨7, _⟩ => ⟨S3x1x64, .bf16⟩
  | .local _ .vmem, ⟨8, _⟩ => ⟨S192x64, .bf16⟩
  | .local _ .vmem, ⟨9, _⟩ => ⟨S128, .f32⟩
  | .local _ .vmem, ⟨10, _⟩ => ⟨S64, .f32⟩
  | .local _ .vmem, ⟨11, _⟩ => ⟨S384x128, .bf16⟩
  | .local _ .vmem, ⟨12, _⟩ => ⟨S384x64, .bf16⟩
  | .local _ .vmem, ⟨13, _⟩ => ⟨S128, .f32⟩
  | .local _ .vmem, ⟨14, _⟩ => ⟨S64, .f32⟩
  | .local _ .vmem, ⟨15, _⟩ => ⟨S1x64, .f32⟩
  | .local _ .vmem, ⟨16, _⟩ => ⟨S1, .f32⟩
  | .local _ .vmem, ⟨17, _⟩ => ⟨S16x512, .f32⟩
  | .local _ .vmem, ⟨18, _⟩ => ⟨S16x512, .f32⟩
  | .local _ .vmem, ⟨19, _⟩ => ⟨S2x16x32768, .f32⟩
  | .local _ .vmem, ⟨20, _⟩ => ⟨S2x16x32768, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67_0 : Ref sig .tc := ⟨.hbm, 80, rfl⟩
abbrev main_v67_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18
abbrev cc0_sem16_0 : DmaSem sig := 19
abbrev cc0_sem16_1 : DmaSem sig := 20

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x16x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S192x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S16x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x16x32768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S195x128_S65x3x128 : S195x128.ShapeCasts S65x3x128
  bitsLt_bf16_f32 : FTy.bits .bf16 < FTy.bits .f32
  slices_S65x3x128_S1x3x128_0_0_0 : S65x3x128.Slices ![0, 0, 0] S1x3x128
  transposes_S1x3x128_S3x1x128_1_0_2 : S1x3x128.Transposes [1, 0, 2] S3x1x128
  slices_S65x3x128_S64x3x128_1_0_0 : S65x3x128.Slices ![1, 0, 0] S64x3x128
  transposes_S64x3x128_S3x64x128_1_0_2 : S64x3x128.Transposes [1, 0, 2] S3x64x128
  shapeCasts_S195x64_S65x3x64 : S195x64.ShapeCasts S65x3x64
  slices_S65x3x64_S1x3x64_0_0_0 : S65x3x64.Slices ![0, 0, 0] S1x3x64
  transposes_S1x3x64_S3x1x64_1_0_2 : S1x3x64.Transposes [1, 0, 2] S3x1x64
  slices_S65x3x64_S64x3x64_1_0_0 : S65x3x64.Slices ![1, 0, 0] S64x3x64
  transposes_S64x3x64_S3x64x64_1_0_2 : S64x3x64.Transposes [1, 0, 2] S3x64x64
  shapeCasts_S384x128_S128x3x128 : S384x128.ShapeCasts S128x3x128
  slices_S128x3x128_S64x3x128_0_0_0 : S128x3x128.Slices ![0, 0, 0] S64x3x128
  slices_S128x3x128_S64x3x128_64_0_0 : S128x3x128.Slices ![64, 0, 0] S64x3x128
  shapeCasts_S384x64_S128x3x64 : S384x64.ShapeCasts S128x3x64
  slices_S128x3x64_S64x3x64_0_0_0 : S128x3x64.Slices ![0, 0, 0] S64x3x64
  slices_S128x3x64_S64x3x64_64_0_0 : S128x3x64.Slices ![64, 0, 0] S64x3x64
  slices_S3x64x128_S1x64x128_0_0_0 : S3x64x128.Slices ![0, 0, 0] S1x64x128
  shapeCasts_S1x64x128_S64x128 : S1x64x128.ShapeCasts S64x128
  slices_S3x64x128_S1x64x128_1_0_0 : S3x64x128.Slices ![1, 0, 0] S1x64x128
  slices_S3x64x128_S1x64x128_2_0_0 : S3x64x128.Slices ![2, 0, 0] S1x64x128
  concatenates_S64x128_S64x128_S64x128_S192x128_d0 : Shape.Concatenates [S64x128, S64x128, S64x128] S192x128 0
  slices_S3x64x64_S1x64x64_0_0_0 : S3x64x64.Slices ![0, 0, 0] S1x64x64
  shapeCasts_S1x64x64_S64x64 : S1x64x64.ShapeCasts S64x64
  slices_S3x64x64_S1x64x64_1_0_0 : S3x64x64.Slices ![1, 0, 0] S1x64x64
  slices_S3x64x64_S1x64x64_2_0_0 : S3x64x64.Slices ![2, 0, 0] S1x64x64
  concatenates_S64x64_S64x64_S64x64_S192x64_d0 : Shape.Concatenates [S64x64, S64x64, S64x64] S192x64 0
  concatenates_S64x128_S64x128_S64x128_S64x128_S64x128_S64x128_S384x128_d0 : Shape.Concatenates [S64x128, S64x128, S64x128, S64x128, S64x128, S64x128] S384x128 0
  concatenates_S64x64_S64x64_S64x64_S64x64_S64x64_S64x64_S384x64_d0 : Shape.Concatenates [S64x64, S64x64, S64x64, S64x64, S64x64, S64x64] S384x64 0
  shapeCasts_S2x32x32768_S2x32x512x64 : S2x32x32768.ShapeCasts S2x32x512x64
  transposes_S2x32x512x64_S2x512x32x64_0_2_1_3 : S2x32x512x64.Transposes [0, 2, 1, 3] S2x512x32x64
  transposes_S64x1_S1x64_1_0 : S64x1.Transposes [1, 0] S1x64
  inb_S512x512_S512x512_0_0 : ∀ a, (![0, 0] : Fin 2 → Nat) a + S512x512.size a ≤ S512x512.size a
  h_S512x512 : 0 < S512x512.numel
  inb_S2x512x16x64_S1x512x16x64_0_0_0_0 : ∀ a, (![0, 0, 0, 0] : Fin 4 → Nat) a + S1x512x16x64.size a ≤ S2x512x16x64.size a
  h_S1x512x16x64 : 0 < S1x512x16x64.numel
  shapeCasts_S1x512x16x64_S512x16x64 : S1x512x16x64.ShapeCasts S512x16x64
  inb_S16x512_S16x512_0_0 : ∀ a, (![0, 0] : Fin 2 → Nat) a + S16x512.size a ≤ S16x512.size a
  h_S16x512 : 0 < S16x512.numel
  transposes_S16x512_p1_0_S512x16 : S16x512.Transposes [1, 0] S512x16
  shapeCasts_S512x16_S512x16x1 : S512x16.ShapeCasts S512x16x1
  inb_S3x1x128_S3x1x128_0_0_0 : ∀ a, (![0, 0, 0] : Fin 3 → Nat) a + S3x1x128.size a ≤ S3x1x128.size a
  h_S3x1x128 : 0 < S3x1x128.numel
  shapeCasts_S3x1x128_S3x1x128 : S3x1x128.ShapeCasts S3x1x128
  inb_S192x128_S192x128_0_0 : ∀ a, (![0, 0] : Fin 2 → Nat) a + S192x128.size a ≤ S192x128.size a
  h_S192x128 : 0 < S192x128.numel
  shapeCasts_S192x128_S192x128 : S192x128.ShapeCasts S192x128
  inb_S128_S128_0 : ∀ a, (![0] : Fin 1 → Nat) a + S128.size a ≤ S128.size a
  h_S128 : 0 < S128.numel
  shapeCasts_S512x16x64_S512x1024 : S512x16x64.ShapeCasts S512x1024
  shapeCasts_S512x1024_S512x16x64 : S512x1024.ShapeCasts S512x16x64
  concatenates_S512x16x64_S512x16x64_S512x16x64_S512x16x192_d2 : Shape.Concatenates [S512x16x64, S512x16x64, S512x16x64] S512x16x192 2
  shapeCasts_S512x16x192_S8192x192 : S512x16x192.ShapeCasts S8192x192
  shapeCasts_S8192x128_S512x16x128 : S8192x128.ShapeCasts S512x16x128
  shapeCasts_S128_S1x1x128 : S128.ShapeCasts S1x1x128
  broadcasts_S1x1x128_S512x16x128 : S1x1x128.Broadcasts S512x16x128
  slices_S3x1x128_o0_0_0_S1x1x128 : S3x1x128.Slices ![0, 0, 0] S1x1x128
  shapeCasts_S1x1x128_S128 : S1x1x128.ShapeCasts S128
  broadcasts_S512x16x1_S512x16x128 : S512x16x1.Broadcasts S512x16x128
  slices_S3x1x128_o1_0_0_S1x1x128 : S3x1x128.Slices ![1, 0, 0] S1x1x128
  slices_S3x1x128_o2_0_0_S1x1x128 : S3x1x128.Slices ![2, 0, 0] S1x1x128
  slices_S512x16x128_o0_0_0_S512x16x64 : S512x16x128.Slices ![0, 0, 0] S512x16x64
  slices_S512x16x128_o0_0_64_S512x16x64 : S512x16x128.Slices ![0, 0, 64] S512x16x64
  inb_S3x1x64_S3x1x64_0_0_0 : ∀ a, (![0, 0, 0] : Fin 3 → Nat) a + S3x1x64.size a ≤ S3x1x64.size a
  h_S3x1x64 : 0 < S3x1x64.numel
  shapeCasts_S3x1x64_S3x1x64 : S3x1x64.ShapeCasts S3x1x64
  inb_S192x64_S192x64_0_0 : ∀ a, (![0, 0] : Fin 2 → Nat) a + S192x64.size a ≤ S192x64.size a
  h_S192x64 : 0 < S192x64.numel
  shapeCasts_S192x64_S192x64 : S192x64.ShapeCasts S192x64
  inb_S64_S64_0 : ∀ a, (![0] : Fin 1 → Nat) a + S64.size a ≤ S64.size a
  h_S64 : 0 < S64.numel
  shapeCasts_S8192x64_S512x16x64 : S8192x64.ShapeCasts S512x16x64
  shapeCasts_S64_S1x1x64 : S64.ShapeCasts S1x1x64
  broadcasts_S1x1x64_S512x16x64 : S1x1x64.Broadcasts S512x16x64
  slices_S3x1x64_o0_0_0_S1x1x64 : S3x1x64.Slices ![0, 0, 0] S1x1x64
  shapeCasts_S1x1x64_S64 : S1x1x64.ShapeCasts S64
  broadcasts_S512x16x1_S512x16x64 : S512x16x1.Broadcasts S512x16x64
  slices_S3x1x64_o1_0_0_S1x1x64 : S3x1x64.Slices ![1, 0, 0] S1x1x64
  slices_S3x1x64_o2_0_0_S1x1x64 : S3x1x64.Slices ![2, 0, 0] S1x1x64
  inb_S2x512x16x64_S1x512x16x64_1_0_0_0 : ∀ a, (![1, 0, 0, 0] : Fin 4 → Nat) a + S1x512x16x64.size a ≤ S2x512x16x64.size a
  inb_S384x128_S384x128_0_0 : ∀ a, (![0, 0] : Fin 2 → Nat) a + S384x128.size a ≤ S384x128.size a
  h_S384x128 : 0 < S384x128.numel
  shapeCasts_S384x128_S384x128 : S384x128.ShapeCasts S384x128
  concatenates_S512x16x64_S512x16x64_S512x16x64_S512x16x64_S512x16x64_S512x16x64_S512x16x384_d2 : Shape.Concatenates [S512x16x64, S512x16x64, S512x16x64, S512x16x64, S512x16x64, S512x16x64] S512x16x384 2
  shapeCasts_S512x16x384_S8192x384 : S512x16x384.ShapeCasts S8192x384
  inb_S384x64_S384x64_0_0 : ∀ a, (![0, 0] : Fin 2 → Nat) a + S384x64.size a ≤ S384x64.size a
  h_S384x64 : 0 < S384x64.numel
  shapeCasts_S384x64_S384x64 : S384x64.ShapeCasts S384x64
  transposes_S512x16x64_p1_0_2_S16x512x64 : S512x16x64.Transposes [1, 0, 2] S16x512x64
  shapeCasts_S16x512x64_S16x32768 : S16x512x64.ShapeCasts S16x32768
  inb_S2x16x32768_S1x16x32768_0_0_0 : ∀ a, (![0, 0, 0] : Fin 3 → Nat) a + S1x16x32768.size a ≤ S2x16x32768.size a
  h_S1x16x32768 : 0 < S1x16x32768.numel
  shapeCasts_S1x16x32768_S16x32768 : S1x16x32768.ShapeCasts S16x32768
  shapeCasts_S16x32768_S1x16x32768 : S16x32768.ShapeCasts S1x16x32768
  inb_S2x16x32768_S1x16x32768_1_0_0 : ∀ a, (![1, 0, 0] : Fin 3 → Nat) a + S1x16x32768.size a ≤ S2x16x32768.size a
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  reduces_S512x16x64_S512x16 : S512x16x64.Reduces [2] S512x16
  inb_S1_S1_0 : ∀ a, (![0] : Fin 1 → Nat) a + S1.size a ≤ S1.size a
  h_S1 : 0 < S1.numel
  inpos_S1_p0 : ∀ a, (![0] : Fin 1 → Nat) a < S1.size a
  transposes_S512x16_p1_0_S16x512 : S512x16.Transposes [1, 0] S16x512
  dot_S512x512_S512x16_S512x16_1_0_0_1_n_n_wf : DotDims.WF S512x512 S512x16 S512x16 [1] [0] [0] [1] [] []
  dot_S512x512_S512x1024_S512x1024_1_0_0_1_n_n_wf : DotDims.WF S512x512 S512x1024 S512x1024 [1] [0] [0] [1] [] []
  dot_S8192x192_S192x128_S8192x128_1_0_0_1_n_n_wf : DotDims.WF S8192x192 S192x128 S8192x128 [1] [0] [0] [1] [] []
  dot_S8192x192_S192x64_S8192x64_1_0_0_1_n_n_wf : DotDims.WF S8192x192 S192x64 S8192x64 [1] [0] [0] [1] [] []
  dot_S8192x384_S384x128_S8192x128_1_0_0_1_n_n_wf : DotDims.WF S8192x384 S384x128 S8192x128 [1] [0] [0] [1] [] []
  dot_S8192x384_S384x64_S8192x64_1_0_0_1_n_n_wf : DotDims.WF S8192x384 S384x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x512.size a ≤ S32x512.size a
  hwx0_0 : ∀ i : grid0.Coords, EltTy.bits .f32 = 32 ∨ (Rect.block (s := S32x512) S16x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x16x64.size a ≤ S2x512x32x64.size a
  hwx0_2 : ∀ i : grid0.Coords, EltTy.bits .f32 = 32 ∨ (Rect.block (s := S2x512x32x64) S2x512x16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x1x128.size a ≤ S3x1x128.size a
  hwx0_3 : ∀ i : grid0.Coords, EltTy.bits .bf16 = 32 ∨ (Rect.block (s := S3x1x128) S3x1x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S192x128.size a ≤ S192x128.size a
  hwx0_4 : ∀ i : grid0.Coords, EltTy.bits .bf16 = 32 ∨ (Rect.block (s := S192x128) S192x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x1x64.size a ≤ S3x1x64.size a
  hwx0_5 : ∀ i : grid0.Coords, EltTy.bits .bf16 = 32 ∨ (Rect.block (s := S3x1x64) S3x1x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192x64.size a ≤ S192x64.size a
  hwx0_6 : ∀ i : grid0.Coords, EltTy.bits .bf16 = 32 ∨ (Rect.block (s := S192x64) S192x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384x128.size a ≤ S384x128.size a
  hwx0_9 : ∀ i : grid0.Coords, EltTy.bits .bf16 = 32 ∨ (Rect.block (s := S384x128) S384x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384x64.size a ≤ S384x64.size a
  hwx0_10 : ∀ i : grid0.Coords, EltTy.bits .bf16 = 32 ∨ (Rect.block (s := S384x64) S384x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S16x512.size a ≤ S32x512.size a
  hwx0_15 : ∀ i : grid0.Coords, EltTy.bits .f32 = 32 ∨ (Rect.block (s := S32x512) S16x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2x16x32768.size a ≤ S2x32x32768.size a
  hwx0_16 : ∀ i : grid0.Coords, EltTy.bits .f32 = 32 ∨ (Rect.block (s := S2x32x32768) S2x16x32768.size (cc0_transform_16 i) (hinb0_16 i)).WholeWords (EltTy.packing .f32)

variable [Facts₀]

def dot_S512x512_S512x16_S512x16_1_0_0_1_n_n : DotDims S512x512 S512x16 S512x16 where
  lhsContracting := [1]
  rhsContracting := [0]
  lhsNonContracting := [0]
  rhsNonContracting := [1]
  lhsBatch := []
  rhsBatch := []
  wf := dot_S512x512_S512x16_S512x16_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S8192x192_S192x128_S8192x128_1_0_0_1_n_n : DotDims S8192x192 S192x128 S8192x128 where
  lhsContracting := [1]
  rhsContracting := [0]
  lhsNonContracting := [0]
  rhsNonContracting := [1]
  lhsBatch := []
  rhsBatch := []
  wf := dot_S8192x192_S192x128_S8192x128_1_0_0_1_n_n_wf
def dot_S8192x192_S192x64_S8192x64_1_0_0_1_n_n : DotDims S8192x192 S192x64 S8192x64 where
  lhsContracting := [1]
  rhsContracting := [0]
  lhsNonContracting := [0]
  rhsNonContracting := [1]
  lhsBatch := []
  rhsBatch := []
  wf := dot_S8192x192_S192x64_S8192x64_1_0_0_1_n_n_wf
def dot_S8192x384_S384x128_S8192x128_1_0_0_1_n_n : DotDims S8192x384 S384x128 S8192x128 where
  lhsContracting := [1]
  rhsContracting := [0]
  lhsNonContracting := [0]
  rhsNonContracting := [1]
  lhsBatch := []
  rhsBatch := []
  wf := dot_S8192x384_S384x128_S8192x128_1_0_0_1_n_n_wf
def dot_S8192x384_S384x64_S8192x64_1_0_0_1_n_n : DotDims S8192x384 S384x64 S8192x64 where
  lhsContracting := [1]
  rhsContracting := [0]
  lhsNonContracting := [0]
  rhsNonContracting := [1]
  lhsBatch := []
  rhsBatch := []
  wf := dot_S8192x384_S384x64_S8192x64_1_0_0_1_n_n_wf

abbrev win0_0 : Pipeline.Window sig grid0 :=
  Pipeline.Window.ofSpec (Memref.whole main_arg0) S16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v65) S2x512x16x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S3x1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S192x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S3x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v37) S192x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v50) S384x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v63) S384x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v66) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v67_0) S16x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v67_1) S2x16x32768.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S32x512 : Shape := ⟨2, ![32, 512]⟩
abbrev S512x512 : Shape := ⟨2, ![512, 512]⟩
abbrev S2x32x32768 : Shape := ⟨3, ![2, 32, 32768]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S1x32x32768 : Shape := ⟨3, ![1, 32, 32768]⟩
abbrev S32x32768 : Shape := ⟨2, ![32, 32768]⟩
abbrev S32x512x1 : Shape := ⟨3, ![32, 512, 1]⟩
abbrev S32x512x64 : Shape := ⟨3, ![32, 512, 64]⟩
abbrev S32x512x65 : Shape := ⟨3, ![32, 512, 65]⟩
abbrev S512x65x32 : Shape := ⟨3, ![512, 65, 32]⟩
abbrev S512x2080 : Shape := ⟨2, ![512, 2080]⟩
abbrev S_ : Shape := ⟨0, ![]⟩
abbrev S1x512x2080 : Shape := ⟨3, ![1, 512, 2080]⟩
abbrev S3x512x2080 : Shape := ⟨3, ![3, 512, 2080]⟩
abbrev S3x512x65x32 : Shape := ⟨4, ![3, 512, 65, 32]⟩
abbrev S32x512x65x3 : Shape := ⟨4, ![32, 512, 65, 3]⟩
abbrev S16384x195 : Shape := ⟨2, ![16384, 195]⟩
abbrev S16384x128 : Shape := ⟨2, ![16384, 128]⟩
abbrev S1x128 : Shape := ⟨2, ![1, 128]⟩
abbrev S32x65536 : Shape := ⟨2, ![32, 65536]⟩
abbrev S32x512x128 : Shape := ⟨3, ![32, 512, 128]⟩
abbrev S16384x64 : Shape := ⟨2, ![16384, 64]⟩
abbrev S1x64 : Shape := ⟨2, ![1, 64]⟩
abbrev S512x128x32 : Shape := ⟨3, ![512, 128, 32]⟩
abbrev S512x4096 : Shape := ⟨2, ![512, 4096]⟩
abbrev S1x512x4096 : Shape := ⟨3, ![1, 512, 4096]⟩
abbrev S3x512x4096 : Shape := ⟨3, ![3, 512, 4096]⟩
abbrev S3x512x128x32 : Shape := ⟨4, ![3, 512, 128, 32]⟩
abbrev S32x512x128x3 : Shape := ⟨4, ![32, 512, 128, 3]⟩
abbrev S16384x384 : Shape := ⟨2, ![16384, 384]⟩
abbrev S16384x1 : Shape := ⟨2, ![16384, 1]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S32x512, .f32⟩
  | 1 => ⟨S512x512, .f32⟩
  | 2 => ⟨S2x32x32768, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S1x32x32768, .f32⟩
  | 14 => ⟨S32x32768, .f32⟩
  | 15 => ⟨S32x512x1, .f32⟩
  | 16 => ⟨S32x512x64, .f32⟩
  | 17 => ⟨S32x512x65, .f32⟩
  | 18 => ⟨S512x65x32, .f32⟩
  | 19 => ⟨S512x2080, .f32⟩
  | 20 => ⟨S512x2080, .f32⟩
  | 21 => ⟨S512x2080, .f32⟩
  | 22 => ⟨S_, .f32⟩
  | 23 => ⟨S512x2080, .f32⟩
  | 24 => ⟨S512x2080, .f32⟩
  | 25 => ⟨S512x2080, .f32⟩
  | 26 => ⟨S1x512x2080, .f32⟩
  | 27 => ⟨S1x512x2080, .f32⟩
  | 28 => ⟨S1x512x2080, .f32⟩
  | 29 => ⟨S3x512x2080, .f32⟩
  | 30 => ⟨S3x512x65x32, .f32⟩
  | 31 => ⟨S32x512x65x3, .f32⟩
  | 32 => ⟨S16384x195, .f32⟩
  | 33 => ⟨S16384x128, .f32⟩
  | 34 => ⟨S1x128, .f32⟩
  | 35 => ⟨S16384x128, .f32⟩
  | 36 => ⟨S16384x128, .f32⟩
  | 37 => ⟨S32x65536, .f32⟩
  | 38 => ⟨S32x65536, .f32⟩
  | 39 => ⟨S32x65536, .f32⟩
  | 40 => ⟨S_, .f32⟩
  | 41 => ⟨S32x65536, .f32⟩
  | 42 => ⟨S32x65536, .f32⟩
  | 43 => ⟨S_, .f32⟩
  | 44 => ⟨S32x65536, .f32⟩
  | 45 => ⟨S32x65536, .f32⟩
  | 46 => ⟨S32x512x128, .f32⟩
  | 47 => ⟨S32x512x64, .f32⟩
  | 48 => ⟨S32x512x64, .f32⟩
  | 49 => ⟨S32x32768, .f32⟩
  | 50 => ⟨S32x32768, .f32⟩
  | 51 => ⟨S32x32768, .f32⟩
  | 52 => ⟨S32x512x1, .f32⟩
  | 53 => ⟨S32x512x64, .f32⟩
  | 54 => ⟨S32x512x65, .f32⟩
  | 55 => ⟨S512x65x32, .f32⟩
  | 56 => ⟨S512x2080, .f32⟩
  | 57 => ⟨S512x2080, .f32⟩
  | 58 => ⟨S512x2080, .f32⟩
  | 59 => ⟨S_, .f32⟩
  | 60 => ⟨S512x2080, .f32⟩
  | 61 => ⟨S512x2080, .f32⟩
  | 62 => ⟨S512x2080, .f32⟩
  | 63 => ⟨S1x512x2080, .f32⟩
  | 64 => ⟨S1x512x2080, .f32⟩
  | 65 => ⟨S1x512x2080, .f32⟩
  | 66 => ⟨S3x512x2080, .f32⟩
  | 67 => ⟨S3x512x65x32, .f32⟩
  | 68 => ⟨S32x512x65x3, .f32⟩
  | 69 => ⟨S16384x195, .f32⟩
  | 70 => ⟨S16384x64, .f32⟩
  | 71 => ⟨S1x64, .f32⟩
  | 72 => ⟨S16384x64, .f32⟩
  | 73 => ⟨S16384x64, .f32⟩
  | 74 => ⟨S32x32768, .f32⟩
  | 75 => ⟨S32x32768, .f32⟩
  | 76 => ⟨S32x32768, .f32⟩
  | 77 => ⟨S_, .f32⟩
  | 78 => ⟨S32x32768, .f32⟩
  | 79 => ⟨S32x32768, .f32⟩
  | 80 => ⟨S32x32768, .f32⟩
  | 81 => ⟨S32x32768, .f32⟩
  | 82 => ⟨S1x32x32768, .f32⟩
  | 83 => ⟨S32x32768, .f32⟩
  | 84 => ⟨S32x512x64, .f32⟩
  | 85 => ⟨S32x512x64, .f32⟩
  | 86 => ⟨S32x512x128, .f32⟩
  | 87 => ⟨S512x128x32, .f32⟩
  | 88 => ⟨S512x4096, .f32⟩
  | 89 => ⟨S512x4096, .f32⟩
  | 90 => ⟨S512x4096, .f32⟩
  | 91 => ⟨S_, .f32⟩
  | 92 => ⟨S512x4096, .f32⟩
  | 93 => ⟨S512x4096, .f32⟩
  | 94 => ⟨S512x4096, .f32⟩
  | 95 => ⟨S1x512x4096, .f32⟩
  | 96 => ⟨S1x512x4096, .f32⟩
  | 97 => ⟨S1x512x4096, .f32⟩
  | 98 => ⟨S3x512x4096, .f32⟩
  | 99 => ⟨S3x512x128x32, .f32⟩
  | 100 => ⟨S32x512x128x3, .f32⟩
  | 101 => ⟨S16384x384, .f32⟩
  | 102 => ⟨S16384x128, .f32⟩
  | 103 => ⟨S1x128, .f32⟩
  | 104 => ⟨S16384x128, .f32⟩
  | 105 => ⟨S16384x128, .f32⟩
  | 106 => ⟨S32x65536, .f32⟩
  | 107 => ⟨S32x65536, .f32⟩
  | 108 => ⟨S32x65536, .f32⟩
  | 109 => ⟨S_, .f32⟩
  | 110 => ⟨S32x65536, .f32⟩
  | 111 => ⟨S32x65536, .f32⟩
  | 112 => ⟨S_, .f32⟩
  | 113 => ⟨S32x65536, .f32⟩
  | 114 => ⟨S32x65536, .f32⟩
  | 115 => ⟨S32x512x128, .f32⟩
  | 116 => ⟨S32x512x64, .f32⟩
  | 117 => ⟨S32x512x64, .f32⟩
  | 118 => ⟨S32x32768, .f32⟩
  | 119 => ⟨S32x32768, .f32⟩
  | 120 => ⟨S32x32768, .f32⟩
  | 121 => ⟨S32x512x64, .f32⟩
  | 122 => ⟨S32x512x64, .f32⟩
  | 123 => ⟨S32x512x128, .f32⟩
  | 124 => ⟨S512x128x32, .f32⟩
  | 125 => ⟨S512x4096, .f32⟩
  | 126 => ⟨S512x4096, .f32⟩
  | 127 => ⟨S512x4096, .f32⟩
  | _ => ⟨S32x512, .f32⟩

abbrev hbmTy0_1 (i : Nat) : BufTy := match i % 128 with
  | 0 => ⟨S_, .f32⟩
  | 1 => ⟨S512x4096, .f32⟩
  | 2 => ⟨S512x4096, .f32⟩
  | 3 => ⟨S512x4096, .f32⟩
  | 4 => ⟨S1x512x4096, .f32⟩
  | 5 => ⟨S1x512x4096, .f32⟩
  | 6 => ⟨S1x512x4096, .f32⟩
  | 7 => ⟨S3x512x4096, .f32⟩
  | 8 => ⟨S3x512x128x32, .f32⟩
  | 9 => ⟨S32x512x128x3, .f32⟩
  | 10 => ⟨S16384x384, .f32⟩
  | 11 => ⟨S16384x64, .f32⟩
  | 12 => ⟨S1x64, .f32⟩
  | 13 => ⟨S16384x64, .f32⟩
  | 14 => ⟨S16384x64, .f32⟩
  | 15 => ⟨S32x32768, .f32⟩
  | 16 => ⟨S32x32768, .f32⟩
  | 17 => ⟨S32x32768, .f32⟩
  | 18 => ⟨S_, .f32⟩
  | 19 => ⟨S32x32768, .f32⟩
  | 20 => ⟨S32x32768, .f32⟩
  | 21 => ⟨S32x32768, .f32⟩
  | 22 => ⟨S32x32768, .f32⟩
  | 23 => ⟨S16384x64, .f32⟩
  | 24 => ⟨S16384x1, .f32⟩
  | 25 => ⟨S1x1, .f32⟩
  | 26 => ⟨S16384x1, .f32⟩
  | 27 => ⟨S16384x1, .f32⟩
  | 28 => ⟨S32x512, .f32⟩
  | 29 => ⟨S1x32x32768, .f32⟩
  | 30 => ⟨S1x32x32768, .f32⟩
  | 31 => ⟨S2x32x32768, .f32⟩
  | _ => ⟨S32x512, .f32⟩

abbrev hbmTy (i : Nat) : BufTy := match i / 128 with
  | 0 => hbmTy0_0 i
  | 1 => hbmTy0_1 i
  | _ => ⟨S32x512, .f32⟩

abbrev bufTy : (tb : Table) → Fin (tcTables nBuf tb) → BufTy
  | .hbm, ⟨i, _⟩ => hbmTy i
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_0 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_2 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_3 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_cst_4 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_cst_5 : Ref sig .tc := ⟨.hbm, 109, rfl⟩
abbrev main_v90 : Ref sig .tc := ⟨.hbm, 110, rfl⟩
abbrev main_v91 : Ref sig .tc := ⟨.hbm, 111, rfl⟩
abbrev main_cst_6 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_7 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_cst_8 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩

abbrev nD : Nat := 1
abbrev τ : Topo := Topo.v7x

variable {F : FTy → Type} [FloatOps F]

class Facts₀ : Prop where
  slices_S2x32x32768_S1x32x32768_0_0_0 : S2x32x32768.Slices ![0, 0, 0] S1x32x32768
  shapeCasts_S1x32x32768_S32x32768 : S1x32x32768.ShapeCasts S32x32768
  shapeCasts_S32x512_S32x512x1 : S32x512.ShapeCasts S32x512x1
  shapeCasts_S32x32768_S32x512x64 : S32x32768.ShapeCasts S32x512x64
  concatenates_S32x512x1_S32x512x64_S32x512x65_d2 : Shape.Concatenates [S32x512x1, S32x512x64] S32x512x65 2
  transposes_S32x512x65_S512x65x32_1_2_0 : S32x512x65.Transposes [1, 2, 0] S512x65x32
  shapeCasts_S512x65x32_S512x2080 : S512x65x32.ShapeCasts S512x2080
  bcast_S_S512x2080 : S_.BroadcastsInDim S512x2080 (![] : Fin 0 → Fin S512x2080.rank)
  bcast_S512x2080_S1x512x2080_1_2 : S512x2080.BroadcastsInDim S1x512x2080 (![1, 2] : Fin 2 → Fin S1x512x2080.rank)
  concatenates_S1x512x2080_S1x512x2080_S1x512x2080_S3x512x2080_d0 : Shape.Concatenates [S1x512x2080, S1x512x2080, S1x512x2080] S3x512x2080 0
  shapeCasts_S3x512x2080_S3x512x65x32 : S3x512x2080.ShapeCasts S3x512x65x32
  transposes_S3x512x65x32_S32x512x65x3_3_1_2_0 : S3x512x65x32.Transposes [3, 1, 2, 0] S32x512x65x3
  shapeCasts_S32x512x65x3_S16384x195 : S32x512x65x3.ShapeCasts S16384x195
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  shapeCasts_S16384x128_S32x65536 : S16384x128.ShapeCasts S32x65536
  bcast_S_S32x65536 : S_.BroadcastsInDim S32x65536 (![] : Fin 0 → Fin S32x65536.rank)
  shapeCasts_S32x65536_S32x512x128 : S32x65536.ShapeCasts S32x512x128
  slices_S32x512x128_S32x512x64_0_0_0 : S32x512x128.Slices ![0, 0, 0] S32x512x64
  slices_S32x512x128_S32x512x64_0_0_64 : S32x512x128.Slices ![0, 0, 64] S32x512x64
  shapeCasts_S32x512x64_S32x32768 : S32x512x64.ShapeCasts S32x32768
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S32x32768 : S16384x64.ShapeCasts S32x32768
  bcast_S_S32x32768 : S_.BroadcastsInDim S32x32768 (![] : Fin 0 → Fin S32x32768.rank)
  slices_S2x32x32768_S1x32x32768_1_0_0 : S2x32x32768.Slices ![1, 0, 0] S1x32x32768
  concatenates_S32x512x64_S32x512x64_S32x512x128_d2 : Shape.Concatenates [S32x512x64, S32x512x64] S32x512x128 2
  transposes_S32x512x128_S512x128x32_1_2_0 : S32x512x128.Transposes [1, 2, 0] S512x128x32
  shapeCasts_S512x128x32_S512x4096 : S512x128x32.ShapeCasts S512x4096
  bcast_S_S512x4096 : S_.BroadcastsInDim S512x4096 (![] : Fin 0 → Fin S512x4096.rank)
  bcast_S512x4096_S1x512x4096_1_2 : S512x4096.BroadcastsInDim S1x512x4096 (![1, 2] : Fin 2 → Fin S1x512x4096.rank)
  concatenates_S1x512x4096_S1x512x4096_S1x512x4096_S3x512x4096_d0 : Shape.Concatenates [S1x512x4096, S1x512x4096, S1x512x4096] S3x512x4096 0
  shapeCasts_S3x512x4096_S3x512x128x32 : S3x512x4096.ShapeCasts S3x512x128x32
  transposes_S3x512x128x32_S32x512x128x3_3_1_2_0 : S3x512x128x32.Transposes [3, 1, 2, 0] S32x512x128x3
  shapeCasts_S32x512x128x3_S16384x384 : S32x512x128x3.ShapeCasts S16384x384
  shapeCasts_S32x32768_S16384x64 : S32x32768.ShapeCasts S16384x64
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S32x512 : S16384x1.ShapeCasts S32x512
  bcast_S32x32768_S1x32x32768_1_2 : S32x32768.BroadcastsInDim S1x32x32768 (![1, 2] : Fin 2 → Fin S1x32x32768.rank)
  concatenates_S1x32x32768_S1x32x32768_S2x32x32768_d0 : Shape.Concatenates [S1x32x32768, S1x32x32768] S2x32x32768 0
  dot_S512x512_S512x2080_S512x2080_1_0_0_1_n_n_wf : DotDims.WF S512x512 S512x2080 S512x2080 [1] [0] [0] [1] [] []
  dot_S16384x195_S195x128_S16384x128_1_0_0_1_n_n_wf : DotDims.WF S16384x195 S195x128 S16384x128 [1] [0] [0] [1] [] []
  dot_S16384x195_S195x64_S16384x64_1_0_0_1_n_n_wf : DotDims.WF S16384x195 S195x64 S16384x64 [1] [0] [0] [1] [] []
  dot_S512x512_S512x4096_S512x4096_1_0_0_1_n_n_wf : DotDims.WF S512x512 S512x4096 S512x4096 [1] [0] [0] [1] [] []
  dot_S16384x384_S384x128_S16384x128_1_0_0_1_n_n_wf : DotDims.WF S16384x384 S384x128 S16384x128 [1] [0] [0] [1] [] []
  dot_S16384x384_S384x64_S16384x64_1_0_0_1_n_n_wf : DotDims.WF S16384x384 S384x64 S16384x64 [1] [0] [0] [1] [] []
  dot_S16384x64_S64x1_S16384x1_1_0_0_1_n_n_wf : DotDims.WF S16384x64 S64x1 S16384x1 [1] [0] [0] [1] [] []

variable [Facts₀]

def dot_S512x512_S512x2080_S512x2080_1_0_0_1_n_n : DotDims S512x512 S512x2080 S512x2080 where
  lhsContracting := [1]
  rhsContracting := [0]
  lhsNonContracting := [0]
  rhsNonContracting := [1]
  lhsBatch := []
  rhsBatch := []
  wf := dot_S512x512_S512x2080_S512x2080_1_0_0_1_n_n_wf
def dot_S16384x195_S195x128_S16384x128_1_0_0_1_n_n : DotDims S16384x195 S195x128 S16384x128 where
  lhsContracting := [1]
  rhsContracting := [0]
  lhsNonContracting := [0]
  rhsNonContracting := [1]
  lhsBatch := []
  rhsBatch := []
  wf := dot_S16384x195_S195x128_S16384x128_1_0_0_1_n_n_wf
def dot_S16384x195_S195x64_S16384x64_1_0_0_1_n_n : DotDims S16384x195 S195x64 S16384x64 where
  lhsContracting := [1]
  rhsContracting := [0]
  lhsNonContracting := [0]
  rhsNonContracting := [1]
  lhsBatch := []
  rhsBatch := []
  wf := dot_S16384x195_S195x64_S16384x64_1_0_0_1_n_n_wf
def dot_S512x512_S512x4096_S512x4096_1_0_0_1_n_n : DotDims S512x512 S512x4096 S512x4096 where
  lhsContracting := [1]
  rhsContracting := [0]
  lhsNonContracting := [0]
  rhsNonContracting := [1]
  lhsBatch := []
  rhsBatch := []
  wf := dot_S512x512_S512x4096_S512x4096_1_0_0_1_n_n_wf
def dot_S16384x384_S384x128_S16384x128_1_0_0_1_n_n : DotDims S16384x384 S384x128 S16384x128 where
  lhsContracting := [1]
  rhsContracting := [0]
  lhsNonContracting := [0]
  rhsNonContracting := [1]
  lhsBatch := []
  rhsBatch := []
  wf := dot_S16384x384_S384x128_S16384x128_1_0_0_1_n_n_wf
def dot_S16384x384_S384x64_S16384x64_1_0_0_1_n_n : DotDims S16384x384 S384x64 S16384x64 where
  lhsContracting := [1]
  rhsContracting := [0]
  lhsNonContracting := [0]
  rhsNonContracting := [1]
  lhsBatch := []
  rhsBatch := []
  wf := dot_S16384x384_S384x64_S16384x64_1_0_0_1_n_n_wf
def dot_S16384x64_S64x1_S16384x1_1_0_0_1_n_n : DotDims S16384x64 S64x1 S16384x1 where
  lhsContracting := [1]
  rhsContracting := [0]
  lhsNonContracting := [0]
  rhsNonContracting := [1]
  lhsBatch := []
  rhsBatch := []
  wf := dot_S16384x64_S64x1_S16384x1_1_0_0_1_n_n_wf

class Facts : Prop extends Facts₀ where

variable [Facts]
-- ==== Proof.RefRunP.lean ====
/-
  The reference program's host operations, in five consecutive stretches (ops is their concatenation), and its
  run: every execution ends with each result array at the operations' composed function of the argument arrays,
  the arguments unchanged. The composed functions are named stage by stage (res_main_vN) and each stretch is
  read on its own, from what the stretches before it left.
-/
import proofs.«168098_g44504451121623_cont_8to1_c_180_35_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in

def res_main_v1 (V0 : Valuation τ sig (Elt F)) : (Proc.devRef .tc main_v1 : DevRef τ sig).ty.Contents (Elt F) :=
  shapeCast _ (extractStridedSlice S1x32x32768 ![0, 0, 0] (V0 (Proc.devRef .tc main_arg2)) slices_S2x32x32768_S1x32x32768_0_0_0) shapeCasts_S1x32x32768_S32x32768

set_option maxRecDepth 8192 in

def res_main_v6 (V0 : Valuation τ sig (Elt F)) : (Proc.devRef .tc main_v6 : DevRef τ sig).ty.Contents (Elt F) :=
  shapeCast _ (transpose S512x65x32 [1, 2, 0] (concatenate S32x512x65 2 [⟨S32x512x1, (shapeCast _ (V0 (Proc.devRef .tc main_arg0)) shapeCasts_S32x512_S32x512x1)⟩, ⟨S32x512x64, (shapeCast _ (res_main_v1 V0) shapeCasts_S32x32768_S32x512x64)⟩] concatenates_S32x512x1_S32x512x64_S32x512x65_d2) transposes_S32x512x65_S512x65x32_1_2_0) shapeCasts_S512x65x32_S512x2080

set_option maxRecDepth 8192 in

def res_main_v7 (V0 : Valuation τ sig (Elt F)) : (Proc.devRef .tc main_v7 : DevRef τ sig).ty.Contents (Elt F) :=
  Host.dotGeneral dot_S512x512_S512x2080_S512x2080_1_0_0_1_n_n none (V0 (Proc.devRef .tc main_arg1)) (res_main_v6 V0)

set_option maxRecDepth 8192 in

def res_main_v30 (V0 : Valuation τ sig (Elt F)) : (Proc.devRef .tc main_v30 : DevRef τ sig).ty.Contents (Elt F) :=
  shapeCast _ (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast _ (addf (Host.dotGeneral dot_S16384x195_S195x128_S16384x128_1_0_0_1_n_n none (shapeCast _ (transpose S32x512x65x3 [3, 1, 2, 0] (shapeCast _ (concatenate S3x512x2080 0 [⟨S1x512x2080, (broadcastInDim S1x512x2080 ![1, 2] bcast_S512x2080_S1x512x2080_1_2 (res_main_v6 V0))⟩, ⟨S1x512x2080, (broadcastInDim S1x512x2080 ![1, 2] bcast_S512x2080_S1x512x2080_1_2 (res_main_v7 V0))⟩, ⟨S1x512x2080, (broadcastInDim S1x512x2080 ![1, 2] bcast_S512x2080_S1x512x2080_1_2 (subf (mulf (broadcastInDim S512x2080 ![] bcast_S_S512x2080 (constant S_ .f32 0x40000000#32)) (Host.dotGeneral dot_S512x512_S512x2080_S512x2080_1_0_0_1_n_n none (V0 (Proc.devRef .tc main_arg1)) (res_main_v7 V0))) (res_main_v6 V0)))⟩] concatenates_S1x512x2080_S1x512x2080_S1x512x2080_S3x512x2080_d0) shapeCasts_S3x512x2080_S3x512x65x32) transposes_S3x512x65x32_S32x512x65x3_3_1_2_0) shapeCasts_S32x512x65x3_S16384x195) (V0 (Proc.devRef .tc main_arg3))) (broadcastInDim S16384x128 ![0, 1] bcast_S1x128_S16384x128_0_1 (broadcastInDim S1x128 ![1] bcast_S128_S1x128_1 (V0 (Proc.devRef .tc main_arg4))))) shapeCasts_S16384x128_S32x65536))))) shapeCasts_S32x65536_S32x512x128

set_option maxRecDepth 8192 in

def res_main_v34 (V0 : Valuation τ sig (Elt F)) : (Proc.devRef .tc main_v34 : DevRef τ sig).ty.Contents (Elt F) :=
  shapeCast _ (extractStridedSlice S32x512x64 ![0, 0, 64] (res_main_v30 V0) slices_S32x512x128_S32x512x64_0_0_64) shapeCasts_S32x512x64_S32x32768

set_option maxRecDepth 8192 in

def res_main_v40 (V0 : Valuation τ sig (Elt F)) : (Proc.devRef .tc main_v40 : DevRef τ sig).ty.Contents (Elt F) :=
  shapeCast _ (transpose S512x65x32 [1, 2, 0] (concatenate S32x512x65 2 [⟨S32x512x1, (shapeCast _ (V0 (Proc.devRef .tc main_arg0)) shapeCasts_S32x512_S32x512x1)⟩, ⟨S32x512x64, (shapeCast _ (mulf (shapeCast _ (extractStridedSlice S32x512x64 ![0, 0, 0] (res_main_v30 V0) slices_S32x512x128_S32x512x64_0_0_0) shapeCasts_S32x512x64_S32x32768) (res_main_v1 V0)) shapeCasts_S32x32768_S32x512x64)⟩] concatenates_S32x512x1_S32x512x64_S32x512x65_d2) transposes_S32x512x65_S512x65x32_1_2_0) shapeCasts_S512x65x32_S512x2080

set_option maxRecDepth 8192 in

def res_main_v41 (V0 : Valuation τ sig (Elt F)) : (Proc.devRef .tc main_v41 : DevRef τ sig).ty.Contents (Elt F) :=
  Host.dotGeneral dot_S512x512_S512x2080_S512x2080_1_0_0_1_n_n none (V0 (Proc.devRef .tc main_arg1)) (res_main_v40 V0)

set_option maxRecDepth 8192 in

def res_main_v63 (V0 : Valuation τ sig (Elt F)) : (Proc.devRef .tc main_v63 : DevRef τ sig).ty.Contents (Elt F) :=
  addf (mulf (res_main_v34 V0) (res_main_v1 V0)) (mulf (subf (broadcastInDim S32x32768 ![] bcast_S_S32x32768 (constant S_ .f32 0x3F800000#32)) (res_main_v34 V0)) (Host.tanh (shapeCast _ (addf (Host.dotGeneral dot_S16384x195_S195x64_S16384x64_1_0_0_1_n_n none (shapeCast _ (transpose S32x512x65x3 [3, 1, 2, 0] (shapeCast _ (concatenate S3x512x2080 0 [⟨S1x512x2080, (broadcastInDim S1x512x2080 ![1, 2] bcast_S512x2080_S1x512x2080_1_2 (res_main_v40 V0))⟩, ⟨S1x512x2080, (broadcastInDim S1x512x2080 ![1, 2] bcast_S512x2080_S1x512x2080_1_2 (res_main_v41 V0))⟩, ⟨S1x512x2080, (broadcastInDim S1x512x2080 ![1, 2] bcast_S512x2080_S1x512x2080_1_2 (subf (mulf (broadcastInDim S512x2080 ![] bcast_S_S512x2080 (constant S_ .f32 0x40000000#32)) (Host.dotGeneral dot_S512x512_S512x2080_S512x2080_1_0_0_1_n_n none (V0 (Proc.devRef .tc main_arg1)) (res_main_v41 V0))) (res_main_v40 V0)))⟩] concatenates_S1x512x2080_S1x512x2080_S1x512x2080_S3x512x2080_d0) shapeCasts_S3x512x2080_S3x512x65x32) transposes_S3x512x65x32_S32x512x65x3_3_1_2_0) shapeCasts_S32x512x65x3_S16384x195) (V0 (Proc.devRef .tc main_arg5))) (broadcastInDim S16384x64 ![0, 1] bcast_S1x64_S16384x64_0_1 (broadcastInDim S1x64 ![1] bcast_S64_S1x64_1 (V0 (Proc.devRef .tc main_arg6))))) shapeCasts_S16384x64_S32x32768)))

set_option maxRecDepth 8192 in

def res_main_v65 (V0 : Valuation τ sig (Elt F)) : (Proc.devRef .tc main_v65 : DevRef τ sig).ty.Contents (Elt F) :=
  shapeCast _ (extractStridedSlice S1x32x32768 ![1, 0, 0] (V0 (Proc.devRef .tc main_arg2)) slices_S2x32x32768_S1x32x32768_1_0_0) shapeCasts_S1x32x32768_S32x32768

set_option maxRecDepth 8192 in

def res_main_v70 (V0 : Valuation τ sig (Elt F)) : (Proc.devRef .tc main_v70 : DevRef τ sig).ty.Contents (Elt F) :=
  shapeCast _ (transpose S512x128x32 [1, 2, 0] (concatenate S32x512x128 2 [⟨S32x512x64, (shapeCast _ (res_main_v63 V0) shapeCasts_S32x32768_S32x512x64)⟩, ⟨S32x512x64, (shapeCast _ (res_main_v65 V0) shapeCasts_S32x32768_S32x512x64)⟩] concatenates_S32x512x64_S32x512x64_S32x512x128_d2) transposes_S32x512x128_S512x128x32_1_2_0) shapeCasts_S512x128x32_S512x4096

set_option maxRecDepth 8192 in

def res_main_v71 (V0 : Valuation τ sig (Elt F)) : (Proc.devRef .tc main_v71 : DevRef τ sig).ty.Contents (Elt F) :=
  Host.dotGeneral dot_S512x512_S512x4096_S512x4096_1_0_0_1_n_n none (V0 (Proc.devRef .tc main_arg1)) (res_main_v70 V0)

set_option maxRecDepth 8192 in

def res_main_v94 (V0 : Valuation τ sig (Elt F)) : (Proc.devRef .tc main_v94 : DevRef τ sig).ty.Contents (Elt F) :=
  shapeCast _ (Host.divf (broadcastInDim S32x65536 ![] bcast_S_S32x65536 (constant S_ .f32 0x3F800000#32)) (addf (broadcastInDim S32x65536 ![] bcast_S_S32x65536 (constant S_ .f32 0x3F800000#32)) (Host.exp (Host.negf (shapeCast _ (addf (Host.dotGeneral dot_S16384x384_S384x128_S16384x128_1_0_0_1_n_n none (shapeCast _ (transpose S32x512x128x3 [3, 1, 2, 0] (shapeCast _ (concatenate S3x512x4096 0 [⟨S1x512x4096, (broadcastInDim S1x512x4096 ![1, 2] bcast_S512x4096_S1x512x4096_1_2 (res_main_v70 V0))⟩, ⟨S1x512x4096, (broadcastInDim S1x512x4096 ![1, 2] bcast_S512x4096_S1x512x4096_1_2 (res_main_v71 V0))⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none (V0 (Proc.devRef .tc main_arg1)) (res_main_v71 V0))) (res_main_v70 V0)))⟩] concatenates_S1x512x4096_S1x512x4096_S1x512x4096_S3x512x4096_d0) shapeCasts_S3x512x4096_S3x512x128x32) transposes_S3x512x128x32_S32x512x128x3_3_1_2_0) shapeCasts_S32x512x128x3_S16384x384) (V0 (Proc.devRef .tc main_arg7))) (broadcastInDim S16384x128 ![0, 1] bcast_S1x128_S16384x128_0_1 (broadcastInDim S1x128 ![1] bcast_S128_S1x128_1 (V0 (Proc.devRef .tc main_arg8))))) shapeCasts_S16384x128_S32x65536))))) shapeCasts_S32x65536_S32x512x128

set_option maxRecDepth 8192 in

def res_main_v98 (V0 : Valuation τ sig (Elt F)) : (Proc.devRef .tc main_v98 : DevRef τ sig).ty.Contents (Elt F) :=
  shapeCast _ (extractStridedSlice S32x512x64 ![0, 0, 64] (res_main_v94 V0) slices_S32x512x128_S32x512x64_0_0_64) shapeCasts_S32x512x64_S32x32768

set_option maxRecDepth 8192 in

def res_main_v104 (V0 : Valuation τ sig (Elt F)) : (Proc.devRef .tc main_v104 : DevRef τ sig).ty.Contents (Elt F) :=
  shapeCast _ (transpose S512x128x32 [1, 2, 0] (concatenate S32x512x128 2 [⟨S32x512x64, (shapeCast _ (res_main_v63 V0) shapeCasts_S32x32768_S32x512x64)⟩, ⟨S32x512x64, (shapeCast _ (mulf (shapeCast _ (extractStridedSlice S32x512x64 ![0, 0, 0] (res_main_v94 V0) slices_S32x512x128_S32x512x64_0_0_0) shapeCasts_S32x512x64_S32x32768) (res_main_v65 V0)) shapeCasts_S32x32768_S32x512x64)⟩] concatenates_S32x512x64_S32x512x64_S32x512x128_d2) transposes_S32x512x128_S512x128x32_1_2_0) shapeCasts_S512x128x32_S512x4096

set_option maxRecDepth 8192 in

def res_main_v105 (V0 : Valuation τ sig (Elt F)) : (Proc.devRef .tc main_v105 : DevRef τ sig).ty.Contents (Elt F) :=
  Host.dotGeneral dot_S512x512_S512x4096_S512x4096_1_0_0_1_n_n none (V0 (Proc.devRef .tc main_arg1)) (res_main_v104 V0)

set_option maxRecDepth 8192 in

def res_main_v127 (V0 : Valuation τ sig (Elt F)) : (Proc.devRef .tc main_v127 : DevRef τ sig).ty.Contents (Elt F) :=
  addf (mulf (res_main_v98 V0) (res_main_v65 V0)) (mulf (subf (broadcastInDim S32x32768 ![] bcast_S_S32x32768 (constant S_ .f32 0x3F800000#32)) (res_main_v98 V0)) (Host.tanh (shapeCast _ (addf (Host.dotGeneral dot_S16384x384_S384x64_S16384x64_1_0_0_1_n_n none (shapeCast _ (transpose S32x512x128x3 [3, 1, 2, 0] (shapeCast _ (concatenate S3x512x4096 0 [⟨S1x512x4096, (broadcastInDim S1x512x4096 ![1, 2] bcast_S512x4096_S1x512x4096_1_2 (res_main_v104 V0))⟩, ⟨S1x512x4096, (broadcastInDim S1x512x4096 ![1, 2] bcast_S512x4096_S1x512x4096_1_2 (res_main_v105 V0))⟩, ⟨S1x512x4096, (broadcastInDim S1x512x4096 ![1, 2] bcast_S512x4096_S1x512x4096_1_2 (subf (mulf (broadcastInDim S512x4096 ![] bcast_S_S512x4096 (constant S_ .f32 0x40000000#32)) (Host.dotGeneral dot_S512x512_S512x4096_S512x4096_1_0_0_1_n_n none (V0 (Proc.devRef .tc main_arg1)) (res_main_v105 V0))) (res_main_v104 V0)))⟩] concatenates_S1x512x4096_S1x512x4096_S1x512x4096_S3x512x4096_d0) shapeCasts_S3x512x4096_S3x512x128x32) transposes_S3x512x128x32_S32x512x128x3_3_1_2_0) shapeCasts_S32x512x128x3_S16384x384) (V0 (Proc.devRef .tc main_arg9))) (broadcastInDim S16384x64 ![0, 1] bcast_S1x64_S16384x64_0_1 (broadcastInDim S1x64 ![1] bcast_S64_S1x64_1 (V0 (Proc.devRef .tc main_arg10))))) shapeCasts_S16384x64_S32x32768)))

abbrev C1 : List (HloOp τ sig (Elt F)) :=
  [ unary main_arg2 main_v0 ((extractStridedSlice S1x32x32768 ![0, 0, 0] · slices_S2x32x32768_S1x32x32768_0_0_0) : (⟨S2x32x32768, .f32⟩ : BufTy).Contents (Elt F) → (⟨S1x32x32768, .f32⟩ : BufTy).Contents (Elt F)),
    reshape main_v0 main_v1 rfl shapeCasts_S1x32x32768_S32x32768,
    reshape main_arg0 main_v2 rfl shapeCasts_S32x512_S32x512x1,
    reshape main_v1 main_v3 rfl shapeCasts_S32x32768_S32x512x64,
    binary main_v2 main_v3 main_v4 ((fun a b => concatenate S32x512x65 2 [⟨S32x512x1, a⟩, ⟨S32x512x64, b⟩] concatenates_S32x512x1_S32x512x64_S32x512x65_d2) : (⟨S32x512x1, .f32⟩ : BufTy).Contents (Elt F) → (⟨S32x512x64, .f32⟩ : BufTy).Contents (Elt F) → (⟨S32x512x65, .f32⟩ : BufTy).Contents (Elt F)),
    unary main_v4 main_v5 ((transpose S512x65x32 [1, 2, 0] · transposes_S32x512x65_S512x65x32_1_2_0) : (⟨S32x512x65, .f32⟩ : BufTy).Contents (Elt F) → (⟨S512x65x32, .f32⟩ : BufTy).Contents (Elt F)),
    reshape main_v5 main_v6 rfl shapeCasts_S512x65x32_S512x2080,
    binary main_arg1 main_v6 main_v7 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    binary main_arg1 main_v7 main_v8 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    nullary main_cst (constant S_ .f32 0x40000000#32),
    unary main_cst main_v9 (broadcastInDim S512x2080 ![] bcast_S_S512x2080 : (⟨S_, .f32⟩ : BufTy).Contents (Elt F) → (⟨S512x2080, .f32⟩ : BufTy).Contents (Elt F)),
    binary main_v9 main_v8 main_v10 (mulf : (⟨S512x2080, .f32⟩ : BufTy).Contents (Elt F) → (⟨S512x2080, .f32⟩ : BufTy).Contents (Elt F) → (⟨S512x2080, .f32⟩ : BufTy).Contents (Elt F)),
    binary main_v10 main_v6 main_v11 (subf : (⟨S512x2080, .f32⟩ : BufTy).Contents (Elt F) → (⟨S512x2080, .f32⟩ : BufTy).Contents (Elt F) → (⟨S512x2080, .f32⟩ : BufTy).Contents (Elt F)),
    unary main_v6 main_v12 (broadcastInDim S1x512x2080 ![1, 2] bcast_S512x2080_S1x512x2080_1_2 : (⟨S512x2080, .f32⟩ : BufTy).Contents (Elt F) → (⟨S1x512x2080, .f32⟩ : BufTy).Contents (Elt F)),
    unary main_v7 main_v13 (broadcastInDim S1x512x2080 ![1, 2] bcast_S512x2080_S1x512x2080_1_2 : (⟨S512x2080, .f32⟩ : BufTy).Contents (Elt F) → (⟨S1x512x2080, .f32⟩ : BufTy).Contents (Elt F)),
    unary main_v11 main_v14 (broadcastInDim S1x512x2080 ![1, 2] bcast_S512x2080_S1x512x2080_1_2 : (⟨S512x2080, .f32⟩ : BufTy).Contents (Elt F) → (⟨S1x512x2080, .f32⟩ : BufTy).Contents (Elt F)),
    nary ![main_v12, main_v13, main_v14] main_v15 (fun u => concatenate S3x512x2080 0 [⟨S1x512x2080, u 0⟩, ⟨S1x512x2080, u 1⟩, ⟨S1x512x2080, u 2⟩] concatenates_S1x512x2080_S1x512x2080_S1x512x2080_S3x512x2080_d0),
    reshape main_v15 main_v16 rfl shapeCasts_S3x512x2080_S3x512x65x32,
    unary main_v16 main_v17 ((transpose S32x512x65x3 [3, 1, 2, 0] · transposes_S3x512x65x32_S32x512x65x3_3_1_2_0) : (⟨S3x512x65x32, .f32⟩ : BufTy).Contents (Elt F) → (⟨S32x512x65x3, .f32⟩ : BufTy).Contents (Elt F)),
    reshape main_v17 main_v18 rfl shapeCasts_S32x512x65x3_S16384x195,
    binary main_v18 main_arg3 main_v19 ((fun l r => Host.dotGeneral dot_S16384x195_S195x128_S16384x128_1_0_0_1_n_n none l r) : (⟨S16384x195, .f32⟩ : BufTy).Contents (Elt F) → (⟨S195x128, .f32⟩ : BufTy).Contents (Elt F) → (⟨S16384x128, .f32⟩ : BufTy).Contents (Elt F)),
    unary main_arg4 main_v20 (broadcastInDim S1x128 ![1] bcast_S128_S1x128_1 : (⟨S128, .f32⟩ : BufTy).Contents (Elt F) → (⟨S1x128, .f32⟩ : BufTy).Contents (Elt F)),
    unary main_v20 main_v21 (broadcastInDim S16384x128 ![0, 1] bcast_S1x128_S16384x128_0_1 : (⟨S1x128, .f32⟩ : BufTy).Contents (Elt F) → (⟨S16384x128, .f32⟩ : BufTy).Contents (Elt F)),
    binary main_v19 main_v21 main_v22 (addf : (⟨S16384x128, .f32⟩ : BufTy).Contents (Elt F) → (⟨S16384x128, .f32⟩ : BufTy).Contents (Elt F) → (⟨S16384x128, .f32⟩ : BufTy).Contents (Elt F)),
    reshape main_v22 main_v23 rfl shapeCasts_S16384x128_S32x65536,
    unary main_v23 main_v24 (Host.negf : (⟨S32x65536, .f32⟩ : BufTy).Contents (Elt F) → (⟨S32x65536, .f32⟩ : BufTy).Contents (Elt F)),
    unary main_v24 main_v25 (Host.exp : (⟨S32x65536, .f32⟩ : BufTy).Contents (Elt F) → (⟨S32x65536, .f32⟩ : BufTy).Contents (Elt F)),
    nullary main_cst_0 (constant S_ .f32 0x3F800000#32),
    unary main_cst_0 main_v26 (broadcastInDim S32x65536 ![] bcast_S_S32x65536 : (⟨S_, .f32⟩ : BufTy).Contents (Elt F) → (⟨S32x65536, .f32⟩ : BufTy).Contents (Elt F)),
    binary main_v26 main_v25 main_v27 (addf : (⟨S32x65536, .f32⟩ : BufTy).Contents (Elt F) → (⟨S32x65536, .f32⟩ : BufTy).Contents (Elt F) → (⟨S32x65536, .f32⟩ : BufTy).Contents (Elt F)),
    nullary main_cst_1 (constant S_ .f32 0x3F800000#32),
    unary main_cst_1 main_v28 (broadcastInDim S32x65536 ![] bcast_S_S32x65536 : (⟨S_, .f32⟩ : BufTy).Contents (Elt F) → (⟨S32x65536, .f32⟩ : BufTy).Contents (Elt F)),
    binary main_v28 main_v27 main_v29 (Host.divf : (⟨S32x65536, .f32⟩ : BufTy).Contents (Elt F) → (⟨S32x65536, .f32⟩ : BufTy).Contents (Elt F) → (⟨S32x65536, .f32⟩ : BufTy).Contents (Elt F)),
    reshape main_v29 main_v30 rfl shapeCasts_S32x65536_S32x512x128 ]

abbrev C1_W : List (Ref sig .tc) := [main_v0, main_v1, main_v2, main_v3, main_v4, main_v5, main_v6, main_v7, main_v8, main_cst, main_v9, main_v10, main_v11, main_v12, main_v13, main_v14, main_v15, main_v16, main_v17, main_v18, main_v19, main_v20, main_v21, main_v22, main_v23, main_v24, main_v25, main_cst_0, main_v26, main_v27, main_cst_1, main_v28, main_v29, main_v30]

abbrev C2 : List (HloOp τ sig (Elt F)) :=
  [ unary main_v30 main_v31 ((extractStridedSlice S32x512x64 ![0, 0, 0] · slices_S32x512x128_S32x512x64_0_0_0) : (⟨S32x512x128, .f32⟩ : BufTy).Contents (Elt F) → (⟨S32x512x64, .f32⟩ : BufTy).Contents (Elt F)),
    unary main_v30 main_v32 ((extractStridedSlice S32x512x64 ![0, 0, 64] · slices_S32x512x128_S32x512x64_0_0_64) : (⟨S32x512x128, .f32⟩ : BufTy).Contents (Elt F) → (⟨S32x512x64, .f32⟩ : BufTy).Contents (Elt F)),
    reshape main_v31 main_v33 rfl shapeCasts_S32x512x64_S32x32768,
    reshape main_v32 main_v34 rfl shapeCasts_S32x512x64_S32x32768,
    binary main_v33 main_v1 main_v35 (mulf : (⟨S32x32768, .f32⟩ : BufTy).Contents (Elt F) → (⟨S32x32768, .f32⟩ : BufTy).Contents (Elt F) → (⟨S32x32768, .f32⟩ : BufTy).Contents (Elt F)),
    reshape main_arg0 main_v36 rfl shapeCasts_S32x512_S32x512x1,
    reshape main_v35 main_v37 rfl shapeCasts_S32x32768_S32x512x64,
    binary main_v36 main_v37 main_v38 ((fun a b => concatenate S32x512x65 2 [⟨S32x512x1, a⟩, ⟨S32x512x64, b⟩] concatenates_S32x512x1_S32x512x64_S32x512x65_d2) : (⟨S32x512x1, .f32⟩ : BufTy).Contents (Elt F) → (⟨S32x512x64, .f32⟩ : BufTy).Contents (Elt F) → (⟨S32x512x65, .f32⟩ : BufTy).Contents (Elt F)),
    unary main_v38 main_v39 ((transpose S512x65x32 [1, 2, 0] · transposes_S32x512x65_S512x65x32_1_2_0) : (⟨S32x512x65, .f32⟩ : BufTy).Contents (Elt F) → (⟨S512x65x32, .f32⟩ : BufTy).Contents (Elt F)),
    reshape main_v39 main_v40 rfl shapeCasts_S512x65x32_S512x2080,
    binary main_arg1 main_v40 main_v41 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    binary main_arg1 main_v41 main_v42 ((fun l r => Host.dotGeneral dot_S512x512_S512x2080_S512x2080_1_0_0_1_n_n none l r) : (⟨S512x512, .f32⟩ : BufTy).Contents (Elt F) → (⟨S512x2080, .f32⟩ : BufTy).Contents (Elt F) → (⟨S512x2080, .f32⟩ : BufTy).Contents (Elt F)),
    nullary main_cst_2 (constant S_ .f32 0x40000000#32),
    unary main_cst_2 main_v43 (broadcastInDim S512x2080 ![] bcast_S_S512x2080 : (⟨S_, .f32⟩ : BufTy).Contents (Elt F) → (⟨S512x2080, .f32⟩ : BufTy).Contents (Elt F)),
    binary main_v43 main_v42 main_v44 (mulf : (⟨S512x2080, .f32⟩ : BufTy).Contents (Elt F) → (⟨S512x2080, .f32⟩ : BufTy).Contents (Elt F) → (⟨S512x2080, .f32⟩ : BufTy).Contents (Elt F)),
    binary main_v44 main_v40 main_v45 (subf : (⟨S512x2080, .f32⟩ : BufTy).Contents (Elt F) → (⟨S512x2080, .f32⟩ : BufTy).Contents (Elt F) → (⟨S512x2080, .f32⟩ : BufTy).Contents (Elt F)),
    unary main_v40 main_v46 (broadcastInDim S1x512x2080 ![1, 2] bcast_S512x2080_S1x512x2080_1_2 : (⟨S512x2080, .f32⟩ : BufTy).Contents (Elt F) → (⟨S1x512x2080, .f32⟩ : BufTy).Contents (Elt F)),
    unary main_v41 main_v47 (broadcastInDim S1x512x2080 ![1, 2] bcast_S512x2080_S1x512x2080_1_2 : (⟨S512x2080, .f32⟩ : BufTy).Contents (Elt F) → (⟨S1x512x2080, .f32⟩ : BufTy).Contents (Elt F)),
    unary main_v45 main_v48 (broadcastInDim S1x512x2080 ![1, 2] bcast_S512x2080_S1x512x2080_1_2 : (⟨S512x2080, .f32⟩ : BufTy).Contents (Elt F) → (⟨S1x512x2080, .f32⟩ : BufTy).Contents (Elt F)),
    nary ![main_v46, main_v47, main_v48] main_v49 (fun u => concatenate S3x512x2080 0 [⟨S1x512x2080, u 0⟩, ⟨S1x512x2080, u 1⟩, ⟨S1x512x2080, u 2⟩] concatenates_S1x512x2080_S1x512x2080_S1x512x2080_S3x512x2080_d0),
    reshape main_v49 main_v50 rfl shapeCasts_S3x512x2080_S3x512x65x32,
    unary main_v50 main_v51 ((transpose S32x512x65x3 [3, 1, 2, 0] · transposes_S3x512x65x32_S32x512x65x3_3_1_2_0) : (⟨S3x512x65x32, .f32⟩ : BufTy).Contents (Elt F) → (⟨S32x512x65x3, .f32⟩ : BufTy).Contents (Elt F)),
    reshape main_v51 main_v52 rfl shapeCasts_S32x512x65x3_S16384x195,
    binary main_v52 main_arg5 main_v53 ((fun l r => Host.dotGeneral dot_S16384x195_S195x64_S16384x64_1_0_0_1_n_n none l r) : (⟨S16384x195, .f32⟩ : BufTy).Contents (Elt F) → (⟨S195x64, .f32⟩ : BufTy).Contents (Elt F) → (⟨S16384x64, .f32⟩ : BufTy).Contents (Elt F)),
    unary main_arg6 main_v54 (broadcastInDim S1x64 ![1] bcast_S64_S1x64_1 : (⟨S64, .f32⟩ : BufTy).Contents (Elt F) → (⟨S1x64, .f32⟩ : BufTy).Contents (Elt F)),
    unary main_v54 main_v55 (broadcastInDim S16384x64 ![0, 1] bcast_S1x64_S16384x64_0_1 : (⟨S1x64, .f32⟩ : BufTy).Contents (Elt F) → (⟨S16384x64, .f32⟩ : BufTy).Contents (Elt F)),
    binary main_v53 main_v55 main_v56 (addf : (⟨S16384x64, .f32⟩ : BufTy).Contents (Elt F) → (⟨S16384x64, .f32⟩ : BufTy).Contents (Elt F) → (⟨S16384x64, .f32⟩ : BufTy).Contents (Elt F)),
    reshape main_v56 main_v57 rfl shapeCasts_S16384x64_S32x32768,
    unary main_v57 main_v58 (Host.tanh : (⟨S32x32768, .f32⟩ : BufTy).Contents (Elt F) → (⟨S32x32768, .f32⟩ : BufTy).Contents (Elt F)),
    binary main_v34 main_v1 main_v59 (mulf : (⟨S32x32768, .f32⟩ : BufTy).Contents (Elt F) → (⟨S32x32768, .f32⟩ : BufTy).Contents (Elt F) → (⟨S32x32768, .f32⟩ : BufTy).Contents (Elt F)),
    nullary main_cst_3 (constant S_ .f32 0x3F800000#32),
    unary main_cst_3 main_v60 (broadcastInDim S32x32768 ![] bcast_S_S32x32768 : (⟨S_, .f32⟩ : BufTy).Contents (Elt F) → (⟨S32x32768, .f32⟩ : BufTy).Contents (Elt F)),
    binary main_v60 main_v34 main_v61 (subf : (⟨S32x32768, .f32⟩ : BufTy).Contents (Elt F) → (⟨S32x32768, .f32⟩ : BufTy).Contents (Elt F) → (⟨S32x32768, .f32⟩ : BufTy).Contents (Elt F)),
    binary main_v61 main_v58 main_v62 (mulf : (⟨S32x32768, .f32⟩ : BufTy).Contents (Elt F) → (⟨S32x32768, .f32⟩ : BufTy).Contents (Elt F) → (⟨S32x32768, .f32⟩ : BufTy).Contents (Elt F)),
    binary main_v59 main_v62 main_v63 (addf : (⟨S32x32768, .f32⟩ : BufTy).Contents (Elt F) → (⟨S32x32768, .f32⟩ : BufTy).Contents (Elt F) → (⟨S32x32768, .f32⟩ : BufTy).Contents (Elt F)) ]

abbrev C2_W : List (Ref sig .tc) := [main_v31, main_v32, main_v33, main_v34, main_v35, main_v36, main_v37, main_v38, main_v39, main_v40, main_v41, main_v42, main_cst_2, main_v43, main_v44, main_v45, main_v46, main_v47, main_v48, main_v49, main_v50, main_v51, main_v52, main_v53, main_v54, main_v55, main_v56, main_v57, main_v58, main_v59, main_cst_3, main_v60, main_v61, main_v62, main_v63]

abbrev C3 : List (HloOp τ sig (Elt F)) :=
  [ unary main_arg2 main_v64 ((extractStridedSlice S1x32x32768 ![1, 0, 0] · slices_S2x32x32768_S1x32x32768_1_0_0) : (⟨S2x32x32768, .f32⟩ : BufTy).Contents (Elt F) → (⟨S1x32x32768, .f32⟩ : BufTy).Contents (Elt F)),
    reshape main_v64 main_v65 rfl shapeCasts_S1x32x32768_S32x32768,
    reshape main_v63 main_v66 rfl shapeCasts_S32x32768_S32x512x64,
    reshape main_v65 main_v67 rfl shapeCasts_S32x32768_S32x512x64,
    binary main_v66 main_v67 main_v68 ((fun a b => concatenate S32x512x128 2 [⟨S32x512x64, a⟩, ⟨S32x512x64, b⟩] concatenates_S32x512x64_S32x512x64_S32x512x128_d2) : (⟨S32x512x64, .f32⟩ : BufTy).Contents (Elt F) → (⟨S32x512x64, .f32⟩ : BufTy).Contents (Elt F) → (⟨S32x512x128, .f32⟩ : BufTy).Contents (Elt F)),
    unary main_v68 main_v69 ((transpose S512x128x32 [1, 2, 0] · transposes_S32x512x128_S512x128x32_1_2_0) : (⟨S32x512x128, .f32⟩ : BufTy).Contents (Elt F) → (⟨S512x128x32, .f32⟩ : BufTy).Contents (Elt F)),
    reshape main_v69 main_v70 rfl shapeCasts_S512x128x32_S512x4096,
    binary main_arg1 main_v70 main_v71 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    binary main_arg1 main_v71 main_v72 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    nullary main_cst_4 (constant S_ .f32 0x40000000#32),
    unary main_cst_4 main_v73 (broadcastInDim S512x4096 ![] bcast_S_S512x4096 : (⟨S_, .f32⟩ : BufTy).Contents (Elt F) → (⟨S512x4096, .f32⟩ : BufTy).Contents (Elt F)),
    binary main_v73 main_v72 main_v74 (mulf : (⟨S512x4096, .f32⟩ : BufTy).Contents (Elt F) → (⟨S512x4096, .f32⟩ : BufTy).Contents (Elt F) → (⟨S512x4096, .f32⟩ : BufTy).Contents (Elt F)),
    binary main_v74 main_v70 main_v75 (subf : (⟨S512x4096, .f32⟩ : BufTy).Contents (Elt F) → (⟨S512x4096, .f32⟩ : BufTy).Contents (Elt F) → (⟨S512x4096, .f32⟩ : BufTy).Contents (Elt F)),
    unary main_v70 main_v76 (broadcastInDim S1x512x4096 ![1, 2] bcast_S512x4096_S1x512x4096_1_2 : (⟨S512x4096, .f32⟩ : BufTy).Contents (Elt F) → (⟨S1x512x4096, .f32⟩ : BufTy).Contents (Elt F)),
    unary main_v71 main_v77 (broadcastInDim S1x512x4096 ![1, 2] bcast_S512x4096_S1x512x4096_1_2 : (⟨S512x4096, .f32⟩ : BufTy).Contents (Elt F) → (⟨S1x512x4096, .f32⟩ : BufTy).Contents (Elt F)),
    unary main_v75 main_v78 (broadcastInDim S1x512x4096 ![1, 2] bcast_S512x4096_S1x512x4096_1_2 : (⟨S512x4096, .f32⟩ : BufTy).Contents (Elt F) → (⟨S1x512x4096, .f32⟩ : BufTy).Contents (Elt F)),
    nary ![main_v76, main_v77, main_v78] main_v79 (fun u => concatenate S3x512x4096 0 [⟨S1x512x4096, u 0⟩, ⟨S1x512x4096, u 1⟩, ⟨S1x512x4096, u 2⟩] concatenates_S1x512x4096_S1x512x4096_S1x512x4096_S3x512x4096_d0),
    reshape main_v79 main_v80 rfl shapeCasts_S3x512x4096_S3x512x128x32,
    unary main_v80 main_v81 ((transpose S32x512x128x3 [3, 1, 2, 0] · transposes_S3x512x128x32_S32x512x128x3_3_1_2_0) : (⟨S3x512x128x32, .f32⟩ : BufTy).Contents (Elt F) → (⟨S32x512x128x3, .f32⟩ : BufTy).Contents (Elt F)),
    reshape main_v81 main_v82 rfl shapeCasts_S32x512x128x3_S16384x384,
    binary main_v82 main_arg7 main_v83 ((fun l r => Host.dotGeneral dot_S16384x384_S384x128_S16384x128_1_0_0_1_n_n none l r) : (⟨S16384x384, .f32⟩ : BufTy).Contents (Elt F) → (⟨S384x128, .f32⟩ : BufTy).Contents (Elt F) → (⟨S16384x128, .f32⟩ : BufTy).Contents (Elt F)),
    unary main_arg8 main_v84 (broadcastInDim S1x128 ![1] bcast_S128_S1x128_1 : (⟨S128, .f32⟩ : BufTy).Contents (Elt F) → (⟨S1x128, .f32⟩ : BufTy).Contents (Elt F)),
    unary main_v84 main_v85 (broadcastInDim S16384x128 ![0, 1] bcast_S1x128_S16384x128_0_1 : (⟨S1x128, .f32⟩ : BufTy).Contents (Elt F) → (⟨S16384x128, .f32⟩ : BufTy).Contents (Elt F)),
    binary main_v83 main_v85 main_v86 (addf : (⟨S16384x128, .f32⟩ : BufTy).Contents (Elt F) → (⟨S16384x128, .f32⟩ : BufTy).Contents (Elt F) → (⟨S16384x128, .f32⟩ : BufTy).Contents (Elt F)),
    reshape main_v86 main_v87 rfl shapeCasts_S16384x128_S32x65536,
    unary main_v87 main_v88 (Host.negf : (⟨S32x65536, .f32⟩ : BufTy).Contents (Elt F) → (⟨S32x65536, .f32⟩ : BufTy).Contents (Elt F)),
    unary main_v88 main_v89 (Host.exp : (⟨S32x65536, .f32⟩ : BufTy).Contents (Elt F) → (⟨S32x65536, .f32⟩ : BufTy).Contents (Elt F)),
    nullary main_cst_5 (constant S_ .f32 0x3F800000#32),
    unary main_cst_5 main_v90 (broadcastInDim S32x65536 ![] bcast_S_S32x65536 : (⟨S_, .f32⟩ : BufTy).Contents (Elt F) → (⟨S32x65536, .f32⟩ : BufTy).Contents (Elt F)),
    binary main_v90 main_v89 main_v91 (addf : (⟨S32x65536, .f32⟩ : BufTy).Contents (Elt F) → (⟨S32x65536, .f32⟩ : BufTy).Contents (Elt F) → (⟨S32x65536, .f32⟩ : BufTy).Contents (Elt F)),
    nullary main_cst_6 (constant S_ .f32 0x3F800000#32),
    unary main_cst_6 main_v92 (broadcastInDim S32x65536 ![] bcast_S_S32x65536 : (⟨S_, .f32⟩ : BufTy).Contents (Elt F) → (⟨S32x65536, .f32⟩ : BufTy).Contents (Elt F)),
    binary main_v92 main_v91 main_v93 (Host.divf : (⟨S32x65536, .f32⟩ : BufTy).Contents (Elt F) → (⟨S32x65536, .f32⟩ : BufTy).Contents (Elt F) → (⟨S32x65536, .f32⟩ : BufTy).Contents (Elt F)),
    reshape main_v93 main_v94 rfl shapeCasts_S32x65536_S32x512x128 ]

abbrev C3_W : List (Ref sig .tc) := [main_v64, main_v65, main_v66, main_v67, main_v68, main_v69, main_v70, main_v71, main_v72, main_cst_4, main_v73, main_v74, main_v75, main_v76, main_v77, main_v78, main_v79, main_v80, main_v81, main_v82, main_v83, main_v84, main_v85, main_v86, main_v87, main_v88, main_v89, main_cst_5, main_v90, main_v91, main_cst_6, main_v92, main_v93, main_v94]

abbrev C4 : List (HloOp τ sig (Elt F)) :=
  [ unary main_v94 main_v95 ((extractStridedSlice S32x512x64 ![0, 0, 0] · slices_S32x512x128_S32x512x64_0_0_0) : (⟨S32x512x128, .f32⟩ : BufTy).Contents (Elt F) → (⟨S32x512x64, .f32⟩ : BufTy).Contents (Elt F)),
    unary main_v94 main_v96 ((extractStridedSlice S32x512x64 ![0, 0, 64] · slices_S32x512x128_S32x512x64_0_0_64) : (⟨S32x512x128, .f32⟩ : BufTy).Contents (Elt F) → (⟨S32x512x64, .f32⟩ : BufTy).Contents (Elt F)),
    reshape main_v95 main_v97 rfl shapeCasts_S32x512x64_S32x32768,
    reshape main_v96 main_v98 rfl shapeCasts_S32x512x64_S32x32768,
    binary main_v97 main_v65 main_v99 (mulf : (⟨S32x32768, .f32⟩ : BufTy).Contents (Elt F) → (⟨S32x32768, .f32⟩ : BufTy).Contents (Elt F) → (⟨S32x32768, .f32⟩ : BufTy).Contents (Elt F)),
    reshape main_v63 main_v100 rfl shapeCasts_S32x32768_S32x512x64,
    reshape main_v99 main_v101 rfl shapeCasts_S32x32768_S32x512x64,
    binary main_v100 main_v101 main_v102 ((fun a b => concatenate S32x512x128 2 [⟨S32x512x64, a⟩, ⟨S32x512x64, b⟩] concatenates_S32x512x64_S32x512x64_S32x512x128_d2) : (⟨S32x512x64, .f32⟩ : BufTy).Contents (Elt F) → (⟨S32x512x64, .f32⟩ : BufTy).Contents (Elt F) → (⟨S32x512x128, .f32⟩ : BufTy).Contents (Elt F)),
    unary main_v102 main_v103 ((transpose S512x128x32 [1, 2, 0] · transposes_S32x512x128_S512x128x32_1_2_0) : (⟨S32x512x128, .f32⟩ : BufTy).Contents (Elt F) → (⟨S512x128x32, .f32⟩ : BufTy).Contents (Elt F)),
    reshape main_v103 main_v104 rfl shapeCasts_S512x128x32_S512x4096,
    binary main_arg1 main_v104 main_v105 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    binary main_arg1 main_v105 main_v106 ((fun l r => Host.dotGeneral dot_S512x512_S512x4096_S512x4096_1_0_0_1_n_n none l r) : (⟨S512x512, .f32⟩ : BufTy).Contents (Elt F) → (⟨S512x4096, .f32⟩ : BufTy).Contents (Elt F) → (⟨S512x4096, .f32⟩ : BufTy).Contents (Elt F)),
    nullary main_cst_7 (constant S_ .f32 0x40000000#32),
    unary main_cst_7 main_v107 (broadcastInDim S512x4096 ![] bcast_S_S512x4096 : (⟨S_, .f32⟩ : BufTy).Contents (Elt F) → (⟨S512x4096, .f32⟩ : BufTy).Contents (Elt F)),
    binary main_v107 main_v106 main_v108 (mulf : (⟨S512x4096, .f32⟩ : BufTy).Contents (Elt F) → (⟨S512x4096, .f32⟩ : BufTy).Contents (Elt F) → (⟨S512x4096, .f32⟩ : BufTy).Contents (Elt F)),
    binary main_v108 main_v104 main_v109 (subf : (⟨S512x4096, .f32⟩ : BufTy).Contents (Elt F) → (⟨S512x4096, .f32⟩ : BufTy).Contents (Elt F) → (⟨S512x4096, .f32⟩ : BufTy).Contents (Elt F)),
    unary main_v104 main_v110 (broadcastInDim S1x512x4096 ![1, 2] bcast_S512x4096_S1x512x4096_1_2 : (⟨S512x4096, .f32⟩ : BufTy).Contents (Elt F) → (⟨S1x512x4096, .f32⟩ : BufTy).Contents (Elt F)),
    unary main_v105 main_v111 (broadcastInDim S1x512x4096 ![1, 2] bcast_S512x4096_S1x512x4096_1_2 : (⟨S512x4096, .f32⟩ : BufTy).Contents (Elt F) → (⟨S1x512x4096, .f32⟩ : BufTy).Contents (Elt F)),
    unary main_v109 main_v112 (broadcastInDim S1x512x4096 ![1, 2] bcast_S512x4096_S1x512x4096_1_2 : (⟨S512x4096, .f32⟩ : BufTy).Contents (Elt F) → (⟨S1x512x4096, .f32⟩ : BufTy).Contents (Elt F)),
    nary ![main_v110, main_v111, main_v112] main_v113 (fun u => concatenate S3x512x4096 0 [⟨S1x512x4096, u 0⟩, ⟨S1x512x4096, u 1⟩, ⟨S1x512x4096, u 2⟩] concatenates_S1x512x4096_S1x512x4096_S1x512x4096_S3x512x4096_d0),
    reshape main_v113 main_v114 rfl shapeCasts_S3x512x4096_S3x512x128x32,
    unary main_v114 main_v115 ((transpose S32x512x128x3 [3, 1, 2, 0] · transposes_S3x512x128x32_S32x512x128x3_3_1_2_0) : (⟨S3x512x128x32, .f32⟩ : BufTy).Contents (Elt F) → (⟨S32x512x128x3, .f32⟩ : BufTy).Contents (Elt F)),
    reshape main_v115 main_v116 rfl shapeCasts_S32x512x128x3_S16384x384,
    binary main_v116 main_arg9 main_v117 ((fun l r => Host.dotGeneral dot_S16384x384_S384x64_S16384x64_1_0_0_1_n_n none l r) : (⟨S16384x384, .f32⟩ : BufTy).Contents (Elt F) → (⟨S384x64, .f32⟩ : BufTy).Contents (Elt F) → (⟨S16384x64, .f32⟩ : BufTy).Contents (Elt F)),
    unary main_arg10 main_v118 (broadcastInDim S1x64 ![1] bcast_S64_S1x64_1 : (⟨S64, .f32⟩ : BufTy).Contents (Elt F) → (⟨S1x64, .f32⟩ : BufTy).Contents (Elt F)),
    unary main_v118 main_v119 (broadcastInDim S16384x64 ![0, 1] bcast_S1x64_S16384x64_0_1 : (⟨S1x64, .f32⟩ : BufTy).Contents (Elt F) → (⟨S16384x64, .f32⟩ : BufTy).Contents (Elt F)),
    binary main_v117 main_v119 main_v120 (addf : (⟨S16384x64, .f32⟩ : BufTy).Contents (Elt F) → (⟨S16384x64, .f32⟩ : BufTy).Contents (Elt F) → (⟨S16384x64, .f32⟩ : BufTy).Contents (Elt F)),
    reshape main_v120 main_v121 rfl shapeCasts_S16384x64_S32x32768,
    unary main_v121 main_v122 (Host.tanh : (⟨S32x32768, .f32⟩ : BufTy).Contents (Elt F) → (⟨S32x32768, .f32⟩ : BufTy).Contents (Elt F)),
    binary main_v98 main_v65 main_v123 (mulf : (⟨S32x32768, .f32⟩ : BufTy).Contents (Elt F) → (⟨S32x32768, .f32⟩ : BufTy).Contents (Elt F) → (⟨S32x32768, .f32⟩ : BufTy).Contents (Elt F)),
    nullary main_cst_8 (constant S_ .f32 0x3F800000#32),
    unary main_cst_8 main_v124 (broadcastInDim S32x32768 ![] bcast_S_S32x32768 : (⟨S_, .f32⟩ : BufTy).Contents (Elt F) → (⟨S32x32768, .f32⟩ : BufTy).Contents (Elt F)),
    binary main_v124 main_v98 main_v125 (subf : (⟨S32x32768, .f32⟩ : BufTy).Contents (Elt F) → (⟨S32x32768, .f32⟩ : BufTy).Contents (Elt F) → (⟨S32x32768, .f32⟩ : BufTy).Contents (Elt F)),
    binary main_v125 main_v122 main_v126 (mulf : (⟨S32x32768, .f32⟩ : BufTy).Contents (Elt F) → (⟨S32x32768, .f32⟩ : BufTy).Contents (Elt F) → (⟨S32x32768, .f32⟩ : BufTy).Contents (Elt F)),
    binary main_v123 main_v126 main_v127 (addf : (⟨S32x32768, .f32⟩ : BufTy).Contents (Elt F) → (⟨S32x32768, .f32⟩ : BufTy).Contents (Elt F) → (⟨S32x32768, .f32⟩ : BufTy).Contents (Elt F)) ]

abbrev C4_W : List (Ref sig .tc) := [main_v95, main_v96, main_v97, main_v98, main_v99, main_v100, main_v101, main_v102, main_v103, main_v104, main_v105, main_v106, main_cst_7, main_v107, main_v108, main_v109, main_v110, main_v111, main_v112, main_v113, main_v114, main_v115, main_v116, main_v117, main_v118, main_v119, main_v120, main_v121, main_v122, main_v123, main_cst_8, main_v124, main_v125, main_v126, main_v127]

abbrev C5 : List (HloOp τ sig (Elt F)) :=
  [ reshape main_v127 main_v128 rfl shapeCasts_S32x32768_S16384x64,
    binary main_v128 main_arg11 main_v129 ((fun l r => Host.dotGeneral dot_S16384x64_S64x1_S16384x1_1_0_0_1_n_n none l r) : (⟨S16384x64, .f32⟩ : BufTy).Contents (Elt F) → (⟨S64x1, .f32⟩ : BufTy).Contents (Elt F) → (⟨S16384x1, .f32⟩ : BufTy).Contents (Elt F)),
    unary main_arg12 main_v130 (broadcastInDim S1x1 ![1] bcast_S1_S1x1_1 : (⟨S1, .f32⟩ : BufTy).Contents (Elt F) → (⟨S1x1, .f32⟩ : BufTy).Contents (Elt F)),
    unary main_v130 main_v131 (broadcastInDim S16384x1 ![0, 1] bcast_S1x1_S16384x1_0_1 : (⟨S1x1, .f32⟩ : BufTy).Contents (Elt F) → (⟨S16384x1, .f32⟩ : BufTy).Contents (Elt F)),
    binary main_v129 main_v131 main_v132 (addf : (⟨S16384x1, .f32⟩ : BufTy).Contents (Elt F) → (⟨S16384x1, .f32⟩ : BufTy).Contents (Elt F) → (⟨S16384x1, .f32⟩ : BufTy).Contents (Elt F)),
    reshape main_v132 main_v133 rfl shapeCasts_S16384x1_S32x512,
    unary main_v63 main_v134 (broadcastInDim S1x32x32768 ![1, 2] bcast_S32x32768_S1x32x32768_1_2 : (⟨S32x32768, .f32⟩ : BufTy).Contents (Elt F) → (⟨S1x32x32768, .f32⟩ : BufTy).Contents (Elt F)),
    unary main_v127 main_v135 (broadcastInDim S1x32x32768 ![1, 2] bcast_S32x32768_S1x32x32768_1_2 : (⟨S32x32768, .f32⟩ : BufTy).Contents (Elt F) → (⟨S1x32x32768, .f32⟩ : BufTy).Contents (Elt F)),
    binary main_v134 main_v135 main_v136 ((fun a b => concatenate S2x32x32768 0 [⟨S1x32x32768, a⟩, ⟨S1x32x32768, b⟩] concatenates_S1x32x32768_S1x32x32768_S2x32x32768_d0) : (⟨S1x32x32768, .f32⟩ : BufTy).Contents (Elt F) → (⟨S1x32x32768, .f32⟩ : BufTy).Contents (Elt F) → (⟨S2x32x32768, .f32⟩ : BufTy).Contents (Elt F)) ]

abbrev C5_W : List (Ref sig .tc) := [main_v128, main_v129, main_v130, main_v131, main_v132, main_v133, main_v134, main_v135, main_v136]

/-- The whole program: the five stretches one after the other. -/
abbrev ops : List (HloOp τ sig (Elt F)) := C1 ++ C2 ++ C3 ++ C4 ++ C5

set_option maxRecDepth 8192 in
set_option maxHeartbeats 4000000 in
theorem main_eq (c : Dev nD) : main (F := F) c = seq ops := rfl
set_option maxRecDepth 8192 in
theorem ops_sub : (ops : List (HloOp τ sig (Elt F))).Forall fun op => op.bufs ⊆ tcRefs τ sig :=
  ⟨unary_bufs_sub .., reshape_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., reshape_bufs_sub .., reshape_bufs_sub .., binary_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub .., unary_bufs_sub .., reshape_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., unary_bufs_sub .., nullary_bufs_sub .., unary_bufs_sub .., binary_bufs_sub .., nullary_bufs_sub .., unary_bufs_sub .., binary_bufs_sub .., reshape_bufs_sub .., unary_bufs_sub .., unary_bufs_sub .., reshape_bufs_sub .., reshape_bufs_sub .., binary_bufs_sub .., reshape_bufs_sub .., reshape_bufs_sub .., binary_bufs_sub .., unary_bufs_sub .., reshape_bufs_sub .., binary_bufs_sub .., binary_bufs_sub .., nullary_bufs_sub .., unary_bufs_sub .., binary_bufs_sub .., binary_bufs_sub .., unary_bufs_sub .., unary_bufs_sub .., unary_bufs_sub .., nary_bufs_sub .., reshape_bufs_sub .., unary_bufs_sub .., reshape_bufs_sub .., binary_bufs_sub .., unary_bufs_sub .., unary_bufs_sub .., binary_bufs_sub .., reshape_bufs_sub .., unary_bufs_sub .., binary_bufs_sub .., nullary_bufs_sub .., unary_bufs_sub .., binary_bufs_sub .., binary_bufs_sub .., binary_bufs_sub .., reshape_bufs_sub .., binary_bufs_sub .., unary_bufs_sub .., unary_bufs_sub .., binary_bufs_sub .., reshape_bufs_sub .., unary_bufs_sub .., unary_bufs_sub .., binary_bufs_sub ..⟩

def concat2 {α : Type} (t : Shape) (a : Fin t.rank) (S1 S2 : Shape) (h : Shape.Concatenates [S1, S2] t a)
    (x : S1.Idx → α) (y : S2.Idx → α) : t.Idx → α :=
  concatenate t a [⟨S1, x⟩, ⟨S2, y⟩] h
theorem concat2_eq {α : Type} (t : Shape) (a : Fin t.rank) (S1 S2 : Shape) (h : Shape.Concatenates [S1, S2] t a)
    (x : S1.Idx → α) (y : S2.Idx → α) : concatenate t a [⟨S1, x⟩, ⟨S2, y⟩] h = concat2 t a S1 S2 h x y := rfl

def concat3 {α : Type} (t : Shape) (a : Fin t.rank) (S1 S2 S3 : Shape) (h : Shape.Concatenates [S1, S2, S3] t a)
    (x : S1.Idx → α) (y : S2.Idx → α) (z : S3.Idx → α) : t.Idx → α :=
  concatenate t a [⟨S1, x⟩, ⟨S2, y⟩, ⟨S3, z⟩] h
theorem concat3_eq {α : Type} (t : Shape) (a : Fin t.rank) (S1 S2 S3 : Shape) (h : Shape.Concatenates [S1, S2, S3] t a)
    (x : S1.Idx → α) (y : S2.Idx → α) (z : S3.Idx → α) :
    concatenate t a [⟨S1, x⟩, ⟨S2, y⟩, ⟨S3, z⟩] h = concat3 t a S1 S2 S3 h x y z := rfl

macro "chunk_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq, concat3_eq]
             try dsimp only [Matrix.cons_val]
             try simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concat2_eq, concat3_eq]))

set_option maxRecDepth 8192 in
set_option maxHeartbeats 4000000 in
theorem C1_writes : (C1 : List (HloOp τ sig (Elt F))).Forall fun op => op.writes ⊆ (C1_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep1 (W : Valuation τ sig (Elt F)) (r : Ref sig .tc) (h : r ∉ C1_W) :
    after C1 W (Proc.devRef .tc r) = W (Proc.devRef .tc r) :=
  after_of_writes_sub C1 _ C1_writes h

set_option maxRecDepth 8192 in
set_option maxHeartbeats 4000000 in
theorem C2_writes : (C2 : List (HloOp τ sig (Elt F))).Forall fun op => op.writes ⊆ (C2_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep2 (W : Valuation τ sig (Elt F)) (r : Ref sig .tc) (h : r ∉ C2_W) :
    after C2 W (Proc.devRef .tc r) = W (Proc.devRef .tc r) :=
  after_of_writes_sub C2 _ C2_writes h

set_option maxRecDepth 8192 in
set_option maxHeartbeats 4000000 in
theorem C3_writes : (C3 : List (HloOp τ sig (Elt F))).Forall fun op => op.writes ⊆ (C3_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep3 (W : Valuation τ sig (Elt F)) (r : Ref sig .tc) (h : r ∉ C3_W) :
    after C3 W (Proc.devRef .tc r) = W (Proc.devRef .tc r) :=
  after_of_writes_sub C3 _ C3_writes h

set_option maxRecDepth 8192 in
set_option maxHeartbeats 4000000 in
theorem C4_writes : (C4 : List (HloOp τ sig (Elt F))).Forall fun op => op.writes ⊆ (C4_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep4 (W : Valuation τ sig (Elt F)) (r : Ref sig .tc) (h : r ∉ C4_W) :
    after C4 W (Proc.devRef .tc r) = W (Proc.devRef .tc r) :=
  after_of_writes_sub C4 _ C4_writes h

set_option maxRecDepth 8192 in
set_option maxHeartbeats 4000000 in
theorem C5_writes : (C5 : List (HloOp τ sig (Elt F))).Forall fun op => op.writes ⊆ (C5_W.map (Proc.devRef (τ := τ) .tc)).toFinset := by
  simp only [List.Forall]
  repeat' apply And.intro
  all_goals (simp only [nullary_writes, unary_writes, binary_writes, ternary_writes, quaternary_writes, reshape_writes, binaryIndexed_writes, nary_writes, unaryIndexed_writes, Finset.singleton_subset_iff, List.mem_toFinset]; exact List.mem_map_of_mem (by decide))

theorem keep5 (W : Valuation τ sig (Elt F)) (r : Ref sig .tc) (h : r ∉ C5_W) :
    after C5 W (Proc.devRef .tc r) = W (Proc.devRef .tc r) :=
  after_of_writes_sub C5 _ C5_writes h

theorem after_append' (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ops_eq : (ops : List (HloOp τ sig (Elt F))) = C1 ++ C2 ++ C3 ++ C4 ++ C5 := rfl

/-- Running the whole list is running the five stretches one after the other. -/
theorem after_ops (V0 : Valuation τ sig (Elt F)) :
    after ops V0 = after C5 (after C4 (after C3 (after C2 (after C1 V0)))) := by
  rw [ops_eq]; simp only [after_append']

set_option maxRecDepth 8192 in
set_option maxHeartbeats 4000000 in
theorem c1_v1 (V0 : Valuation τ sig (Elt F)) : after C1 V0 (Proc.devRef .tc main_v1) = res_main_v1 V0 := by
  chunk_results <;> rfl

set_option maxRecDepth 8192 in
set_option maxHeartbeats 4000000 in
theorem c1_v30 (V0 : Valuation τ sig (Elt F)) : after C1 V0 (Proc.devRef .tc main_v30) = res_main_v30 V0 := by
  chunk_results
  unfold concat2 concat3
  rfl

set_option maxRecDepth 8192 in
set_option maxHeartbeats 4000000 in
theorem c2_v63 (V0 W : Valuation τ sig (Elt F))
    (h30 : W (Proc.devRef .tc main_v30) = res_main_v30 V0) (h1 : W (Proc.devRef .tc main_v1) = res_main_v1 V0)
    (ha0 : W (Proc.devRef .tc main_arg0) = V0 (Proc.devRef .tc main_arg0))
    (ha1 : W (Proc.devRef .tc main_arg1) = V0 (Proc.devRef .tc main_arg1))
    (ha5 : W (Proc.devRef .tc main_arg5) = V0 (Proc.devRef .tc main_arg5))
    (ha6 : W (Proc.devRef .tc main_arg6) = V0 (Proc.devRef .tc main_arg6)) :
    after C2 W (Proc.devRef .tc main_v63) = res_main_v63 V0 := by
  chunk_results
  simp only [h30, h1, ha0, ha1, ha5, ha6]
  unfold concat2 concat3
  rfl

set_option maxRecDepth 8192 in
set_option maxHeartbeats 4000000 in
theorem c3_v65 (V0 W : Valuation τ sig (Elt F))
    (ha2 : W (Proc.devRef .tc main_arg2) = V0 (Proc.devRef .tc main_arg2)) :
    after C3 W (Proc.devRef .tc main_v65) = res_main_v65 V0 := by
  chunk_results
  simp only [ha2]
  rfl

set_option maxRecDepth 8192 in
set_option maxHeartbeats 4000000 in
theorem c3_v94 (V0 W : Valuation τ sig (Elt F))
    (h63 : W (Proc.devRef .tc main_v63) = res_main_v63 V0)
    (ha2 : W (Proc.devRef .tc main_arg2) = V0 (Proc.devRef .tc main_arg2))
    (ha1 : W (Proc.devRef .tc main_arg1) = V0 (Proc.devRef .tc main_arg1))
    (ha7 : W (Proc.devRef .tc main_arg7) = V0 (Proc.devRef .tc main_arg7))
    (ha8 : W (Proc.devRef .tc main_arg8) = V0 (Proc.devRef .tc main_arg8)) :
    after C3 W (Proc.devRef .tc main_v94) = res_main_v94 V0 := by
  chunk_results
  simp only [h63, ha2, ha1, ha7, ha8]
  unfold concat2 concat3
  rfl

set_option maxRecDepth 8192 in
set_option maxHeartbeats 4000000 in
theorem c4_v127 (V0 W : Valuation τ sig (Elt F))
    (h94 : W (Proc.devRef .tc main_v94) = res_main_v94 V0) (h65 : W (Proc.devRef .tc main_v65) = res_main_v65 V0)
    (h63 : W (Proc.devRef .tc main_v63) = res_main_v63 V0)
    (ha1 : W (Proc.devRef .tc main_arg1) = V0 (Proc.devRef .tc main_arg1))
    (ha9 : W (Proc.devRef .tc main_arg9) = V0 (Proc.devRef .tc main_arg9))
    (ha10 : W (Proc.devRef .tc main_arg10) = V0 (Proc.devRef .tc main_arg10)) :
    after C4 W (Proc.devRef .tc main_v127) = res_main_v127 V0 := by
  chunk_results
  simp only [h94, h65, h63, ha1, ha9, ha10]
  unfold concat2 concat3
  rfl

set_option maxRecDepth 8192 in
set_option maxHeartbeats 4000000 in
theorem c5_v133 (V0 W : Valuation τ sig (Elt F))
    (h127 : W (Proc.devRef .tc main_v127) = res_main_v127 V0)
    (ha11 : W (Proc.devRef .tc main_arg11) = V0 (Proc.devRef .tc main_arg11))
    (ha12 : W (Proc.devRef .tc main_arg12) = V0 (Proc.devRef .tc main_arg12)) :
    after C5 W (Proc.devRef .tc main_v133) = shapeCast _ (addf (Host.dotGeneral dot_S16384x64_S64x1_S16384x1_1_0_0_1_n_n none (shapeCast _ (res_main_v127 V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512 := by
  chunk_results
  simp only [h127, ha11, ha12]
  rfl

set_option maxRecDepth 8192 in
set_option maxHeartbeats 4000000 in
theorem c5_v136 (V0 W : Valuation τ sig (Elt F))
    (h127 : W (Proc.devRef .tc main_v127) = res_main_v127 V0) (h63 : W (Proc.devRef .tc main_v63) = res_main_v63 V0) :
    after C5 W (Proc.devRef .tc main_v136) = concatenate S2x32x32768 0 [⟨S1x32x32768, (broadcastInDim S1x32x32768 ![1, 2] bcast_S32x32768_S1x32x32768_1_2 (res_main_v63 V0))⟩, ⟨S1x32x32768, (broadcastInDim S1x32x32768 ![1, 2] bcast_S32x32768_S1x32x32768_1_2 (res_main_v127 V0))⟩] concatenates_S1x32x32768_S1x32x32768_S2x32x32768_d0 := by
  chunk_results
  simp only [h127, h63]

theorem keep12 (V : Valuation τ sig (Elt F)) (r : Ref sig .tc) (h1 : r ∉ C1_W) (h2 : r ∉ C2_W) :
    after C2 (after C1 V) (Proc.devRef .tc r) = V (Proc.devRef .tc r) :=
  (keep2 _ r h2).trans (keep1 V r h1)
theorem keep123 (V : Valuation τ sig (Elt F)) (r : Ref sig .tc) (h1 : r ∉ C1_W) (h2 : r ∉ C2_W) (h3 : r ∉ C3_W) :
    after C3 (after C2 (after C1 V)) (Proc.devRef .tc r) = V (Proc.devRef .tc r) :=
  (keep3 _ r h3).trans (keep12 V r h1 h2)
theorem keep1234 (V : Valuation τ sig (Elt F)) (r : Ref sig .tc) (h1 : r ∉ C1_W) (h2 : r ∉ C2_W) (h3 : r ∉ C3_W) (h4 : r ∉ C4_W) :
    after C4 (after C3 (after C2 (after C1 V))) (Proc.devRef .tc r) = V (Proc.devRef .tc r) :=
  (keep4 _ r h4).trans (keep123 V r h1 h2 h3)

set_option maxRecDepth 8192 in
set_option maxHeartbeats 4000000 in

theorem after_ops_results (V0 : Valuation τ sig (Elt F)) :
    after ops V0 (Proc.devRef .tc main_v133) = shapeCast _ (addf (Host.dotGeneral dot_S16384x64_S64x1_S16384x1_1_0_0_1_n_n none (shapeCast _ (res_main_v127 V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512
    ∧ after ops V0 (Proc.devRef .tc main_v136) = concatenate S2x32x32768 0 [⟨S1x32x32768, (broadcastInDim S1x32x32768 ![1, 2] bcast_S32x32768_S1x32x32768_1_2 (res_main_v63 V0))⟩, ⟨S1x32x32768, (broadcastInDim S1x32x32768 ![1, 2] bcast_S32x32768_S1x32x32768_1_2 (res_main_v127 V0))⟩] concatenates_S1x32x32768_S1x32x32768_S2x32x32768_d0 := by
  have e63 : after C2 (after C1 V0) (Proc.devRef .tc main_v63) = res_main_v63 V0 :=
    c2_v63 V0 (after C1 V0) (c1_v30 V0) (c1_v1 V0) (keep1 V0 main_arg0 (by decide)) (keep1 V0 main_arg1 (by decide))
      (keep1 V0 main_arg5 (by decide)) (keep1 V0 main_arg6 (by decide))
  have e94 : after C3 (after C2 (after C1 V0)) (Proc.devRef .tc main_v94) = res_main_v94 V0 :=
    c3_v94 V0 _ e63 (keep12 V0 main_arg2 (by decide) (by decide)) (keep12 V0 main_arg1 (by decide) (by decide))
      (keep12 V0 main_arg7 (by decide) (by decide)) (keep12 V0 main_arg8 (by decide) (by decide))
  have e65 : after C3 (after C2 (after C1 V0)) (Proc.devRef .tc main_v65) = res_main_v65 V0 :=
    c3_v65 V0 _ (keep12 V0 main_arg2 (by decide) (by decide))
  have k63 : after C3 (after C2 (after C1 V0)) (Proc.devRef .tc main_v63) = res_main_v63 V0 :=
    (keep3 _ main_v63 (by decide)).trans e63
  have e127 : after C4 (after C3 (after C2 (after C1 V0))) (Proc.devRef .tc main_v127) = res_main_v127 V0 :=
    c4_v127 V0 _ e94 e65 k63 (keep123 V0 main_arg1 (by decide) (by decide) (by decide))
      (keep123 V0 main_arg9 (by decide) (by decide) (by decide)) (keep123 V0 main_arg10 (by decide) (by decide) (by decide))
  have k63' : after C4 (after C3 (after C2 (after C1 V0))) (Proc.devRef .tc main_v63) = res_main_v63 V0 :=
    (keep4 _ main_v63 (by decide)).trans k63
  rw [after_ops]
  exact ⟨c5_v133 V0 _ e127 (keep1234 V0 main_arg11 (by decide) (by decide) (by decide) (by decide))
      (keep1234 V0 main_arg12 (by decide) (by decide) (by decide) (by decide)),
    c5_v136 V0 _ e127 k63'⟩

/-- No stretch writes an argument. -/
theorem keep_all (V : Valuation τ sig (Elt F)) (r : Ref sig .tc) (h1 : r ∉ C1_W) (h2 : r ∉ C2_W) (h3 : r ∉ C3_W) (h4 : r ∉ C4_W) (h5 : r ∉ C5_W) :
    after ops V (Proc.devRef .tc r) = V (Proc.devRef .tc r) := by
  rw [after_ops]; exact (keep5 _ r h5).trans (keep1234 V r h1 h2 h3 h4)

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v133) = shapeCast _ (addf (Host.dotGeneral dot_S16384x64_S64x1_S16384x1_1_0_0_1_n_n none (shapeCast _ (res_main_v127 (launchContents m c)) shapeCasts_S32x32768_S16384x64) ((launchContents m c) (Proc.devRef .tc main_arg11))) (broadcastInDim S16384x1 ![0, 1] bcast_S1x1_S16384x1_0_1 (broadcastInDim S1x1 ![1] bcast_S1_S1x1_1 ((launchContents m c) (Proc.devRef .tc main_arg12))))) shapeCasts_S16384x1_S32x512
      ∧ r.2.mem ((c.tc : Thread nD τ).loc main_v136) = concatenate S2x32x32768 0 [⟨S1x32x32768, (broadcastInDim S1x32x32768 ![1, 2] bcast_S32x32768_S1x32x32768_1_2 (res_main_v63 (launchContents m c)))⟩, ⟨S1x32x32768, (broadcastInDim S1x32x32768 ![1, 2] bcast_S32x32768_S1x32x32768_1_2 (res_main_v127 (launchContents m c)))⟩] concatenates_S1x32x32768_S1x32x32768_S2x32x32768_d0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v133).trans (after_ops_results (launchContents m c)).1,
      (h c main_v136).trans (after_ops_results (launchContents m c)).2,
      (h c main_arg0).trans (keep_all _ main_arg0 (by decide) (by decide) (by decide) (by decide) (by decide)),
      (h c main_arg1).trans (keep_all _ main_arg1 (by decide) (by decide) (by decide) (by decide) (by decide)),
      (h c main_arg2).trans (keep_all _ main_arg2 (by decide) (by decide) (by decide) (by decide) (by decide)),
      (h c main_arg3).trans (keep_all _ main_arg3 (by decide) (by decide) (by decide) (by decide) (by decide)),
      (h c main_arg4).trans (keep_all _ main_arg4 (by decide) (by decide) (by decide) (by decide) (by decide)),
      (h c main_arg5).trans (keep_all _ main_arg5 (by decide) (by decide) (by decide) (by decide) (by decide)),
      (h c main_arg6).trans (keep_all _ main_arg6 (by decide) (by decide) (by decide) (by decide) (by decide)),
      (h c main_arg7).trans (keep_all _ main_arg7 (by decide) (by decide) (by decide) (by decide) (by decide)),
      (h c main_arg8).trans (keep_all _ main_arg8 (by decide) (by decide) (by decide) (by decide) (by decide)),
      (h c main_arg9).trans (keep_all _ main_arg9 (by decide) (by decide) (by decide) (by decide) (by decide)),
      (h c main_arg10).trans (keep_all _ main_arg10 (by decide) (by decide) (by decide) (by decide) (by decide)),
      (h c main_arg11).trans (keep_all _ main_arg11 (by decide) (by decide) (by decide) (by decide) (by decide)),
      (h c main_arg12).trans (keep_all _ main_arg12 (by decide) (by decide) (by decide) (by decide) (by decide))⟩)
    (run_seq scopedRefs_eq scopedSems_eq defs main (fun _ => ops) main_eq (fun _ => ops_sub) m ρ)

end Cert.ReferenceIdeal.Value

end
-- ==== Proof.KBodyB.lean ====
/-
  The body's values as functions of its fifteen input blocks: each is one payload of the printed body applied to
  earlier values and to blocks read whole; each result is its stores' values laid over their rectangles.
-/
import proofs.«168098_g44504451121623_cont_8to1_c_180_35_alg».proof.Proof.Gen.Kernel.Skeleton
import proofs.«168098_g44504451121623_cont_8to1_c_180_35_alg».proof.Proof.Gen.Kernel.Launch
import proofs.«168098_g44504451121623_cont_8to1_c_180_35_alg».proof.Proof.Gen.Kernel.Points
import Idealize.ShloMosaic.Lib.Pipeline.FrameBody

noncomputable section

namespace Cert.Kernel.GenH

open Cert.Kernel Cert.Kernel.Gen
open Idealize.ShloMosaic Idealize.ShloMosaic.TcCoe
open Idealize.SL Idealize.SL.Sem

variable {F : FTy → Type} [FloatOps F]

abbrev rA1 : Rect S16x512 := Rect.unit (s := S16x512) ![0, 0] S16x512.size inb_S16x512_S16x512_0_0
abbrev rA2 : Rect S512x512 := Rect.unit (s := S512x512) ![0, 0] S512x512.size inb_S512x512_S512x512_0_0
abbrev rA3_0 : Rect S2x512x16x64 := Rect.unit (s := S2x512x16x64) ![0, 0, 0, 0] S1x512x16x64.size inb_S2x512x16x64_S1x512x16x64_0_0_0_0
abbrev rA3_1 : Rect S2x512x16x64 := Rect.unit (s := S2x512x16x64) ![1, 0, 0, 0] S1x512x16x64.size inb_S2x512x16x64_S1x512x16x64_1_0_0_0
abbrev rA4 : Rect S3x1x128 := Rect.unit (s := S3x1x128) ![0, 0, 0] S3x1x128.size inb_S3x1x128_S3x1x128_0_0_0
abbrev rA5 : Rect S192x128 := Rect.unit (s := S192x128) ![0, 0] S192x128.size inb_S192x128_S192x128_0_0
abbrev rA6 : Rect S3x1x64 := Rect.unit (s := S3x1x64) ![0, 0, 0] S3x1x64.size inb_S3x1x64_S3x1x64_0_0_0
abbrev rA7 : Rect S192x64 := Rect.unit (s := S192x64) ![0, 0] S192x64.size inb_S192x64_S192x64_0_0
abbrev rA8 : Rect S128 := Rect.unit (s := S128) ![0] S128.size inb_S128_S128_0
abbrev rA9 : Rect S64 := Rect.unit (s := S64) ![0] S64.size inb_S64_S64_0
abbrev rA10 : Rect S384x128 := Rect.unit (s := S384x128) ![0, 0] S384x128.size inb_S384x128_S384x128_0_0
abbrev rA11 : Rect S384x64 := Rect.unit (s := S384x64) ![0, 0] S384x64.size inb_S384x64_S384x64_0_0
abbrev rA12 : Rect S128 := Rect.unit (s := S128) ![0] S128.size inb_S128_S128_0
abbrev rA13 : Rect S64 := Rect.unit (s := S64) ![0] S64.size inb_S64_S64_0
abbrev rA14 : Rect S1x64 := Rect.unit (s := S1x64) ![0, 0] S1x64.size inb_S1x64_S1x64_0_0
abbrev rA15 : Rect S1 := Rect.unit (s := S1) ![0] S1.size inb_S1_S1_0
abbrev rA16 : Rect S16x512 := Rect.unit (s := S16x512) ![0, 0] S16x512.size inb_S16x512_S16x512_0_0
abbrev rA17_0 : Rect S2x16x32768 := Rect.unit (s := S2x16x32768) ![0, 0, 0] S1x16x32768.size inb_S2x16x32768_S1x16x32768_0_0_0
abbrev rA17_1 : Rect S2x16x32768 := Rect.unit (s := S2x16x32768) ![1, 0, 0] S1x16x32768.size inb_S2x16x32768_S1x16x32768_1_0_0

/-- The fifteen input blocks of one grid point, in the body's argument order. -/
structure Ins (F : FTy → Type) where
  x0 : Vec F S16x512 .f32
  x1 : Vec F S512x512 .f32
  x2 : Vec F S2x512x16x64 .f32
  x3 : Vec F S3x1x128 .bf16
  x4 : Vec F S192x128 .bf16
  x5 : Vec F S3x1x64 .bf16
  x6 : Vec F S192x64 .bf16
  x7 : Vec F S128 .f32
  x8 : Vec F S64 .f32
  x9 : Vec F S384x128 .bf16
  x10 : Vec F S384x64 .bf16
  x11 : Vec F S128 .f32
  x12 : Vec F S64 .f32
  x13 : Vec F S1x64 .f32
  x14 : Vec F S1 .f32

def kv1 (X : Ins F) : FVec F S512x512 .bf16 :=
  k0_pay3 (View.ld X.x1 rA2)

def kv4 (X : Ins F) : FVec F S512x512 .bf16 :=
  k0_pay4 (View.ld X.x1 rA2)

def kv6 (X : Ins F) : FVec F S512x16x64 .f32 :=
  k0_pay5 (View.ld X.x2 rA3_0)

def kv16 (X : Ins F) : FVec F S512x16x1 .f32 :=
  k0_pay8 (View.ld X.x0 rA1)

def kv18 (X : Ins F) : FVec F S512x16x1 .f32 :=
  k0_pay9 (View.ld X.x1 rA2) (View.ld X.x0 rA1)

def kv20 (X : Ins F) : FVec F S512x16x1 .f32 :=
  k0_pay10 (View.ld X.x1 rA2) (View.ld X.x0 rA1)

def kv23 (X : Ins F) : FVec F S3x1x128 .bf16 :=
  k0_pay11 (View.ld X.x3 rA4)

def kv26 (X : Ins F) : Vec F S128 .f32 :=
  View.ld X.x7 rA8

def kv38 (X : Ins F) : FVec F S512x16x128 .f32 :=
  k0_pay12 (View.ld X.x1 rA2) (View.ld X.x2 rA3_0) (View.ld X.x4 rA5)

def kv68 (X : Ins F) : FVec F S512x16x64 .f32 :=
  k0_pay14 (kv16 X) (kv18 X) (kv20 X) (kv23 X) (kv26 X) (kv38 X)

def kv72 (X : Ins F) : FVec F S3x1x64 .bf16 :=
  k0_pay15 (View.ld X.x5 rA6)

def kv87 (X : Ins F) : FVec F S512x16x64 .f32 :=
  k0_pay16 (kv1 X) (kv4 X) (kv6 X) (kv16 X) (kv18 X) (kv20 X) (kv23 X) (kv26 X) (kv38 X) (View.ld X.x6 rA7)

def kv89 (X : Ins F) : FVec F S512x16x64 .f32 :=
  k0_pay17 (View.ld X.x8 rA9)

def h0new (X : Ins F) : FVec F S512x16x64 .f32 :=
  k0_pay18 (kv6 X) (kv16 X) (kv18 X) (kv20 X) (kv68 X) (kv72 X) (kv87 X) (kv89 X)

def kv122 (X : Ins F) : FVec F S512x16x64 .f32 :=
  k0_pay19 (View.ld X.x2 rA3_1)

def kv123 (X : Ins F) : FVec F S512x16x64 .bf16 :=
  k0_pay20 (kv6 X) (kv16 X) (kv18 X) (kv20 X) (kv68 X) (kv72 X) (kv87 X) (kv89 X)

def kv130 (X : Ins F) : FVec F S512x16x64 .bf16 :=
  k0_pay23 (kv1 X) (kv6 X) (kv16 X) (kv18 X) (kv20 X) (kv68 X) (kv72 X) (kv87 X) (kv89 X)

def kv131 (X : Ins F) : FVec F S512x16x64 .bf16 :=
  k0_pay24 (kv1 X) (kv4 X) (kv6 X) (kv16 X) (kv18 X) (kv20 X) (kv68 X) (kv72 X) (kv87 X) (kv89 X)

def kv132 (X : Ins F) : FVec F S512x16x64 .bf16 :=
  k0_pay25 (View.ld X.x2 rA3_1)

def kv134 (X : Ins F) : FVec F S384x128 .bf16 :=
  k0_pay26 (View.ld X.x9 rA10)

def kv135 (X : Ins F) : Vec F S128 .f32 :=
  View.ld X.x11 rA12

def kv136 (X : Ins F) : FVec F S512x1024 .bf16 :=
  k0_pay27 (View.ld X.x2 rA3_1)

def kv138 (X : Ins F) : FVec F S512x1024 .bf16 :=
  k0_pay28 (kv1 X) (View.ld X.x2 rA3_1)

def h1new (X : Ins F) : FVec F S512x16x64 .f32 :=
  k0_pay29 (kv1 X) (kv4 X) (kv122 X) (kv123 X) (kv130 X) (kv131 X) (kv132 X) (kv134 X) (kv135 X) (kv136 X) (kv138 X) (View.ld X.x10 rA11) (View.ld X.x12 rA13)

def h1newT (X : Ins F) : FVec F S16x512x64 .f32 :=
  k0_pay31 (kv1 X) (kv4 X) (kv122 X) (kv123 X) (kv130 X) (kv131 X) (kv132 X) (kv134 X) (kv135 X) (kv136 X) (kv138 X) (View.ld X.x10 rA11) (View.ld X.x12 rA13)

def out0_15 (X : Ins F) : Vec F S16x512 .f32 :=
  View.canon [⟨rA16, k0_pay2 (h1new X) (View.ld X.x13 rA14) (View.ld X.x14 rA15)⟩]

def out0_16 (X : Ins F) : Vec F S2x16x32768 .f32 :=
  View.canon [⟨rA17_1, k0_pay1 (h1newT X)⟩, ⟨rA17_0, k0_pay30 (h0new X)⟩]

end Cert.Kernel.GenH

end
-- ==== Proof.KFrameB.lean ====
/-
  The program runs to its end without fault and leaves its arguments as launched, and each array ends where
  the body's values put it. In order: the arrays as the grid finds them (V), a block at a grid point (iblk), the
  body's triple over whole blocks (sound_kernel), the same at every grid point, the run.
-/
import proofs.«168098_g44504451121623_cont_8to1_c_180_35_alg».proof.Proof.KBodyB
import proofs.«168098_g44504451121623_cont_8to1_c_180_35_alg».proof.Proof.Gen.Kernel.Launch
import proofs.«168098_g44504451121623_cont_8to1_c_180_35_alg».proof.Proof.Gen.Kernel.Skeleton
import proofs.«168098_g44504451121623_cont_8to1_c_180_35_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.GenH

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

abbrev args : List (Ref sig .tc) := [main_arg0, main_arg1, main_arg2, main_arg3, main_arg4, main_arg5, main_arg6, main_arg7, main_arg8, main_arg9, main_arg10, main_arg11, main_arg12]

set_option maxHeartbeats 4000000 in

/-- Nothing before the grid writes an argument. -/
theorem V_arg (c : Dev nD) (b : Ref sig .tc) (hb : b ∈ args) : V m c b = m ((c : Thread nD τ).loc b) := by
  simp only [args, List.mem_cons, List.not_mem_nil, or_false] at hb
  rcases hb with rfl | rfl | rfl | rfl | rfl | rfl | rfl | rfl | rfl | rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev blk (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

theorem cover0_15 (p0 : Vec F S16x512 .f32) (y : S16x512.Idx) :
    ∃ pc ∈ ([⟨rA16, p0⟩] : List (View.Piece (Elt F) S16x512 .f32)), y ∈ pc.1.set :=
  View.cover_of_tiled [⟨rA16, p0⟩] S16x512.size (by rfl) y

theorem cover0_16 (p0 p1 : Vec F S1x16x32768 .f32) (y : S2x16x32768.Idx) :
    ∃ pc ∈ ([⟨rA17_1, p0⟩, ⟨rA17_0, p1⟩] : List (View.Piece (Elt F) S2x16x32768 .f32)), y ∈ pc.1.set :=
  View.cover_of_tiled [⟨rA17_1, p0⟩, ⟨rA17_0, p1⟩] S1x16x32768.size (by rfl) y

set_option maxHeartbeats 4000000 in

/-- From blocks X the body ends with its two results at out0_15 X and out0_16 X and the inputs as they were. -/
theorem sound_kernel (c : Dev nD) (E : Set ℕ) (i : grid0.Coords) (arg1 : Memref sig .tc .vmem S16x512 .f32) (harg1 : arg1.IsWhole) (arg2 : Memref sig .tc .vmem S512x512 .f32) (harg2 : arg2.IsWhole) (arg3 : Memref sig .tc .vmem S2x512x16x64 .f32) (harg3 : arg3.IsWhole) (arg4 : Memref sig .tc .vmem S3x1x128 .bf16) (harg4 : arg4.IsWhole) (arg5 : Memref sig .tc .vmem S192x128 .bf16) (harg5 : arg5.IsWhole) (arg6 : Memref sig .tc .vmem S3x1x64 .bf16) (harg6 : arg6.IsWhole) (arg7 : Memref sig .tc .vmem S192x64 .bf16) (harg7 : arg7.IsWhole) (arg8 : Memref sig .tc .vmem S128 .f32) (harg8 : arg8.IsWhole) (arg9 : Memref sig .tc .vmem S64 .f32) (harg9 : arg9.IsWhole) (arg10 : Memref sig .tc .vmem S384x128 .bf16) (harg10 : arg10.IsWhole) (arg11 : Memref sig .tc .vmem S384x64 .bf16) (harg11 : arg11.IsWhole) (arg12 : Memref sig .tc .vmem S128 .f32) (harg12 : arg12.IsWhole) (arg13 : Memref sig .tc .vmem S64 .f32) (harg13 : arg13.IsWhole) (arg14 : Memref sig .tc .vmem S1x64 .f32) (harg14 : arg14.IsWhole) (arg15 : Memref sig .tc .vmem S1 .f32) (harg15 : arg15.IsWhole) (arg16 : Memref sig .tc .vmem S16x512 .f32) (harg16 : arg16.IsWhole) (arg17 : Memref sig .tc .vmem S2x16x32768 .f32) (harg17 : arg17.IsWhole)
    (X : Ins F) (K : PUnit → sProp 𝕄) :
    iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ (∃ d, owns (c : Thread nD τ) arg16 fullShare d)
        ∗ (∃ d, owns (c : Thread nD τ) arg17 fullShare d)
        ∗ (iprop(owns (c : Thread nD τ) arg1 fullShare X.x0
            ∗ owns (c : Thread nD τ) arg2 fullShare X.x1
            ∗ owns (c : Thread nD τ) arg3 fullShare X.x2
            ∗ owns (c : Thread nD τ) arg4 fullShare X.x3
            ∗ owns (c : Thread nD τ) arg5 fullShare X.x4
            ∗ owns (c : Thread nD τ) arg6 fullShare X.x5
            ∗ owns (c : Thread nD τ) arg7 fullShare X.x6
            ∗ owns (c : Thread nD τ) arg8 fullShare X.x7
            ∗ owns (c : Thread nD τ) arg9 fullShare X.x8
            ∗ owns (c : Thread nD τ) arg10 fullShare X.x9
            ∗ owns (c : Thread nD τ) arg11 fullShare X.x10
            ∗ owns (c : Thread nD τ) arg12 fullShare X.x11
            ∗ owns (c : Thread nD τ) arg13 fullShare X.x12
            ∗ owns (c : Thread nD τ) arg14 fullShare X.x13
            ∗ owns (c : Thread nD τ) arg15 fullShare X.x14
            ∗ owns (c : Thread nD τ) arg16 fullShare (out0_15 X)
            ∗ owns (c : Thread nD τ) arg17 fullShare (out0_16 X)) -∗ K ⟨⟩))
      ⊢ wp frame (wpE (defs₀ (F := F)) Variants.none c none) E (cc0__dcgru_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨x0, x1, x2, x3, x4, x5, x6, x7, x8, x9, x10, x11, x12, x13, x14⟩ := X
  dsimp only
  simp only [cc0__dcgru_body_eq_skeleton]; unfold cc0__dcgru_body_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    dsimp only
    simp only [View.readAt_eq_ld, out0_15, h1new, kv138, kv136, kv135, kv134, kv132, kv131, kv130, kv123, kv122, kv89, kv87, kv72, kv68, kv38, kv26, kv23, kv20, kv18, kv16, kv6, kv4, kv1]
  iexists _; isplitr
  swap; · iexact H16
  ipureintro
  refine (View.read_writes_eq_canon _ _ _ (cover0_16 _ _)).trans ?_
  dsimp only
  simp only [View.readAt_eq_ld, out0_16, h1newT, h1new, h0new, kv138, kv136, kv135, kv134, kv132, kv131, kv130, kv123, kv122, kv89, kv87, kv72, kv68, kv38, kv26, kv23, kv20, kv18, kv16, kv6, kv4, kv1]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (blk m c t)
    | ⟨16, _⟩ => out0_16 (blk m c t)
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (blk m c t) := by dsimp only [dats]
theorem after0_16 (c : Dev nD) (t : Fin cfg0.N) : (dats m 0 c).after 16 t = out0_16 (blk m c t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ _ _ _ _ _ _ _ _ _ _ _ _ _ _ _ _ _ _ _ _ _ _ _ _ _ _ _ _ _ _ _ _ _ _ _ (blk m c t) _)
  iframe H0 H1 H2 H3 H4 H5 H6 H7 H8 H9 H10 H11 H12 H13 H14
  isplitl [H15]; · iexists _; iexact H15
  isplitl [H16]; · iexists _; iexact H16
  iintro ⟨H0, H1, H2, H3, H4, H5, H6, H7, H8, H9, H10, H11, H12, H13, H14, H15, H16⟩
  iframe

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument array is as launched. -/
def Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)

/-- An argument that is some block's array is never written back; any other is not touched at all. -/
theorem kept (r : PUnit × MemSt nD τ sig (Elt F)) (h : Pipeline.FramePost cfgs (dats m) 0 (V m) r) (c : Dev nD) : Kept m r c :=
  ⟨((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).2 main_arg2 (Pipeline.mem_restRefs_of main_arg2 (by decide) (by decide))).trans (V_arg m c main_arg2 (by decide)),
      ((h c).2 main_arg3 (Pipeline.mem_restRefs_of main_arg3 (by decide) (by decide))).trans (V_arg m c main_arg3 (by decide)),
      ((h c).1 7).trans (((dats m 0 c).arrAt_in 7 rfl _).trans ((A_eq m c 7).trans (V_arg m c main_arg4 (by decide)))),
      ((h c).2 main_arg5 (Pipeline.mem_restRefs_of main_arg5 (by decide) (by decide))).trans (V_arg m c main_arg5 (by decide)),
      ((h c).1 8).trans (((dats m 0 c).arrAt_in 8 rfl _).trans ((A_eq m c 8).trans (V_arg m c main_arg6 (by decide)))),
      ((h c).2 main_arg7 (Pipeline.mem_restRefs_of main_arg7 (by decide) (by decide))).trans (V_arg m c main_arg7 (by decide)),
      ((h c).1 11).trans (((dats m 0 c).arrAt_in 11 rfl _).trans ((A_eq m c 11).trans (V_arg m c main_arg8 (by decide)))),
      ((h c).2 main_arg9 (Pipeline.mem_restRefs_of main_arg9 (by decide) (by decide))).trans (V_arg m c main_arg9 (by decide)),
      ((h c).1 12).trans (((dats m 0 c).arrAt_in 12 rfl _).trans ((A_eq m c 12).trans (V_arg m c main_arg10 (by decide)))),
      ((h c).2 main_arg11 (Pipeline.mem_restRefs_of main_arg11 (by decide) (by decide))).trans (V_arg m c main_arg11 (by decide)),
      ((h c).1 14).trans (((dats m 0 c).arrAt_in 14 rfl _).trans ((A_eq m c 14).trans (V_arg m c main_arg12 (by decide))))⟩

theorem frame : θ_run defs (onTc (τ := τ) (main (F := F))) ⟨m, fun _ => 0, ρ⟩ (fun r => ∀ c : Dev nD, Kept m r c) :=
  (θ_run defs _ _).mono (kept m) (run_main m ρ)

end Cert.Kernel.GenH

end
-- ==== Proof.KBodyI.lean ====
/-
  The body's values as functions of its fifteen input blocks: each is one payload of the printed body applied to
  earlier values and to blocks read whole; each result is its stores' values laid over their rectangles.
-/
import proofs.«168098_g44504451121623_cont_8to1_c_180_35_alg».proof.Proof.Gen.KernelIdeal.Skeleton
import proofs.«168098_g44504451121623_cont_8to1_c_180_35_alg».proof.Proof.Gen.KernelIdeal.Launch
import proofs.«168098_g44504451121623_cont_8to1_c_180_35_alg».proof.Proof.Gen.KernelIdeal.Points
import Idealize.ShloMosaic.Lib.Pipeline.FrameBody

noncomputable section

namespace Cert.KernelIdeal.GenH

open Cert.KernelIdeal Cert.KernelIdeal.Gen
open Idealize.ShloMosaic Idealize.ShloMosaic.TcCoe
open Idealize.SL Idealize.SL.Sem

variable {F : FTy → Type} [FloatOps F]

abbrev rA1 : Rect S16x512 := Rect.unit (s := S16x512) ![0, 0] S16x512.size inb_S16x512_S16x512_0_0
abbrev rA2 : Rect S512x512 := Rect.unit (s := S512x512) ![0, 0] S512x512.size inb_S512x512_S512x512_0_0
abbrev rA3_0 : Rect S2x512x16x64 := Rect.unit (s := S2x512x16x64) ![0, 0, 0, 0] S1x512x16x64.size inb_S2x512x16x64_S1x512x16x64_0_0_0_0
abbrev rA3_1 : Rect S2x512x16x64 := Rect.unit (s := S2x512x16x64) ![1, 0, 0, 0] S1x512x16x64.size inb_S2x512x16x64_S1x512x16x64_1_0_0_0
abbrev rA4 : Rect S3x1x128 := Rect.unit (s := S3x1x128) ![0, 0, 0] S3x1x128.size inb_S3x1x128_S3x1x128_0_0_0
abbrev rA5 : Rect S192x128 := Rect.unit (s := S192x128) ![0, 0] S192x128.size inb_S192x128_S192x128_0_0
abbrev rA6 : Rect S3x1x64 := Rect.unit (s := S3x1x64) ![0, 0, 0] S3x1x64.size inb_S3x1x64_S3x1x64_0_0_0
abbrev rA7 : Rect S192x64 := Rect.unit (s := S192x64) ![0, 0] S192x64.size inb_S192x64_S192x64_0_0
abbrev rA8 : Rect S128 := Rect.unit (s := S128) ![0] S128.size inb_S128_S128_0
abbrev rA9 : Rect S64 := Rect.unit (s := S64) ![0] S64.size inb_S64_S64_0
abbrev rA10 : Rect S384x128 := Rect.unit (s := S384x128) ![0, 0] S384x128.size inb_S384x128_S384x128_0_0
abbrev rA11 : Rect S384x64 := Rect.unit (s := S384x64) ![0, 0] S384x64.size inb_S384x64_S384x64_0_0
abbrev rA12 : Rect S128 := Rect.unit (s := S128) ![0] S128.size inb_S128_S128_0
abbrev rA13 : Rect S64 := Rect.unit (s := S64) ![0] S64.size inb_S64_S64_0
abbrev rA14 : Rect S1x64 := Rect.unit (s := S1x64) ![0, 0] S1x64.size inb_S1x64_S1x64_0_0
abbrev rA15 : Rect S1 := Rect.unit (s := S1) ![0] S1.size inb_S1_S1_0
abbrev rA16 : Rect S16x512 := Rect.unit (s := S16x512) ![0, 0] S16x512.size inb_S16x512_S16x512_0_0
abbrev rA17_0 : Rect S2x16x32768 := Rect.unit (s := S2x16x32768) ![0, 0, 0] S1x16x32768.size inb_S2x16x32768_S1x16x32768_0_0_0
abbrev rA17_1 : Rect S2x16x32768 := Rect.unit (s := S2x16x32768) ![1, 0, 0] S1x16x32768.size inb_S2x16x32768_S1x16x32768_1_0_0

/-- The fifteen input blocks of one grid point, in the body's argument order. -/
structure Ins (F : FTy → Type) where
  x0 : Vec F S16x512 .f32
  x1 : Vec F S512x512 .f32
  x2 : Vec F S2x512x16x64 .f32
  x3 : Vec F S3x1x128 .bf16
  x4 : Vec F S192x128 .bf16
  x5 : Vec F S3x1x64 .bf16
  x6 : Vec F S192x64 .bf16
  x7 : Vec F S128 .f32
  x8 : Vec F S64 .f32
  x9 : Vec F S384x128 .bf16
  x10 : Vec F S384x64 .bf16
  x11 : Vec F S128 .f32
  x12 : Vec F S64 .f32
  x13 : Vec F S1x64 .f32
  x14 : Vec F S1 .f32

def kv1 (X : Ins F) : FVec F S512x512 .bf16 :=
  k0_pay3 (View.ld X.x1 rA2)

def kv4 (X : Ins F) : FVec F S512x512 .bf16 :=
  k0_pay4 (View.ld X.x1 rA2)

def kv6 (X : Ins F) : FVec F S512x16x64 .f32 :=
  k0_pay5 (View.ld X.x2 rA3_0)

def kv16 (X : Ins F) : FVec F S512x16x1 .f32 :=
  k0_pay9 (View.ld X.x0 rA1)

def kv18 (X : Ins F) : FVec F S512x16x1 .f32 :=
  k0_pay10 (View.ld X.x1 rA2) (View.ld X.x0 rA1)

def kv20 (X : Ins F) : FVec F S512x16x1 .f32 :=
  k0_pay11 (View.ld X.x1 rA2) (View.ld X.x0 rA1)

def kv23 (X : Ins F) : FVec F S3x1x128 .bf16 :=
  k0_pay12 (View.ld X.x3 rA4)

def kv26 (X : Ins F) : Vec F S128 .f32 :=
  View.ld X.x7 rA8

def kv38 (X : Ins F) : FVec F S512x16x128 .f32 :=
  k0_pay13 (View.ld X.x1 rA2) (View.ld X.x2 rA3_0) (View.ld X.x4 rA5)

def kv68 (X : Ins F) : FVec F S512x16x64 .f32 :=
  k0_pay15 (kv16 X) (kv18 X) (kv20 X) (kv23 X) (kv26 X) (kv38 X)

def kv72 (X : Ins F) : FVec F S3x1x64 .bf16 :=
  k0_pay16 (View.ld X.x5 rA6)

def kv87 (X : Ins F) : FVec F S512x16x64 .f32 :=
  k0_pay17 (kv1 X) (kv4 X) (kv6 X) (kv16 X) (kv18 X) (kv20 X) (kv23 X) (kv26 X) (kv38 X) (View.ld X.x6 rA7)

def kv89 (X : Ins F) : FVec F S512x16x64 .f32 :=
  k0_pay18 (View.ld X.x8 rA9)

def h0new (X : Ins F) : FVec F S512x16x64 .f32 :=
  k0_pay19 (kv6 X) (kv16 X) (kv18 X) (kv20 X) (kv68 X) (kv72 X) (kv87 X) (kv89 X)

def kv122 (X : Ins F) : FVec F S512x16x64 .f32 :=
  k0_pay20 (View.ld X.x2 rA3_1)

def kv123 (X : Ins F) : FVec F S512x16x64 .bf16 :=
  k0_pay21 (kv6 X) (kv16 X) (kv18 X) (kv20 X) (kv68 X) (kv72 X) (kv87 X) (kv89 X)

def kv130 (X : Ins F) : FVec F S512x16x64 .bf16 :=
  k0_pay24 (kv1 X) (kv6 X) (kv16 X) (kv18 X) (kv20 X) (kv68 X) (kv72 X) (kv87 X) (kv89 X)

def kv131 (X : Ins F) : FVec F S512x16x64 .bf16 :=
  k0_pay25 (kv1 X) (kv4 X) (kv6 X) (kv16 X) (kv18 X) (kv20 X) (kv68 X) (kv72 X) (kv87 X) (kv89 X)

def kv132 (X : Ins F) : FVec F S512x16x64 .bf16 :=
  k0_pay26 (View.ld X.x2 rA3_1)

def kv134 (X : Ins F) : FVec F S384x128 .bf16 :=
  k0_pay27 (View.ld X.x9 rA10)

def kv135 (X : Ins F) : Vec F S128 .f32 :=
  View.ld X.x11 rA12

def kv136 (X : Ins F) : FVec F S512x1024 .bf16 :=
  k0_pay28 (View.ld X.x2 rA3_1)

def kv138 (X : Ins F) : FVec F S512x1024 .bf16 :=
  k0_pay29 (kv1 X) (View.ld X.x2 rA3_1)

def h1new (X : Ins F) : FVec F S512x16x64 .f32 :=
  k0_pay30 (kv1 X) (kv4 X) (kv122 X) (kv123 X) (kv130 X) (kv131 X) (kv132 X) (kv134 X) (kv135 X) (kv136 X) (kv138 X) (View.ld X.x10 rA11) (View.ld X.x12 rA13)

def h1newT (X : Ins F) : FVec F S16x512x64 .f32 :=
  k0_pay32 (kv1 X) (kv4 X) (kv122 X) (kv123 X) (kv130 X) (kv131 X) (kv132 X) (kv134 X) (kv135 X) (kv136 X) (kv138 X) (View.ld X.x10 rA11) (View.ld X.x12 rA13)

def out0_15 (X : Ins F) : Vec F S16x512 .f32 :=
  View.canon [⟨rA16, k0_pay2 (h1new X) (View.ld X.x13 rA14) (View.ld X.x14 rA15)⟩]

def out0_16 (X : Ins F) : Vec F S2x16x32768 .f32 :=
  View.canon [⟨rA17_1, k0_pay1 (h1newT X)⟩, ⟨rA17_0, k0_pay31 (h0new X)⟩]

end Cert.KernelIdeal.GenH

end
-- ==== Proof.KFrameI.lean ====
/-
  The program runs to its end without fault and leaves its arguments as launched, and each array ends where
  the body's values put it. In order: the arrays as the grid finds them (V), a block at a grid point (iblk), the
  body's triple over whole blocks (sound_kernel), the same at every grid point, the run.
-/
import proofs.«168098_g44504451121623_cont_8to1_c_180_35_alg».proof.Proof.KBodyI
import proofs.«168098_g44504451121623_cont_8to1_c_180_35_alg».proof.Proof.Gen.KernelIdeal.Launch
import proofs.«168098_g44504451121623_cont_8to1_c_180_35_alg».proof.Proof.Gen.KernelIdeal.Skeleton
import proofs.«168098_g44504451121623_cont_8to1_c_180_35_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.GenH

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) :=
  StableHlo.after hostOps0 (fun b => m (c, b)) b

set_option maxHeartbeats 4000000 in
theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

abbrev args : List (Ref sig .tc) := [main_arg0, main_arg1, main_arg2, main_arg3, main_arg4, main_arg5, main_arg6, main_arg7, main_arg8, main_arg9, main_arg10, main_arg11, main_arg12]

set_option maxHeartbeats 4000000 in

/-- Nothing before the grid writes an argument. -/
theorem V_arg (c : Dev nD) (b : Ref sig .tc) (hb : b ∈ args) : V m c b = m ((c : Thread nD τ).loc b) := by
  simp only [args, List.mem_cons, List.not_mem_nil, or_false] at hb
  rcases hb with rfl | rfl | rfl | rfl | rfl | rfl | rfl | rfl | rfl | rfl | rfl | rfl | rfl <;>
  exact StableHlo.after_of_forall_not_mem (b := Proc.devRef .tc _) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev blk (c : Dev nD) (t : Fin cfg0.N) : Ins F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t⟩

theorem cover0_15 (p0 : Vec F S16x512 .f32) (y : S16x512.Idx) :
    ∃ pc ∈ ([⟨rA16, p0⟩] : List (View.Piece (Elt F) S16x512 .f32)), y ∈ pc.1.set :=
  View.cover_of_tiled [⟨rA16, p0⟩] S16x512.size (by rfl) y

theorem cover0_16 (p0 p1 : Vec F S1x16x32768 .f32) (y : S2x16x32768.Idx) :
    ∃ pc ∈ ([⟨rA17_1, p0⟩, ⟨rA17_0, p1⟩] : List (View.Piece (Elt F) S2x16x32768 .f32)), y ∈ pc.1.set :=
  View.cover_of_tiled [⟨rA17_1, p0⟩, ⟨rA17_0, p1⟩] S1x16x32768.size (by rfl) y

set_option maxHeartbeats 4000000 in

/-- From blocks X the body ends with its two results at out0_15 X and out0_16 X and the inputs as they were. -/
theorem sound_kernel (c : Dev nD) (E : Set ℕ) (i : grid0.Coords) (arg1 : Memref sig .tc .vmem S16x512 .f32) (harg1 : arg1.IsWhole) (arg2 : Memref sig .tc .vmem S512x512 .f32) (harg2 : arg2.IsWhole) (arg3 : Memref sig .tc .vmem S2x512x16x64 .f32) (harg3 : arg3.IsWhole) (arg4 : Memref sig .tc .vmem S3x1x128 .bf16) (harg4 : arg4.IsWhole) (arg5 : Memref sig .tc .vmem S192x128 .bf16) (harg5 : arg5.IsWhole) (arg6 : Memref sig .tc .vmem S3x1x64 .bf16) (harg6 : arg6.IsWhole) (arg7 : Memref sig .tc .vmem S192x64 .bf16) (harg7 : arg7.IsWhole) (arg8 : Memref sig .tc .vmem S128 .f32) (harg8 : arg8.IsWhole) (arg9 : Memref sig .tc .vmem S64 .f32) (harg9 : arg9.IsWhole) (arg10 : Memref sig .tc .vmem S384x128 .bf16) (harg10 : arg10.IsWhole) (arg11 : Memref sig .tc .vmem S384x64 .bf16) (harg11 : arg11.IsWhole) (arg12 : Memref sig .tc .vmem S128 .f32) (harg12 : arg12.IsWhole) (arg13 : Memref sig .tc .vmem S64 .f32) (harg13 : arg13.IsWhole) (arg14 : Memref sig .tc .vmem S1x64 .f32) (harg14 : arg14.IsWhole) (arg15 : Memref sig .tc .vmem S1 .f32) (harg15 : arg15.IsWhole) (arg16 : Memref sig .tc .vmem S16x512 .f32) (harg16 : arg16.IsWhole) (arg17 : Memref sig .tc .vmem S2x16x32768 .f32) (harg17 : arg17.IsWhole)
    (X : Ins F) (K : PUnit → sProp 𝕄) :
    iprop(owns (c : Thread nD τ) arg1 fullShare X.x0
        ∗ owns (c : Thread nD τ) arg2 fullShare X.x1
        ∗ owns (c : Thread nD τ) arg3 fullShare X.x2
        ∗ owns (c : Thread nD τ) arg4 fullShare X.x3
        ∗ owns (c : Thread nD τ) arg5 fullShare X.x4
        ∗ owns (c : Thread nD τ) arg6 fullShare X.x5
        ∗ owns (c : Thread nD τ) arg7 fullShare X.x6
        ∗ owns (c : Thread nD τ) arg8 fullShare X.x7
        ∗ owns (c : Thread nD τ) arg9 fullShare X.x8
        ∗ owns (c : Thread nD τ) arg10 fullShare X.x9
        ∗ owns (c : Thread nD τ) arg11 fullShare X.x10
        ∗ owns (c : Thread nD τ) arg12 fullShare X.x11
        ∗ owns (c : Thread nD τ) arg13 fullShare X.x12
        ∗ owns (c : Thread nD τ) arg14 fullShare X.x13
        ∗ owns (c : Thread nD τ) arg15 fullShare X.x14
        ∗ (∃ d, owns (c : Thread nD τ) arg16 fullShare d)
        ∗ (∃ d, owns (c : Thread nD τ) arg17 fullShare d)
        ∗ (iprop(owns (c : Thread nD τ) arg1 fullShare X.x0
            ∗ owns (c : Thread nD τ) arg2 fullShare X.x1
            ∗ owns (c : Thread nD τ) arg3 fullShare X.x2
            ∗ owns (c : Thread nD τ) arg4 fullShare X.x3
            ∗ owns (c : Thread nD τ) arg5 fullShare X.x4
            ∗ owns (c : Thread nD τ) arg6 fullShare X.x5
            ∗ owns (c : Thread nD τ) arg7 fullShare X.x6
            ∗ owns (c : Thread nD τ) arg8 fullShare X.x7
            ∗ owns (c : Thread nD τ) arg9 fullShare X.x8
            ∗ owns (c : Thread nD τ) arg10 fullShare X.x9
            ∗ owns (c : Thread nD τ) arg11 fullShare X.x10
            ∗ owns (c : Thread nD τ) arg12 fullShare X.x11
            ∗ owns (c : Thread nD τ) arg13 fullShare X.x12
            ∗ owns (c : Thread nD τ) arg14 fullShare X.x13
            ∗ owns (c : Thread nD τ) arg15 fullShare X.x14
            ∗ owns (c : Thread nD τ) arg16 fullShare (out0_15 X)
            ∗ owns (c : Thread nD τ) arg17 fullShare (out0_16 X)) -∗ K ⟨⟩))
      ⊢ wp frame (wpE (defs₀ (F := F)) Variants.none c none) E (cc0__dcgru_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  obtain ⟨x0, x1, x2, x3, x4, x5, x6, x7, x8, x9, x10, x11, x12, x13, x14⟩ := X
  dsimp only
  simp only [cc0__dcgru_body_eq_skeleton]; unfold cc0__dcgru_body_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover0_15 _)).trans ?_
    dsimp only
    simp only [View.readAt_eq_ld, out0_15, h1new, kv138, kv136, kv135, kv134, kv132, kv131, kv130, kv123, kv122, kv89, kv87, kv72, kv68, kv38, kv26, kv23, kv20, kv18, kv16, kv6, kv4, kv1]
  iexists _; isplitr
  swap; · iexact H16
  ipureintro
  refine (View.read_writes_eq_canon _ _ _ (cover0_16 _ _)).trans ?_
  dsimp only
  simp only [View.readAt_eq_ld, out0_16, h1newT, h1new, h0new, kv138, kv136, kv135, kv134, kv132, kv131, kv130, kv123, kv122, kv89, kv87, kv72, kv68, kv38, kv26, kv23, kv20, kv18, kv16, kv6, kv4, kv1]

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (blk m c t)
    | ⟨16, _⟩ => out0_16 (blk m c t)
    | ⟨_ + 17, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (blk m c t) := by dsimp only [dats]
theorem after0_16 (c : Dev nD) (t : Fin cfg0.N) : (dats m 0 c).after 16 t = out0_16 (blk m c t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 4000000 in

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ _ _ _ _ _ _ _ _ _ _ _ _ _ _ _ _ _ _ _ _ _ _ _ _ _ _ _ _ _ _ _ _ _ _ _ (blk m c t) _)
  iframe H0 H1 H2 H3 H4 H5 H6 H7 H8 H9 H10 H11 H12 H13 H14
  isplitl [H15]; · iexists _; iexact H15
  isplitl [H16]; · iexists _; iexact H16
  iintro ⟨H0, H1, H2, H3, H4, H5, H6, H7, H8, H9, H10, H11, H12, H13, H14, H15, H16⟩
  iframe

theorem body_obligation (c : Dev nD) : BodyObligation (dats (F := F) m 0 c) (defs₀ (F := F)) Variants.none () Set.univ := fun t => by
  rw [bigSep_W0, bigSep_W0]
  exact sound_body m c t

set_option backward.isDefEq.respectTransparency.types false in

theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every argument array is as launched. -/
def Kept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)

/-- An argument that is some block's array is never written back; any other is not touched at all. -/
theorem kept (r : PUnit × MemSt nD τ sig (Elt F)) (h : Pipeline.FramePost cfgs (dats m) 0 (V m) r) (c : Dev nD) : Kept m r c :=
  ⟨((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).2 main_arg2 (Pipeline.mem_restRefs_of main_arg2 (by decide) (by decide))).trans (V_arg m c main_arg2 (by decide)),
      ((h c).2 main_arg3 (Pipeline.mem_restRefs_of main_arg3 (by decide) (by decide))).trans (V_arg m c main_arg3 (by decide)),
      ((h c).1 7).trans (((dats m 0 c).arrAt_in 7 rfl _).trans ((A_eq m c 7).trans (V_arg m c main_arg4 (by decide)))),
      ((h c).2 main_arg5 (Pipeline.mem_restRefs_of main_arg5 (by decide) (by decide))).trans (V_arg m c main_arg5 (by decide)),
      ((h c).1 8).trans (((dats m 0 c).arrAt_in 8 rfl _).trans ((A_eq m c 8).trans (V_arg m c main_arg6 (by decide)))),
      ((h c).2 main_arg7 (Pipeline.mem_restRefs_of main_arg7 (by decide) (by decide))).trans (V_arg m c main_arg7 (by decide)),
      ((h c).1 11).trans (((dats m 0 c).arrAt_in 11 rfl _).trans ((A_eq m c 11).trans (V_arg m c main_arg8 (by decide)))),
      ((h c).2 main_arg9 (Pipeline.mem_restRefs_of main_arg9 (by decide) (by decide))).trans (V_arg m c main_arg9 (by decide)),
      ((h c).1 12).trans (((dats m 0 c).arrAt_in 12 rfl _).trans ((A_eq m c 12).trans (V_arg m c main_arg10 (by decide)))),
      ((h c).2 main_arg11 (Pipeline.mem_restRefs_of main_arg11 (by decide) (by decide))).trans (V_arg m c main_arg11 (by decide)),
      ((h c).1 14).trans (((dats m 0 c).arrAt_in 14 rfl _).trans ((A_eq m c 14).trans (V_arg m c main_arg12 (by decide))))⟩

theorem frame : θ_run defs (onTc (τ := τ) (main (F := F))) ⟨m, fun _ => 0, ρ⟩ (fun r => ∀ c : Dev nD, Kept m r c) :=
  (θ_run defs _ _).mono (kept m) (run_main m ρ)

end Cert.KernelIdeal.GenH

end
-- ==== Proof.Spec.lean ====
/-
  What both programs compute for one batch element, over the extended reals: two diffusion-convolution
  GRU cells and a linear projection. A pre-activation contracts the taps z, A z, 2 A (A z) − z of every
  feature with the weight rows. It is written twice: with all (feature, tap) rows in one sum (suffix R), and
  with the state's taps stacked tap-major, the scalar input's taps added one at a time and the 2 inside A (suffix K).
-/
import Idealize.ShloMosaic.PureOps.Ideal

noncomputable section

namespace Cert.Spec

open Idealize.ShloMosaic
open scoped BigOperators

abbrev R := EReal

def c1 : R := Ideal.ofBits .f32 0x3F800000#32
def c2 : R := Ideal.ofBits .f32 0x40000000#32

structure Params where
  A : Fin 512 → Fin 512 → R
  Wg0 : Fin 195 → Fin 128 → R
  bg0 : Fin 128 → R
  Wc0 : Fin 195 → Fin 64 → R
  bc0 : Fin 64 → R
  Wg1 : Fin 384 → Fin 128 → R
  bg1 : Fin 128 → R
  Wc1 : Fin 384 → Fin 64 → R
  bc1 : Fin 64 → R
  Wp : Fin 64 → R
  bp : R

structure KParams where
  A : Fin 512 → Fin 512 → R
  wxg0 : Fin 3 → Fin 128 → R
  whg0 : Fin 192 → Fin 128 → R
  bg0 : Fin 128 → R
  wxc0 : Fin 3 → Fin 64 → R
  whc0 : Fin 192 → Fin 64 → R
  bc0 : Fin 64 → R
  wg1 : Fin 384 → Fin 128 → R
  bg1 : Fin 128 → R
  wc1 : Fin 384 → Fin 64 → R
  bc1 : Fin 64 → R
  wp : Fin 64 → R
  bp : R

/-- Where row k of the tap-major stack of the 64 state units sits among layer 0's (feature, tap) rows. -/
def row0 (k : Fin 192) : Fin 195 := ⟨(1 + k.val % 64) * 3 + k.val / 64, by have := k.isLt; omega⟩

/-- The same for layer 1: the state's 192 rows first, then the input's. -/
def row1 (k : Fin 384) : Fin 384 :=
  ⟨if k.val < 192 then (64 + k.val % 64) * 3 + k.val / 64 else ((k.val - 192) % 64) * 3 + (k.val - 192) / 64, by
    have := k.isLt; split <;> omega⟩

def rowx (m : Fin 3) : Fin 195 := ⟨m.val, by have := m.isLt; omega⟩

def KParams.ofParams (P : Params) : KParams where
  A := P.A
  wxg0 := fun m o => P.Wg0 (rowx m) o
  whg0 := fun k o => P.Wg0 (row0 k) o
  bg0 := P.bg0
  wxc0 := fun m o => P.Wc0 (rowx m) o
  whc0 := fun k o => P.Wc0 (row0 k) o
  bc0 := P.bc0
  wg1 := fun k o => P.Wg1 (row1 k) o
  bg1 := P.bg1
  wc1 := fun k o => P.Wc1 (row1 k) o
  bc1 := P.bc1
  wp := P.Wp
  bp := P.bp

section taps
variable (A : Fin 512 → Fin 512 → R)

/-- A z. -/
def d1 (z : Fin 512 → R) : Fin 512 → R := fun n => ∑ k, A n k * z k

/-- 2 A (A z) − z. -/
def d2 (z : Fin 512 → R) : Fin 512 → R := fun n => c2 * d1 A (d1 A z) n - z n

/-- (A · 2) (A z) − z. -/
def d2K (z : Fin 512 → R) : Fin 512 → R := fun n => (∑ k, (A n k * c2) * d1 A z k) - z n

def tap (m : ℕ) (z : Fin 512 → R) : Fin 512 → R := if m = 0 then z else if m = 1 then d1 A z else d2 A z
def tapK (m : ℕ) (z : Fin 512 → R) : Fin 512 → R := if m = 0 then z else if m = 1 then d1 A z else d2K A z

def cat0 (x : Fin 512 → R) (s : Fin 512 → Fin 64 → R) (j : Fin 65) : Fin 512 → R :=
  fun n => if h : j.val = 0 then x n else s n ⟨j.val - 1, by have := j.isLt; omega⟩

def cat1 (xin : Fin 512 → Fin 64 → R) (s : Fin 512 → Fin 64 → R) (j : Fin 128) : Fin 512 → R :=
  fun n => if h : j.val < 64 then xin n ⟨j.val, h⟩ else s n ⟨j.val - 64, by have := j.isLt; omega⟩

/-- All 195 (feature, tap) rows in one sum. -/
def preR0 (x : Fin 512 → R) (s : Fin 512 → Fin 64 → R) (W : Fin 195 → R) (bias : R) (n : Fin 512) : R :=
  (∑ k : Fin 195, tap A (k.val % 3) (cat0 x s ⟨k.val / 3, by have := k.isLt; omega⟩) n * W k) + bias
def preR1 (xin s : Fin 512 → Fin 64 → R) (W : Fin 384 → R) (bias : R) (n : Fin 512) : R :=
  (∑ k : Fin 384, tap A (k.val % 3) (cat1 xin s ⟨k.val / 3, by have := k.isLt; omega⟩) n * W k) + bias

def col (s : Fin 512 → Fin 64 → R) (u : ℕ) (hu : u < 64) : Fin 512 → R := fun n => s n ⟨u, hu⟩

/-- State taps tap-major, then the bias, then the input's three taps. -/
def preK0 (x : Fin 512 → R) (s : Fin 512 → Fin 64 → R) (Wh : Fin 192 → R) (bias : R) (wx : Fin 3 → R) (n : Fin 512) : R :=
  ((((∑ k : Fin 192, tapK A (k.val / 64) (col s (k.val % 64) (Nat.mod_lt _ (by norm_num))) n * Wh k) + bias)
    + tapK A 0 x n * wx 0) + tapK A 1 x n * wx 1) + tapK A 2 x n * wx 2
def preK1 (xin s : Fin 512 → Fin 64 → R) (Wcat : Fin 384 → R) (bias : R) (n : Fin 512) : R :=
  (∑ k : Fin 384, (if k.val < 192 then tapK A (k.val / 64) (col s (k.val % 64) (Nat.mod_lt _ (by norm_num))) n
      else tapK A ((k.val - 192) / 64) (col xin ((k.val - 192) % 64) (Nat.mod_lt _ (by norm_num))) n) * Wcat k) + bias
end taps

section cell
variable (pg : (Fin 512 → Fin 64 → R) → Fin 512 → Fin 128 → R) (pc : (Fin 512 → Fin 64 → R) → Fin 512 → Fin 64 → R)

def gateOf (h : Fin 512 → Fin 64 → R) : Fin 512 → Fin 128 → R := fun n o => Ideal.logistic (pg h n o)

def rhOf (h : Fin 512 → Fin 64 → R) : Fin 512 → Fin 64 → R :=
  fun n u => gateOf pg h n ⟨u.val, by have := u.isLt; omega⟩ * h n u

def candOf (h : Fin 512 → Fin 64 → R) : Fin 512 → Fin 64 → R := fun n u => Ideal.tanh (pc (rhOf pg h) n u)

/-- u · h + (1 − u) · tanh (pc (r · h)), with (r, u) the logistic of pg h. -/
def cell (h : Fin 512 → Fin 64 → R) : Fin 512 → Fin 64 → R := fun n u =>
  gateOf pg h n ⟨64 + u.val, by have := u.isLt; omega⟩ * h n u
    + (c1 - gateOf pg h n ⟨64 + u.val, by have := u.isLt; omega⟩) * candOf pg pc h n u
end cell

def pg0R (P : Params) (x : Fin 512 → R) : (Fin 512 → Fin 64 → R) → Fin 512 → Fin 128 → R :=
  fun s n o => preR0 P.A x s (fun k => P.Wg0 k o) (P.bg0 o) n
def pc0R (P : Params) (x : Fin 512 → R) : (Fin 512 → Fin 64 → R) → Fin 512 → Fin 64 → R :=
  fun s n u => preR0 P.A x s (fun k => P.Wc0 k u) (P.bc0 u) n
def pg1R (P : Params) (xin : Fin 512 → Fin 64 → R) : (Fin 512 → Fin 64 → R) → Fin 512 → Fin 128 → R :=
  fun s n o => preR1 P.A xin s (fun k => P.Wg1 k o) (P.bg1 o) n
def pc1R (P : Params) (xin : Fin 512 → Fin 64 → R) : (Fin 512 → Fin 64 → R) → Fin 512 → Fin 64 → R :=
  fun s n u => preR1 P.A xin s (fun k => P.Wc1 k u) (P.bc1 u) n

def h0nR (P : Params) (x : Fin 512 → R) (h0 : Fin 512 → Fin 64 → R) : Fin 512 → Fin 64 → R :=
  cell (pg0R P x) (pc0R P x) h0

def h1nR (P : Params) (x : Fin 512 → R) (h0 h1 : Fin 512 → Fin 64 → R) : Fin 512 → Fin 64 → R :=
  cell (pg1R P (h0nR P x h0)) (pc1R P (h0nR P x h0)) h1

def outR (P : Params) (x : Fin 512 → R) (h0 h1 : Fin 512 → Fin 64 → R) (n : Fin 512) : R :=
  (∑ u : Fin 64, h1nR P x h0 h1 n u * P.Wp u) + P.bp

def pg0K (Q : KParams) (x : Fin 512 → R) : (Fin 512 → Fin 64 → R) → Fin 512 → Fin 128 → R :=
  fun s n o => preK0 Q.A x s (fun k => Q.whg0 k o) (Q.bg0 o) (fun m => Q.wxg0 m o) n
def pc0K (Q : KParams) (x : Fin 512 → R) : (Fin 512 → Fin 64 → R) → Fin 512 → Fin 64 → R :=
  fun s n u => preK0 Q.A x s (fun k => Q.whc0 k u) (Q.bc0 u) (fun m => Q.wxc0 m u) n
def pg1K (Q : KParams) (xin : Fin 512 → Fin 64 → R) : (Fin 512 → Fin 64 → R) → Fin 512 → Fin 128 → R :=
  fun s n o => preK1 Q.A xin s (fun k => Q.wg1 k o) (Q.bg1 o) n
def pc1K (Q : KParams) (xin : Fin 512 → Fin 64 → R) : (Fin 512 → Fin 64 → R) → Fin 512 → Fin 64 → R :=
  fun s n u => preK1 Q.A xin s (fun k => Q.wc1 k u) (Q.bc1 u) n
def h0nK (Q : KParams) (x : Fin 512 → R) (h0 : Fin 512 → Fin 64 → R) : Fin 512 → Fin 64 → R :=
  cell (pg0K Q x) (pc0K Q x) h0
def h1nK (Q : KParams) (x : Fin 512 → R) (h0 h1 : Fin 512 → Fin 64 → R) : Fin 512 → Fin 64 → R :=
  cell (pg1K Q (h0nK Q x h0)) (pc1K Q (h0nK Q x h0)) h1
def outK (Q : KParams) (x : Fin 512 → R) (h0 h1 : Fin 512 → Fin 64 → R) (n : Fin 512) : R :=
  (∑ u : Fin 64, h1nK Q x h0 h1 n u * Q.wp u) + Q.bp

end Cert.Spec

end
-- ==== Proof.SpecArr.lean ====
/-
  The specification read off the argument arrays: the parameters, one batch row's input and states, and the
  two result arrays (the projection, and the two layers' new states stacked).
-/
import proofs.«168098_g44504451121623_cont_8to1_c_180_35_alg».proof.Proof.Spec
import Idealize.ShloMosaic.Lib.ValueIdx

noncomputable section

namespace Cert.Spec

open Idealize.ShloMosaic Idealize.ShloMosaic.ValueIdx

abbrev Arr1 (a : ℕ) := (⟨1, ![a]⟩ : Shape).Idx → R
abbrev Arr2 (a b : ℕ) := (⟨2, ![a, b]⟩ : Shape).Idx → R
abbrev Arr3 (a b c : ℕ) := (⟨3, ![a, b, c]⟩ : Shape).Idx → R
abbrev Arr4 (a b c d : ℕ) := (⟨4, ![a, b, c, d]⟩ : Shape).Idx → R

def Params.ofArrays (a1 : Arr2 512 512) (a3 : Arr2 195 128) (a4 : Arr1 128) (a5 : Arr2 195 64) (a6 : Arr1 64)
    (a7 : Arr2 384 128) (a8 : Arr1 128) (a9 : Arr2 384 64) (a10 : Arr1 64) (a11 : Arr2 64 1) (a12 : Arr1 1) : Params where
  A := fun n k => a1 (ix2 n k)
  Wg0 := fun k o => a3 (ix2 k o)
  bg0 := fun o => a4 (ix1 o)
  Wc0 := fun k o => a5 (ix2 k o)
  bc0 := fun o => a6 (ix1 o)
  Wg1 := fun k o => a7 (ix2 k o)
  bg1 := fun o => a8 (ix1 o)
  Wc1 := fun k o => a9 (ix2 k o)
  bc1 := fun o => a10 (ix1 o)
  Wp := fun u => a11 (ix2 u (0 : Fin 1))
  bp := a12 (ix1 (0 : Fin 1))

def xOf (a0 : Arr2 32 512) (b : Fin 32) : Fin 512 → R := fun n => a0 (ix2 b n)

def hOf (a2 : Arr3 2 32 32768) (l : Fin 2) (b : Fin 32) : Fin 512 → Fin 64 → R :=
  fun n u => a2 (ix3 l b ⟨n.val * 64 + u.val, by have := n.isLt; have := u.isLt; omega⟩)

section
variable (a0 : Arr2 32 512) (a1 : Arr2 512 512) (a2 : Arr3 2 32 32768) (a3 : Arr2 195 128) (a4 : Arr1 128)
  (a5 : Arr2 195 64) (a6 : Arr1 64) (a7 : Arr2 384 128) (a8 : Arr1 128) (a9 : Arr2 384 64) (a10 : Arr1 64)
  (a11 : Arr2 64 1) (a12 : Arr1 1)

def outArr : Arr2 32 512 := fun i =>
  outR (Params.ofArrays a1 a3 a4 a5 a6 a7 a8 a9 a10 a11 a12) (xOf a0 (i 0)) (hOf a2 0 (i 0)) (hOf a2 1 (i 0)) (i 1)

def hsArr : Arr3 2 32 32768 := fun i =>
  if (i 0).val = 0 then
    h0nR (Params.ofArrays a1 a3 a4 a5 a6 a7 a8 a9 a10 a11 a12) (xOf a0 (i 1)) (hOf a2 0 (i 1))
      ⟨(i 2).val / 64, by have := (i 2).isLt; simp only [Matrix.cons_val] at this; omega⟩ ⟨(i 2).val % 64, Nat.mod_lt _ (by norm_num)⟩
  else
    h1nR (Params.ofArrays a1 a3 a4 a5 a6 a7 a8 a9 a10 a11 a12) (xOf a0 (i 1)) (hOf a2 0 (i 1)) (hOf a2 1 (i 1))
      ⟨(i 2).val / 64, by have := (i 2).isLt; simp only [Matrix.cons_val] at this; omega⟩ ⟨(i 2).val % 64, Nat.mod_lt _ (by norm_num)⟩
end

end Cert.Spec

end
-- ==== Proof.KDefs.lean ====
/-
  One grid point's blocks as the specification's data: Q the tap-major parameters, xk and hk the input and the
  layer-l state of chunk element b as node fields.
-/
import proofs.«168098_g44504451121623_cont_8to1_c_180_35_alg».proof.Proof.KBodyI
import proofs.«168098_g44504451121623_cont_8to1_c_180_35_alg».proof.Proof.SpecArr

noncomputable section

namespace Cert.KernelIdeal.KVal

open Cert.KernelIdeal Cert.KernelIdeal.Gen Cert.KernelIdeal.GenH Cert.Spec Idealize.ShloMosaic Idealize.ShloMosaic.ValueIdx

def Q (X : Ins Ideal) : KParams where
  A := fun n k => X.x1 (ix2 n k)
  wxg0 := fun m o => X.x3 (ix3 m (0 : Fin 1) o)
  whg0 := fun k o => X.x4 (ix2 k o)
  bg0 := fun o => X.x7 (ix1 o)
  wxc0 := fun m o => X.x5 (ix3 m (0 : Fin 1) o)
  whc0 := fun k o => X.x6 (ix2 k o)
  bc0 := fun o => X.x8 (ix1 o)
  wg1 := fun k o => X.x9 (ix2 k o)
  bg1 := fun o => X.x11 (ix1 o)
  wc1 := fun k o => X.x10 (ix2 k o)
  bc1 := fun o => X.x12 (ix1 o)
  wp := fun u => X.x13 (ix2 (0 : Fin 1) u)
  bp := X.x14 (ix1 (0 : Fin 1))

def xk (x0 : Vec Ideal S16x512 .f32) (b : Fin 16) : Fin 512 → R := fun n => x0 (ix2 b n)

def hk (x2 : Vec Ideal S2x512x16x64 .f32) (l : Fin 2) (b : Fin 16) : Fin 512 → Fin 64 → R :=
  fun n u => x2 (ix4 l n b u)

end Cert.KernelIdeal.KVal

end
-- ==== Proof.KDiffuse.lean ====
/-
  The fused cell's layout operations and matrix products read at an index. A plain product into a zero
  accumulator is the sum over the contracted coordinate. A (node, chunk element, unit) state is laid node-major
  as a 512 × 1024 matrix (column b·64 + u), multiplied by the adjacency, and laid back; stacked tap blocks are
  laid side by side on the unit axis and the (node, chunk element) pairs become 8192 rows (row n·16 + b).
-/
import proofs.«168098_g44504451121623_cont_8to1_c_180_35_alg».proof.Proof.KDefs
import Idealize.ShloMosaic.Lib.ValueLayout
import Idealize.ShloMosaic.Lib.StackMember
import Idealize.ShloMosaic.Lib.KernelVsHost
import Idealize.ShloMosaic.PureOps.Ideal.Laws

noncomputable section

namespace Cert.KernelIdeal.KVal

open Cert.KernelIdeal Cert.KernelIdeal.Gen Cert.KernelIdeal.GenH Cert.Spec Idealize.ShloMosaic Idealize.ShloMosaic.ValueIdx
open scoped BigOperators

theorem z1 : (![0] : Fin 1 → Nat) = fun _ => 0 := funext fun a => by
  match a with
  | ⟨0, _⟩ => rfl
theorem z2 : (![0, 0] : Fin 2 → Nat) = fun _ => 0 := funext fun a => by
  match a with
  | ⟨0, _⟩ => rfl
  | ⟨1, _⟩ => rfl
theorem z3 : (![0, 0, 0] : Fin 3 → Nat) = fun _ => 0 := funext fun a => by
  match a with
  | ⟨0, _⟩ => rfl
  | ⟨1, _⟩ => rfl
  | ⟨2, _⟩ => rfl

-- A plain m×k by k×n product into a zero accumulator is the sum over the contracted coordinate.
theorem mat_apply {m k n : Nat} {φ₁ φ₂ : FTy} (A : FVec Ideal ⟨2, ![m, k]⟩ φ₁) (B : FVec Ideal ⟨2, ![k, n]⟩ φ₂) (a : Fin m) (b : Fin n) :
    matmul (DotDims.plain m k n) none A B (constant (F := Ideal) ⟨2, ![m, n]⟩ .f32 0x00000000#32) (ix2 a b)
      = ∑ c : Fin k, A (ix2 a c) * B (ix2 c b) :=
  (congrFun (matmul_zero_eq_dotGeneral _ none A B) _).trans (StackMember.dotGeneral_plain_apply none A B a b)

theorem tapK_zero (A : Fin 512 → Fin 512 → R) (z : Fin 512 → R) : tapK A 0 z = z := if_pos rfl
theorem tapK_one (A : Fin 512 → Fin 512 → R) (z : Fin 512 → R) : tapK A 1 z = d1 A z := by
  unfold tapK; rw [if_neg (by decide), if_pos rfl]
theorem tapK_two (A : Fin 512 → Fin 512 → R) (z : Fin 512 → R) : tapK A 2 z = d2K A z := by
  unfold tapK; rw [if_neg (by decide), if_neg (by decide)]

namespace Dif

variable {α : Type}

abbrev rowIx (n : Fin 512) (b : Fin 16) : Fin 8192 := ⟨n.val * 16 + b.val, by have := n.isLt; have := b.isLt; omega⟩
abbrev colIx (b : Fin 16) (u : Fin 64) : Fin 1024 := ⟨b.val * 64 + u.val, by have := b.isLt; have := u.isLt; omega⟩

theorem nodeMajor_apply (s3 : S512x16x64.Idx → α) (n : Fin 512) (b : Fin 16) (u : Fin 64) :
    shapeCast S512x1024 s3 shapeCasts_S512x16x64_S512x1024 (ix2 n (colIx b u)) = s3 (ix3 n b u) := by
  refine shapeCast_apply s3 _ _ _ ?_
  rw [Shape.rowMajor_val_three, Shape.rowMajor_val_two]
  show (n.val * 16 + b.val) * 64 + u.val = n.val * 1024 + (b.val * 64 + u.val)
  omega

theorem nodeMajor_back_apply (z : S512x1024.Idx → α) (n : Fin 512) (b : Fin 16) (u : Fin 64) :
    shapeCast S512x16x64 z shapeCasts_S512x1024_S512x16x64 (ix3 n b u) = z (ix2 n (colIx b u)) := by
  refine shapeCast_apply z _ _ _ ?_
  rw [Shape.rowMajor_val_three, Shape.rowMajor_val_two]
  show n.val * 1024 + (b.val * 64 + u.val) = (n.val * 16 + b.val) * 64 + u.val
  omega

-- (node, chunk element, column) blocks of any width as 8192 rows, and back.
theorem toRows_apply {c : Nat} (x : (⟨3, ![512, 16, c]⟩ : Shape).Idx → α)
    (h : (⟨3, ![512, 16, c]⟩ : Shape).ShapeCasts ⟨2, ![8192, c]⟩) (n : Fin 512) (b : Fin 16) (k : Fin c) :
    shapeCast ⟨2, ![8192, c]⟩ x h (ix2 (rowIx n b) k) = x (ix3 n b k) :=
  shapeCast_apply x h _ _ (by rw [Shape.rowMajor_val_two, Shape.rowMajor_val_three]; rfl)

theorem ofRows_apply {c : Nat} (y : (⟨2, ![8192, c]⟩ : Shape).Idx → α)
    (h : (⟨2, ![8192, c]⟩ : Shape).ShapeCasts ⟨3, ![512, 16, c]⟩) (n : Fin 512) (b : Fin 16) (k : Fin c) :
    shapeCast ⟨3, ![512, 16, c]⟩ y h (ix3 n b k) = y (ix2 (rowIx n b) k) :=
  shapeCast_apply y h _ _ (by rw [Shape.rowMajor_val_two, Shape.rowMajor_val_three]; rfl)

-- N blocks of 64 units side by side on the unit axis: column k is block k / 64 at unit k % 64.
theorem cat_apply {N : Nat} (p : Fin N → (S512x16x64.Idx → α))
    (h : Shape.Concatenates ((List.ofFn fun j => (⟨S512x16x64, p j⟩ : (s : Shape) × (s.Idx → α))).map (·.1)) ⟨3, ![512, 16, N * 64]⟩ 2)
    (n : Fin 512) (b : Fin 16) (k : Fin (N * 64)) :
    concatenate ⟨3, ![512, 16, N * 64]⟩ 2 (List.ofFn fun j => ⟨S512x16x64, p j⟩) h (ix3 n b k)
      = p ⟨k.val / 64, Nat.div_lt_of_lt_mul (Nat.mul_comm N 64 ▸ k.isLt)⟩ (ix3 n b ⟨k.val % 64, Nat.mod_lt _ (by norm_num)⟩) :=
  concatenate_ofFn_apply (t := ⟨3, ![512, 16, N * 64]⟩) (s₁ := S512x16x64) 2 p h rfl 64 rfl (ix3 n b k) _ rfl
    (ix3 n b ⟨k.val % 64, Nat.mod_lt _ (by norm_num)⟩) rfl (fun a ha => by
      match a with
      | ⟨0, _⟩ => rfl
      | ⟨1, _⟩ => rfl
      | ⟨2, _⟩ => exact absurd rfl ha)

theorem rows3_apply (p0 p1 p2 : S512x16x64.Idx → α) (n : Fin 512) (b : Fin 16) (k : Fin 192) :
    shapeCast S8192x192
        (concatenate S512x16x192 2 [⟨S512x16x64, p0⟩, ⟨S512x16x64, p1⟩, ⟨S512x16x64, p2⟩]
          concatenates_S512x16x64_S512x16x64_S512x16x64_S512x16x192_d2)
        shapeCasts_S512x16x192_S8192x192 (ix2 (rowIx n b) k)
      = (if k.val / 64 = 0 then p0 else if k.val / 64 = 1 then p1 else p2) (ix3 n b ⟨k.val % 64, Nat.mod_lt _ (by norm_num)⟩) :=
  (toRows_apply _ _ n b k).trans
    (cat_apply (N := 3) (fun j => if j.val = 0 then p0 else if j.val = 1 then p1 else p2) _ n b k)

def sel6 (a0 a1 a2 a3 a4 a5 : α) (j : ℕ) : α :=
  if j = 0 then a0 else if j = 1 then a1 else if j = 2 then a2 else if j = 3 then a3 else if j = 4 then a4 else a5

theorem rows6_apply (a0 a1 a2 a3 a4 a5 : S512x16x64.Idx → α) (n : Fin 512) (b : Fin 16) (k : Fin 384) :
    shapeCast S8192x384 (concatenate S512x16x384 2 [⟨S512x16x64, a0⟩, ⟨S512x16x64, a1⟩, ⟨S512x16x64, a2⟩, ⟨S512x16x64, a3⟩, ⟨S512x16x64, a4⟩, ⟨S512x16x64, a5⟩] concatenates_S512x16x64_S512x16x64_S512x16x64_S512x16x64_S512x16x64_S512x16x64_S512x16x384_d2) shapeCasts_S512x16x384_S8192x384 (ix2 (rowIx n b) k)
      = sel6 a0 a1 a2 a3 a4 a5 (k.val / 64) (ix3 n b ⟨k.val % 64, Nat.mod_lt _ (by norm_num)⟩) :=
  (toRows_apply _ _ n b k).trans (cat_apply (N := 6) (fun j => sel6 a0 a1 a2 a3 a4 a5 j.val) _ n b k)

theorem gateLo_apply (x : S512x16x128.Idx → α) (n : Fin 512) (b : Fin 16) (u : Fin 64) :
    extractStridedSlice S512x16x64 ![0, 0, 0] x slices_S512x16x128_o0_0_0_S512x16x64 (ix3 n b u)
      = x (ix3 n b (⟨u.val, by have := u.isLt; omega⟩ : Fin 128)) :=
  extractStridedSlice_apply _ x _ _ _ (fun a => by
    match a with
    | ⟨0, _⟩ => show n.val = 0 + n.val; omega
    | ⟨1, _⟩ => show b.val = 0 + b.val; omega
    | ⟨2, _⟩ => show u.val = 0 + u.val; omega)

theorem gateHi_apply (x : S512x16x128.Idx → α) (n : Fin 512) (b : Fin 16) (u : Fin 64) :
    extractStridedSlice S512x16x64 ![0, 0, 64] x slices_S512x16x128_o0_0_64_S512x16x64 (ix3 n b u)
      = x (ix3 n b (⟨64 + u.val, by have := u.isLt; omega⟩ : Fin 128)) :=
  extractStridedSlice_apply _ x _ _ _ (fun a => by
    match a with
    | ⟨0, _⟩ => show n.val = 0 + n.val; omega
    | ⟨1, _⟩ => show b.val = 0 + b.val; omega
    | ⟨2, _⟩ => rfl)

-- The reset state: the gate's units 0..63 times the state.
theorem rh_apply (g : FVec Ideal S512x16x128 .f32) (v6 : FVec Ideal S512x16x64 .f32) (n : Fin 512) (b : Fin 16) (u : Fin 64) :
    (truncf .bf16 (mulf (extractStridedSlice S512x16x64 ![0, 0, 0] g slices_S512x16x128_o0_0_0_S512x16x64) v6) bitsLt_bf16_f32
      : FVec Ideal S512x16x64 .bf16) (ix3 n b u)
      = g (ix3 n b (⟨u.val, by have := u.isLt; omega⟩ : Fin 128)) * v6 (ix3 n b u) :=
  congrArg (· * v6 (ix3 n b u)) (gateLo_apply g n b u)

-- A vector of c entries broadcast over nodes and chunk elements.
theorem bias_apply {c : Nat} (x : (⟨1, ![c]⟩ : Shape).Idx → α) (h1 : (⟨1, ![c]⟩ : Shape).ShapeCasts ⟨3, ![1, 1, c]⟩)
    (h2 : (⟨3, ![1, 1, c]⟩ : Shape).Broadcasts ⟨3, ![512, 16, c]⟩) (n : Fin 512) (b : Fin 16) (u : Fin c) :
    broadcastTo ⟨3, ![512, 16, c]⟩ (shapeCast ⟨3, ![1, 1, c]⟩ x h1) h2 (ix3 n b u) = x (ix1 u) := by
  refine (broadcastTo_apply _ h2 (ix3 n b u) (ix3 (0 : Fin 1) (0 : Fin 1) u) (fun a => by
    match a with
    | ⟨0, _⟩ => rfl
    | ⟨1, _⟩ => rfl
    | ⟨2, _⟩ =>
      show u.val = if c = 1 then 0 else u.val
      by_cases hc : c = 1
      · rw [if_pos hc]; have := u.isLt; omega
      · rw [if_neg hc])).trans ?_
  exact shapeCast_apply x h1 _ _ (by
    rw [Shape.rowMajor_val_one, Shape.rowMajor_val_three]
    show u.val = (0 * 1 + 0) * c + u.val
    omega)

-- Row m of a (3, 1, c) weight block, widened and broadcast over nodes and chunk elements.
theorem wrow_apply {c : Nat} (v : FVec Ideal ⟨3, ![3, 1, c]⟩ .bf16) (off : Fin 3 → Nat)
    (h : (⟨3, ![3, 1, c]⟩ : Shape).Slices off ⟨3, ![1, 1, c]⟩) (m : Fin 3) (h0 : off 0 = m.val) (h1 : off 1 = 0) (h2 : off 2 = 0)
    (hc1 : (⟨3, ![1, 1, c]⟩ : Shape).ShapeCasts ⟨1, ![c]⟩) (hc2 : (⟨1, ![c]⟩ : Shape).ShapeCasts ⟨3, ![1, 1, c]⟩)
    (hb : (⟨3, ![1, 1, c]⟩ : Shape).Broadcasts ⟨3, ![512, 16, c]⟩) (hlt : FTy.bf16.bits < FTy.f32.bits)
    (n : Fin 512) (b : Fin 16) (u : Fin c) :
    broadcastTo ⟨3, ![512, 16, c]⟩ (shapeCast ⟨3, ![1, 1, c]⟩
      (extf .f32 (shapeCast ⟨1, ![c]⟩ (extractStridedSlice ⟨3, ![1, 1, c]⟩ off v h) hc1) hlt) hc2) hb (ix3 n b u)
      = v (ix3 m (0 : Fin 1) u) := by
  refine (bias_apply _ hc2 hb n b u).trans ?_
  show shapeCast ⟨1, ![c]⟩ (extractStridedSlice ⟨3, ![1, 1, c]⟩ off v h) hc1 (ix1 u) = _
  refine (shapeCast_apply _ hc1 (ix1 u) (ix3 (0 : Fin 1) (0 : Fin 1) u) (by
    rw [Shape.rowMajor_val_one, Shape.rowMajor_val_three]
    show (0 * 1 + 0) * c + u.val = u.val
    omega)).trans ?_
  exact extractStridedSlice_apply _ _ _ _ (ix3 m (0 : Fin 1) u) (fun a => by
    match a with
    | ⟨0, _⟩ => show m.val = off 0 + 0; rw [h0]; rfl
    | ⟨1, _⟩ => show (0 : Nat) = off 1 + 0; rw [h1]
    | ⟨2, _⟩ => show u.val = off 2 + u.val; rw [h2]; omega)

-- A (node, chunk element) column broadcast over c outputs.
theorem col_apply {c : Nat} (v : (⟨3, ![512, 16, 1]⟩ : Shape).Idx → α)
    (hb : (⟨3, ![512, 16, 1]⟩ : Shape).Broadcasts ⟨3, ![512, 16, c]⟩) (n : Fin 512) (b : Fin 16) (u : Fin c) :
    broadcastTo ⟨3, ![512, 16, c]⟩ v hb (ix3 n b u) = v (ix3 n b (0 : Fin 1)) :=
  broadcastTo_apply _ _ _ _ (fun a => by
    match a with
    | ⟨0, _⟩ => rfl
    | ⟨1, _⟩ => rfl
    | ⟨2, _⟩ => rfl)

def flatS (s3 : FVec Ideal S512x16x64 .bf16) : FVec Ideal S512x1024 .bf16 :=
  shapeCast S512x1024 s3 shapeCasts_S512x16x64_S512x1024
def unflatS (z : FVec Ideal S512x1024 .bf16) : FVec Ideal S512x16x64 .bf16 :=
  shapeCast S512x16x64 z shapeCasts_S512x1024_S512x16x64
def stepA (v1 : FVec Ideal S512x512 .bf16) (z : FVec Ideal S512x1024 .bf16) : FVec Ideal S512x1024 .bf16 :=
  truncf .bf16 (matmul dot_S512x512_S512x1024_S512x1024_1_0_0_1_n_n none v1 z (constant S512x1024 .f32 0x00000000#32)) bitsLt_bf16_f32
def step2 (v4 : FVec Ideal S512x512 .bf16) (z z1 : FVec Ideal S512x1024 .bf16) : FVec Ideal S512x1024 .bf16 :=
  subf (truncf .bf16 (matmul dot_S512x512_S512x1024_S512x1024_1_0_0_1_n_n none v4 z1 (constant S512x1024 .f32 0x00000000#32)) bitsLt_bf16_f32) z
def tap1S (v1 : FVec Ideal S512x512 .bf16) (s3 : FVec Ideal S512x16x64 .bf16) : FVec Ideal S512x16x64 .bf16 :=
  unflatS (stepA v1 (flatS s3))
def tap2S (v1 v4 : FVec Ideal S512x512 .bf16) (s3 : FVec Ideal S512x16x64 .bf16) : FVec Ideal S512x16x64 .bf16 :=
  unflatS (step2 v4 (flatS s3) (stepA v1 (flatS s3)))
def rows3 (v1 v4 : FVec Ideal S512x512 .bf16) (s3 : FVec Ideal S512x16x64 .bf16) : FVec Ideal S8192x192 .bf16 :=
  shapeCast S8192x192 (concatenate S512x16x192 2 [⟨S512x16x64, s3⟩, ⟨S512x16x64, tap1S v1 s3⟩, ⟨S512x16x64, tap2S v1 v4 s3⟩]
    concatenates_S512x16x64_S512x16x64_S512x16x64_S512x16x192_d2) shapeCasts_S512x16x192_S8192x192
def rows6 (v1 v4 : FVec Ideal S512x512 .bf16) (s3 x3 : FVec Ideal S512x16x64 .bf16) : FVec Ideal S8192x384 .bf16 :=
  shapeCast S8192x384 (concatenate S512x16x384 2 [⟨S512x16x64, s3⟩, ⟨S512x16x64, tap1S v1 s3⟩, ⟨S512x16x64, tap2S v1 v4 s3⟩,
    ⟨S512x16x64, x3⟩, ⟨S512x16x64, tap1S v1 x3⟩, ⟨S512x16x64, tap2S v1 v4 x3⟩] concatenates_S512x16x64_S512x16x64_S512x16x64_S512x16x64_S512x16x64_S512x16x64_S512x16x384_d2) shapeCasts_S512x16x384_S8192x384

theorem tapK_col_congr (A : Fin 512 → Fin 512 → R) (s : Fin 512 → Fin 64 → R) {m m' u u' : ℕ} (hu : u < 64) (hu' : u' < 64)
    (em : m = m') (eu : u = u') : tapK A m (col s u hu) = tapK A m' (col s u' hu') := by
  subst em; subst eu; rfl

section field
variable (A : Fin 512 → Fin 512 → R) (v1 v4 : FVec Ideal S512x512 .bf16)
  (hA : ∀ n k, v1 (ix2 n k) = A n k) (hA4 : ∀ n k, v4 (ix2 n k) = A n k * c2)
  (s3 : FVec Ideal S512x16x64 .bf16) (b : Fin 16) (s : Fin 512 → Fin 64 → R) (hs : ∀ n u, s3 (ix3 n b u) = s n u)
include hA hs

-- One adjacency step of a block whose chunk element b holds the field s diffuses each unit's node field once.
theorem stepA_field (n : Fin 512) (u : Fin 64) :
    stepA v1 (flatS s3) (ix2 n (colIx b u)) = d1 A (col s u.val u.isLt) n := by
  refine (mat_apply v1 (flatS s3) n _).trans ?_
  unfold d1
  refine Finset.sum_congr rfl fun k _ => ?_
  rw [hA, flatS, nodeMajor_apply, hs]
  rfl

theorem tap1_field (n : Fin 512) (u : Fin 64) : tap1S v1 s3 (ix3 n b u) = d1 A (col s u.val u.isLt) n :=
  (nodeMajor_back_apply _ n b u).trans (stepA_field A v1 hA s3 b s hs n u)

include hA4

theorem tap2_field (n : Fin 512) (u : Fin 64) : tap2S v1 v4 s3 (ix3 n b u) = d2K A (col s u.val u.isLt) n := by
  refine (nodeMajor_back_apply _ n b u).trans ((subf_apply _ _ _).trans ?_)
  unfold d2K
  refine congrArg₂ (fun x y : R => x - y) ?_ ?_
  · refine (mat_apply v4 _ n _).trans (Finset.sum_congr rfl fun k _ => ?_)
    rw [hA4, stepA_field A v1 hA s3 b s hs k u]
  · rw [flatS, nodeMajor_apply, hs]
    rfl

-- Row n·16 + b, column k of a block's three taps side by side is tap k / 64 of unit k % 64's field.
theorem rows3_field (n : Fin 512) (k : Fin 192) :
    rows3 v1 v4 s3 (ix2 (rowIx n b) k) = tapK A (k.val / 64) (col s (k.val % 64) (Nat.mod_lt _ (by norm_num))) n := by
  refine (rows3_apply _ _ _ n b k).trans ?_
  have hk := k.isLt
  obtain h | h | h : k.val / 64 = 0 ∨ k.val / 64 = 1 ∨ k.val / 64 = 2 := by omega
  · rw [h, if_pos rfl, tapK_zero]
    exact hs n _
  · rw [h, if_neg (by decide), if_pos rfl, tapK_one]
    exact tap1_field A v1 hA s3 b s hs n _
  · rw [h, if_neg (by decide), if_neg (by decide), tapK_two]
    exact tap2_field A v1 v4 hA hA4 s3 b s hs n _

-- The same for two blocks' taps side by side: the first block's three taps, then the second's.
theorem rows6_field (x3 : FVec Ideal S512x16x64 .bf16) (x : Fin 512 → Fin 64 → R) (hx : ∀ n u, x3 (ix3 n b u) = x n u)
    (n : Fin 512) (k : Fin 384) :
    rows6 v1 v4 s3 x3 (ix2 (rowIx n b) k)
      = if k.val < 192 then tapK A (k.val / 64) (col s (k.val % 64) (Nat.mod_lt _ (by norm_num))) n
        else tapK A ((k.val - 192) / 64) (col x ((k.val - 192) % 64) (Nat.mod_lt _ (by norm_num))) n := by
  refine (rows6_apply _ _ _ _ _ _ n b k).trans ?_
  have hk := k.isLt
  rcases (by omega : k.val / 64 = 0 ∨ k.val / 64 = 1 ∨ k.val / 64 = 2 ∨ k.val / 64 = 3 ∨ k.val / 64 = 4 ∨ k.val / 64 = 5)
    with h | h | h | h | h | h
  · rw [h, if_pos (by omega : k.val < 192)]
    exact hs n _
  · rw [h, if_pos (by omega : k.val < 192)]
    exact tap1_field A v1 hA s3 b s hs n _
  · rw [h, if_pos (by omega : k.val < 192)]
    exact tap2_field A v1 v4 hA hA4 s3 b s hs n _
  · rw [h, if_neg (by omega : ¬ k.val < 192)]
    exact (hx n _).trans (congrFun (tapK_col_congr A x (m := 0) (u := k.val % 64) (Nat.mod_lt _ (by norm_num)) _ (by omega) (by omega)) n)
  · rw [h, if_neg (by omega : ¬ k.val < 192)]
    exact (tap1_field A v1 hA x3 b x hx n _).trans
      (congrFun (tapK_col_congr A x (m := 1) (u := k.val % 64) (Nat.mod_lt _ (by norm_num)) _ (by omega) (by omega)) n)
  · rw [h, if_neg (by omega : ¬ k.val < 192)]
    exact (tap2_field A v1 v4 hA hA4 x3 b x hx n _).trans
      (congrFun (tapK_col_congr A x (m := 2) (u := k.val % 64) (Nat.mod_lt _ (by norm_num)) _ (by omega) (by omega)) n)

end field

end Dif

section blocks
variable (X : Ins Ideal)

theorem kv1_apply (n k : Fin 512) : kv1 X (ix2 n k) = (Q X).A n k :=
  congrFun (View.ld_unit_zero (S := S512x512) z2 _ X.x1) (ix2 n k)

theorem kv4_apply (n k : Fin 512) : kv4 X (ix2 n k) = (Q X).A n k * c2 :=
  congrArg (fun v : Vec Ideal S512x512 .f32 => v (ix2 n k) * c2) (View.ld_unit_zero (S := S512x512) z2 _ X.x1)

-- A one-layer slice of the state block, its unit leading axis dropped, is chunk element b's state of that layer.
theorem state_apply (l : Fin 2) (inb) (n : Fin 512) (b : Fin 16) (u : Fin 64) :
    shapeCast S512x16x64 (View.ld X.x2 (Rect.unit (s := S2x512x16x64) ![l.val, 0, 0, 0] S1x512x16x64.size inb))
      shapeCasts_S1x512x16x64_S512x16x64 (ix3 n b u) = hk X.x2 l b n u := by
  refine (shapeCast_1abc_abc_apply _ shapeCasts_S1x512x16x64_S512x16x64 n b u).trans ?_
  refine congrArg X.x2 (funext fun a => Fin.ext ?_)
  match a with
  | ⟨0, _⟩ => exact Nat.add_zero _
  | ⟨1, _⟩ => show 0 + 1 * n.val = n.val; omega
  | ⟨2, _⟩ => show 0 + 1 * b.val = b.val; omega
  | ⟨3, _⟩ => show 0 + 1 * u.val = u.val; omega

theorem kv6_apply (n : Fin 512) (b : Fin 16) (u : Fin 64) : kv6 X (ix3 n b u) = hk X.x2 0 b n u :=
  state_apply X 0 _ n b u
theorem kv122_apply (n : Fin 512) (b : Fin 16) (u : Fin 64) : kv122 X (ix3 n b u) = hk X.x2 1 b n u :=
  state_apply X 1 _ n b u

end blocks

end Cert.KernelIdeal.KVal

end
-- ==== Proof.KOut.lean ====
/-
  The kernel body's outputs at one grid point read at an index, given its two new states: the projection block
  holds, at (chunk element b, node n), the projected output of chunk element b at node n; the state block holds,
  at (layer l, chunk element b, column n·64 + u), layer l's new state of element b at node n, unit u.
-/
import proofs.«168098_g44504451121623_cont_8to1_c_180_35_alg».proof.Proof.KDiffuse

noncomputable section

namespace Cert.KernelIdeal.KVal

open Cert.KernelIdeal Cert.KernelIdeal.Gen Cert.KernelIdeal.GenH Cert.Spec Idealize.ShloMosaic Idealize.ShloMosaic.ValueIdx
open scoped BigOperators

namespace Out

abbrev colOf (n : Fin 512) (u : Fin 64) : Fin 32768 :=
  ⟨n.val * 64 + u.val, by have := n.isLt; have := u.isLt; omega⟩

-- The projection at (chunk element b, node n): the sum over the units of state times weight, plus the bias.
theorem pay2_apply (v179 : FVec Ideal S512x16x64 .f32) (v190 : Vec Ideal S1x64 .f32) (v196 : Vec Ideal S1 .f32)
    (b : Fin 16) (n : Fin 512) :
    k0_pay2 v179 v190 v196 (ix2 b n)
      = (∑ u : Fin 64, v179 (ix3 n b u) * v190 (ix2 (0 : Fin 1) u)) + v196 (ix1 (0 : Fin 1)) := by
  unfold k0_pay2
  refine (transpose_apply [1, 0] _ _ (ix2 b n) (ix2 n b) ?_).trans ?_
  · intro a
    match a with
    | ⟨0, _⟩ => rfl
    | ⟨1, _⟩ => rfl
  refine (addf_apply _ _ (ix2 n b)).trans ?_
  refine congrArg₂ (· + ·) ?_ ?_
  · refine (Ideal.multiReduction_add_single _ _ _ _ _ (ix2 n b)).trans ?_
    refine Finset.sum_congr rfl fun u _ => ?_
    have hl : (reduces_S512x16x64_S512x16).lift (ix2 n b) u = ix3 n b u := by
      funext a; apply Fin.ext
      match a with
      | ⟨0, _⟩ => rfl
      | ⟨1, _⟩ => rfl
      | ⟨2, _⟩ => rfl
    refine (mulf_apply _ _ _).trans ?_
    rw [hl]
    refine congrArg (v179 (ix3 n b u) * ·) ?_
    refine (broadcastTo_apply _ _ (ix3 n b u) (ix3 (0 : Fin 1) (0 : Fin 1) u) ?_).trans ?_
    · intro a
      match a with
      | ⟨0, _⟩ => rfl
      | ⟨1, _⟩ => rfl
      | ⟨2, _⟩ => rfl
    refine (shapeCast_apply _ _ (ix3 (0 : Fin 1) (0 : Fin 1) u) (ix2 (0 : Fin 1) u) ?_).trans ?_
    · rw [Shape.rowMajor_val_two, Shape.rowMajor_val_three]
      show 0 * 64 + u.val = (0 * 1 + 0) * 64 + u.val
      omega
    exact congrFun (shapeCast_self v190 _) (ix2 (0 : Fin 1) u)
  · refine (broadcast_apply _ (ix2 n b)).trans ?_
    unfold extractAt
    refine congrArg v196 (funext fun a => ?_)
    match a with
    | ⟨0, _⟩ => rfl

theorem swap_apply {α : Type} (v : S512x16x64.Idx → α) (b : Fin 16) (n : Fin 512) (u : Fin 64) :
    transpose S16x512x64 [1, 0, 2] v transposes_S512x16x64_p1_0_2_S16x512x64 (ix3 b n u) = v (ix3 n b u) :=
  transpose_apply [1, 0, 2] _ _ (ix3 b n u) (ix3 n b u) (fun a => by
    match a with
    | ⟨0, _⟩ => rfl
    | ⟨1, _⟩ => rfl
    | ⟨2, _⟩ => rfl)

-- A chunk-element-major state flattened to rows: column n·64 + u of row b is the state at (b, n, u).
theorem pay1_apply (v185 : FVec Ideal S16x512x64 .f32) (b : Fin 16) (n : Fin 512) (u : Fin 64) :
    k0_pay1 v185 (ix3 (0 : Fin 1) b (colOf n u)) = v185 (ix3 b n u) := by
  unfold k0_pay1
  refine (shapeCast_apply _ _ (ix3 (0 : Fin 1) b (colOf n u)) (ix2 b (colOf n u)) ?_).trans ?_
  · rw [Shape.rowMajor_val_two, Shape.rowMajor_val_three]
    show b.val * 32768 + (n.val * 64 + u.val) = (0 * 16 + b.val) * 32768 + (n.val * 64 + u.val)
    omega
  refine shapeCast_apply _ _ (ix2 b (colOf n u)) (ix3 b n u) ?_
  rw [Shape.rowMajor_val_two, Shape.rowMajor_val_three]
  show (b.val * 512 + n.val) * 64 + u.val = b.val * 32768 + (n.val * 64 + u.val)
  omega

theorem pay31_apply (v120 : FVec Ideal S512x16x64 .f32) (b : Fin 16) (n : Fin 512) (u : Fin 64) :
    k0_pay31 v120 (ix3 (0 : Fin 1) b (colOf n u)) = v120 (ix3 n b u) :=
  (pay1_apply _ b n u).trans (swap_apply v120 b n u)

theorem emb_layer1 (b : Fin 16) (c : Fin 32768) : (rA17_1).emb (ix3 (0 : Fin 1) b c) = ix3 (1 : Fin 2) b c := by
  funext a; apply Fin.ext
  match a with
  | ⟨0, _⟩ => rfl
  | ⟨1, _⟩ => show 0 + 1 * b.val = b.val; omega
  | ⟨2, _⟩ => show 0 + 1 * c.val = c.val; omega

theorem emb_layer0 (b : Fin 16) (c : Fin 32768) : (rA17_0).emb (ix3 (0 : Fin 1) b c) = ix3 (0 : Fin 2) b c := by
  funext a; apply Fin.ext
  match a with
  | ⟨0, _⟩ => rfl
  | ⟨1, _⟩ => show 0 + 1 * b.val = b.val; omega
  | ⟨2, _⟩ => show 0 + 1 * c.val = c.val; omega

theorem not_mem_layer1 (b : Fin 16) (c : Fin 32768) : ix3 (0 : Fin 2) b c ∉ (rA17_1).set := by
  rw [Rect.mem_set_unit]
  intro h
  have h0 : 1 ≤ 0 := (h 0).1
  omega

-- Of the block's two stores, the later (layer 1) misses a layer-0 index and the layer-0 store holds it.
theorem canon_layer0 (w1 w0 : Vec Ideal S1x16x32768 .f32) (b : Fin 16) (c : Fin 32768) :
    View.canon (Val := Elt Ideal) [(⟨rA17_1, w1⟩ : View.Piece (Elt Ideal) S2x16x32768 .f32), ⟨rA17_0, w0⟩] (ix3 (0 : Fin 2) b c)
      = w0 (ix3 (0 : Fin 1) b c) := by
  refine (View.canon_cons_of_not_mem (⟨rA17_1, w1⟩ : View.Piece (Elt Ideal) S2x16x32768 .f32) [⟨rA17_0, w0⟩]
    (not_mem_layer1 b c)).trans ?_
  have e := View.canon_cons_emb (Val := Elt Ideal) rA17_0 w0 [] (ix3 (0 : Fin 1) b c)
  rw [emb_layer0] at e
  exact e

theorem canon_layer1 (w1 w0 : Vec Ideal S1x16x32768 .f32) (b : Fin 16) (c : Fin 32768) :
    View.canon (Val := Elt Ideal) [(⟨rA17_1, w1⟩ : View.Piece (Elt Ideal) S2x16x32768 .f32), ⟨rA17_0, w0⟩] (ix3 (1 : Fin 2) b c)
      = w1 (ix3 (0 : Fin 1) b c) := by
  have e := View.canon_cons_emb (Val := Elt Ideal) rA17_1 w1 [⟨rA17_0, w0⟩] (ix3 (0 : Fin 1) b c)
  rw [emb_layer1] at e
  exact e

end Out

section blocks

variable (X : Ins Ideal)

theorem Out.h1newT_apply (b : Fin 16) (n : Fin 512) (u : Fin 64) : h1newT X (ix3 b n u) = h1new X (ix3 n b u) :=
  Out.swap_apply (h1new X) b n u

theorem kp_out
    (h1 : ∀ (n : Fin 512) (b : Fin 16) (u : Fin 64), h1new X (ix3 n b u)
      = h1nK (Q X) (xk X.x0 b) (hk X.x2 0 b) (hk X.x2 1 b) n u)
    (b : Fin 16) (n : Fin 512) :
    k0_pay2 (h1new X) (View.ld X.x13 rA14) (View.ld X.x14 rA15) (ix2 b n)
      = outK (Q X) (xk X.x0 b) (hk X.x2 0 b) (hk X.x2 1 b) n := by
  have e13 : View.ld X.x13 rA14 = X.x13 := View.ld_unit_zero (S := S1x64) z2 _ X.x13
  have e14 : View.ld X.x14 rA15 = X.x14 := View.ld_unit_zero (S := S1) z1 _ X.x14
  rw [e13, e14]
  refine (Out.pay2_apply _ _ _ b n).trans ?_
  unfold outK
  refine congrArg₂ (· + ·) (Finset.sum_congr rfl fun u _ => ?_) rfl
  rw [h1 n b u]
  rfl

theorem kp_hs0
    (h0 : ∀ (n : Fin 512) (b : Fin 16) (u : Fin 64), h0new X (ix3 n b u)
      = h0nK (Q X) (xk X.x0 b) (hk X.x2 0 b) n u)
    (b : Fin 16) (n : Fin 512) (u : Fin 64) :
    k0_pay31 (h0new X)
        (ix3 (0 : Fin 1) b ⟨n.val * 64 + u.val, by have := n.isLt; have := u.isLt; omega⟩)
      = h0nK (Q X) (xk X.x0 b) (hk X.x2 0 b) n u :=
  (Out.pay31_apply _ b n u).trans (h0 n b u)

theorem kp_hs1
    (h1 : ∀ (n : Fin 512) (b : Fin 16) (u : Fin 64), h1new X (ix3 n b u)
      = h1nK (Q X) (xk X.x0 b) (hk X.x2 0 b) (hk X.x2 1 b) n u)
    (b : Fin 16) (n : Fin 512) (u : Fin 64) :
    k0_pay1 (h1newT X)
        (ix3 (0 : Fin 1) b ⟨n.val * 64 + u.val, by have := n.isLt; have := u.isLt; omega⟩)
      = h1nK (Q X) (xk X.x0 b) (hk X.x2 0 b) (hk X.x2 1 b) n u :=
  (Out.pay1_apply _ b n u).trans
    ((Out.h1newT_apply X b n u).trans (h1 n b u))

-- The projection block and the two layers of the state block after the body.
theorem kp_out15
    (h1 : ∀ (n : Fin 512) (b : Fin 16) (u : Fin 64), h1new X (ix3 n b u)
      = h1nK (Q X) (xk X.x0 b) (hk X.x2 0 b) (hk X.x2 1 b) n u)
    (b : Fin 16) (n : Fin 512) :
    out0_15 X (ix2 b n)
      = outK (Q X) (xk X.x0 b) (hk X.x2 0 b) (hk X.x2 1 b) n := by
  unfold out0_15
  rw [View.canon_unit_zero z2]
  exact kp_out X h1 b n

theorem kp_out16_0
    (h0 : ∀ (n : Fin 512) (b : Fin 16) (u : Fin 64), h0new X (ix3 n b u)
      = h0nK (Q X) (xk X.x0 b) (hk X.x2 0 b) n u)
    (b : Fin 16) (n : Fin 512) (u : Fin 64) :
    out0_16 X
        (ix3 (0 : Fin 2) b ⟨n.val * 64 + u.val, by have := n.isLt; have := u.isLt; omega⟩)
      = h0nK (Q X) (xk X.x0 b) (hk X.x2 0 b) n u := by
  unfold out0_16
  refine (Out.canon_layer0 _ _ b _).trans ?_
  exact kp_hs0 X h0 b n u

theorem kp_out16_1
    (h1 : ∀ (n : Fin 512) (b : Fin 16) (u : Fin 64), h1new X (ix3 n b u)
      = h1nK (Q X) (xk X.x0 b) (hk X.x2 0 b) (hk X.x2 1 b) n u)
    (b : Fin 16) (n : Fin 512) (u : Fin 64) :
    out0_16 X
        (ix3 (1 : Fin 2) b ⟨n.val * 64 + u.val, by have := n.isLt; have := u.isLt; omega⟩)
      = h1nK (Q X) (xk X.x0 b) (hk X.x2 0 b) (hk X.x2 1 b) n u := by
  unfold out0_16
  refine (Out.canon_layer1 _ _ b _).trans ?_
  exact kp_hs1 X h1 b n u

end blocks

end Cert.KernelIdeal.KVal

end
-- ==== Proof.SpecAlg.lean ====
/-
  The two arrangements of Spec agree. The real 2 is nonnegative, so it moves across a finite sum of extended
  reals; the tap-major stack is a permutation of the (feature, tap) rows; addition is associative and commutative.
-/
import proofs.«168098_g44504451121623_cont_8to1_c_180_35_alg».proof.Proof.Spec
import Mathlib.Data.EReal.Operations
import Mathlib.Algebra.BigOperators.Fin

noncomputable section

namespace Cert.Spec

open Idealize.ShloMosaic
open scoped BigOperators

theorem c2_eq : c2 = ((2 : ℝ) : EReal) := by
  unfold c2
  simp [Ideal.ofBits, Ideal.ieee, -EReal.coe_mul]; norm_num

/-- A nonnegative real factor distributes over a finite sum of extended reals. -/
theorem coe_mul_sum {ι : Type*} (r : ℝ) (hr : 0 ≤ r) (s : Finset ι) (f : ι → R) :
    ∑ k ∈ s, (r : EReal) * f k = (r : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.mpr hr) (EReal.coe_ne_top r)]

theorem d2K_eq (A : Fin 512 → Fin 512 → R) (z : Fin 512 → R) : d2K A z = d2 A z := by
  funext n
  unfold d2K d2
  congr 1
  rw [c2_eq]
  show _ = ((2 : ℝ) : EReal) * ∑ k, A n k * d1 A z k
  rw [← coe_mul_sum 2 (by norm_num)]
  refine Finset.sum_congr rfl fun k _ => ?_
  rw [mul_comm (A n k), mul_assoc]

theorem tapK_eq (A : Fin 512 → Fin 512 → R) (m : ℕ) (z : Fin 512 → R) : tapK A m z = tap A m z := by
  unfold tapK tap
  rw [d2K_eq]

theorem cat0_zero (x : Fin 512 → R) (s : Fin 512 → Fin 64 → R) (j : Fin 65) (hj : j.val = 0) :
    cat0 x s j = x := by
  funext n; unfold cat0; rw [dif_pos hj]

theorem cat0_succ (x : Fin 512 → R) (s : Fin 512 → Fin 64 → R) (j : Fin 65) (u : ℕ) (hu : u < 64)
    (hj : j.val = 1 + u) : cat0 x s j = col s u hu := by
  funext n; unfold cat0 col; rw [dif_neg (by omega)]
  congr 1; apply Fin.ext; simp only []; omega

theorem cat1_lo (xin s : Fin 512 → Fin 64 → R) (j : Fin 128) (u : ℕ) (hu : u < 64)
    (hj : j.val = u) : cat1 xin s j = col xin u hu := by
  funext n; unfold cat1 col; rw [dif_pos (by omega)]
  congr 1; apply Fin.ext; simp only []; omega

theorem cat1_hi (xin s : Fin 512 → Fin 64 → R) (j : Fin 128) (u : ℕ) (hu : u < 64)
    (hj : j.val = 64 + u) : cat1 xin s j = col s u hu := by
  funext n; unfold cat1 col; rw [dif_neg (by omega)]
  congr 1; apply Fin.ext; simp only []; omega

theorem sum195 (F : Fin 195 → R) :
    ∑ k, F k = (F ⟨0, by omega⟩ + F ⟨1, by omega⟩ + F ⟨2, by omega⟩)
      + ∑ k : Fin 192, F ⟨3 + k.val, by have := k.isLt; omega⟩ := by
  have h := Fin.sum_univ_add (a := 3) (b := 192) (f := F)
  rw [h, Fin.sum_univ_three]; rfl

/-- Tap-major position ↔ (unit, tap) position among the 192 state rows. -/
def perm0 : Fin 192 ≃ Fin 192 where
  toFun k := ⟨(k.val % 64) * 3 + k.val / 64, by have := k.isLt; omega⟩
  invFun j := ⟨(j.val % 3) * 64 + j.val / 3, by have := j.isLt; omega⟩
  left_inv k := by apply Fin.ext; have := k.isLt; simp only []; omega
  right_inv j := by apply Fin.ext; have := j.isLt; simp only []; omega

theorem row0_eq (k : Fin 192) : row0 k = ⟨3 + (perm0 k).val, by have := (perm0 k).isLt; omega⟩ := by
  apply Fin.ext; have := k.isLt; simp only [row0, perm0, Equiv.coe_fn_mk]; omega

theorem sum195_row0 (G : Fin 195 → R) :
    ∑ j, G j = (G ⟨0, by omega⟩ + G ⟨1, by omega⟩ + G ⟨2, by omega⟩) + ∑ k : Fin 192, G (row0 k) := by
  rw [sum195, ← Equiv.sum_comp perm0 (fun i => G ⟨3 + i.val, by have := i.isLt; omega⟩)]
  congr 1

theorem term0 (A : Fin 512 → Fin 512 → R) (x : Fin 512 → R) (s : Fin 512 → Fin 64 → R) (n : Fin 512)
    (k : Fin 192) :
    tap A ((row0 k).val % 3) (cat0 x s ⟨(row0 k).val / 3, by have := (row0 k).isLt; omega⟩) n
      = tap A (k.val / 64) (col s (k.val % 64) (Nat.mod_lt _ (by norm_num))) n := by
  have hk := k.isLt
  have h1 : (row0 k).val % 3 = k.val / 64 := by simp only [row0]; omega
  have h2 := cat0_succ x s ⟨(row0 k).val / 3, by have := (row0 k).isLt; omega⟩ (k.val % 64)
    (Nat.mod_lt _ (by norm_num)) (by simp only [row0]; omega)
  rw [h1, h2]

/-- Split off the input's three rows, permute the other 192. -/
theorem preK0_eq (A : Fin 512 → Fin 512 → R) (x : Fin 512 → R) (s : Fin 512 → Fin 64 → R)
    (W : Fin 195 → R) (bias : R) :
    preK0 A x s (fun k => W (row0 k)) bias (fun m => W (rowx m)) = preR0 A x s W bias := by
  funext n
  unfold preK0 preR0
  simp only [tapK_eq]
  rw [sum195_row0]
  simp only [term0]
  have e0 : tap A ((⟨0, by omega⟩ : Fin 195).val % 3) (cat0 x s ⟨(⟨0, by omega⟩ : Fin 195).val / 3, by simp⟩) n
      = tap A 0 x n := by
    rw [cat0_zero x s _ (by simp)]; rfl
  have e1 : tap A ((⟨1, by omega⟩ : Fin 195).val % 3) (cat0 x s ⟨(⟨1, by omega⟩ : Fin 195).val / 3, by simp⟩) n
      = tap A 1 x n := by
    rw [cat0_zero x s _ (by simp)]; rfl
  have e2 : tap A ((⟨2, by omega⟩ : Fin 195).val % 3) (cat0 x s ⟨(⟨2, by omega⟩ : Fin 195).val / 3, by simp⟩) n
      = tap A 2 x n := by
    rw [cat0_zero x s _ (by simp)]; rfl
  rw [e0, e1, e2]
  have r0 : rowx 0 = ⟨0, by omega⟩ := rfl
  have r1 : rowx 1 = ⟨1, by omega⟩ := rfl
  have r2 : rowx 2 = ⟨2, by omega⟩ := rfl
  rw [r0, r1, r2]
  ac_rfl

/-- row1 is a bijection of the 384 rows. -/
def perm1 : Fin 384 ≃ Fin 384 where
  toFun := row1
  invFun j := ⟨if 192 ≤ j.val then (j.val % 3) * 64 + (j.val / 3 - 64) else 192 + ((j.val % 3) * 64 + j.val / 3), by
    have := j.isLt; split <;> omega⟩
  left_inv k := by
    apply Fin.ext; have := k.isLt; simp only [row1]; split <;> split <;> omega
  right_inv j := by
    apply Fin.ext; have := j.isLt; simp only [row1]; split <;> split <;> omega

/-- One permutation of the 384 rows. -/
theorem preK1_eq (A : Fin 512 → Fin 512 → R) (xin s : Fin 512 → Fin 64 → R) (W : Fin 384 → R) (bias : R) :
    preK1 A xin s (fun k => W (row1 k)) bias = preR1 A xin s W bias := by
  funext n
  unfold preK1 preR1
  simp only [tapK_eq]
  congr 1
  refine Fintype.sum_equiv perm1 _ _ fun k => ?_
  have hk := k.isLt
  show _ = tap A ((row1 k).val % 3) (cat1 xin s ⟨(row1 k).val / 3, by have := (row1 k).isLt; omega⟩) n * W (row1 k)
  congr 1
  by_cases h : k.val < 192
  · rw [if_pos h]
    have h1 : (row1 k).val % 3 = k.val / 64 := by simp only [row1, if_pos h]; omega
    have h2 := cat1_hi xin s ⟨(row1 k).val / 3, by have := (row1 k).isLt; omega⟩ (k.val % 64)
      (Nat.mod_lt _ (by norm_num)) (by simp only [row1, if_pos h]; omega)
    rw [h1, h2]
  · rw [if_neg h]
    have h1 : (row1 k).val % 3 = (k.val - 192) / 64 := by simp only [row1, if_neg h]; omega
    have h2 := cat1_lo xin s ⟨(row1 k).val / 3, by have := (row1 k).isLt; omega⟩ ((k.val - 192) % 64)
      (Nat.mod_lt _ (by norm_num)) (by simp only [row1, if_neg h]; omega)
    rw [h1, h2]

theorem pg0K_eq (P : Params) (x : Fin 512 → R) : pg0K (KParams.ofParams P) x = pg0R P x := by
  funext s n o
  exact congrFun (preK0_eq P.A x s (fun k => P.Wg0 k o) (P.bg0 o)) n

theorem pc0K_eq (P : Params) (x : Fin 512 → R) : pc0K (KParams.ofParams P) x = pc0R P x := by
  funext s n u
  exact congrFun (preK0_eq P.A x s (fun k => P.Wc0 k u) (P.bc0 u)) n

theorem pg1K_eq (P : Params) (xin : Fin 512 → Fin 64 → R) : pg1K (KParams.ofParams P) xin = pg1R P xin := by
  funext s n o
  exact congrFun (preK1_eq P.A xin s (fun k => P.Wg1 k o) (P.bg1 o)) n

theorem pc1K_eq (P : Params) (xin : Fin 512 → Fin 64 → R) : pc1K (KParams.ofParams P) xin = pc1R P xin := by
  funext s n u
  exact congrFun (preK1_eq P.A xin s (fun k => P.Wc1 k u) (P.bc1 u)) n

theorem h0nK_eq (P : Params) (x : Fin 512 → R) (h0 : Fin 512 → Fin 64 → R) :
    h0nK (KParams.ofParams P) x h0 = h0nR P x h0 := by
  unfold h0nK h0nR
  rw [pg0K_eq, pc0K_eq]

theorem h1nK_eq (P : Params) (x : Fin 512 → R) (h0 h1 : Fin 512 → Fin 64 → R) :
    h1nK (KParams.ofParams P) x h0 h1 = h1nR P x h0 h1 := by
  unfold h1nK h1nR
  rw [h0nK_eq, pg1K_eq, pc1K_eq]

theorem outK_eq (P : Params) (x : Fin 512 → R) (h0 h1 : Fin 512 → Fin 64 → R) (n : Fin 512) :
    outK (KParams.ofParams P) x h0 h1 n = outR P x h0 h1 n := by
  unfold outK outR
  rw [h1nK_eq]
  rfl

end Cert.Spec

end
-- ==== Proof.KHostI.lean ====
/-
  The host side of the kernel: what the host's layout operations leave in the weight, state and projection
  arrays the kernel reads, entry by entry, as entries of the argument arrays. The weights' rows are ordered
  (feature, tap); the stacks the kernel reads are tap-major.
-/
import proofs.«168098_g44504451121623_cont_8to1_c_180_35_alg».proof.Proof.Gen.KernelIdeal.Launch
import Idealize.ShloMosaic.Lib.StableHlo.Run
import Idealize.ShloMosaic.Lib.ValueIdx
import Idealize.ShloMosaic.Lib.ValueLayout
import Idealize.ShloMosaic.Lib.Pipeline.Value

set_option maxRecDepth 3224

noncomputable section

namespace Cert.KernelIdeal.HostW

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

section Nary

variable {τ' : Topo} {sig' : RefSig} {Val : EltTy → Type}

-- An operation over a literal family of references leaves, at its result, its function of the contents, each read at its own reference.
theorem nary3_result {x a b y : Ref sig' .tc}
    (f : ((k : Fin 3) → ((![x, a, b] : Fin 3 → Ref sig' .tc) k).ty.Contents Val) → y.ty.Contents Val) (hxs hy)
    (F : Valuation τ' sig' Val) :
    (StableHlo.nary (τ := τ') ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

theorem nary6_result {x a b c d e y : Ref sig' .tc}
    (f : ((k : Fin 6) → ((![x, a, b, c, d, e] : Fin 6 → Ref sig' .tc) k).ty.Contents Val) → y.ty.Contents Val) (hxs hy)
    (F : Valuation τ' sig' Val) :
    (StableHlo.nary (τ := τ') ![x, a, b, c, d, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc d)) (Fin.cons (F (Proc.devRef .tc e)) (fun i => i.elim0))))))) := by
  rw [StableHlo.nary_result]; congr 1; funext k; fin_cases k <;> rfl

end Nary

-- What a literal line of operations leaves at one reference: each operation's result at its own reference, what was there at any other.
macro "host_results" : tactic =>
  `(tactic| (simp (disch := decide) only [StableHlo.after_cons, StableHlo.after_nil,
      StableHlo.unary_result', StableHlo.reshape_result', nary3_result, nary6_result,
      StableHlo.unary_result_ne', StableHlo.reshape_result_ne', StableHlo.nary_result_ne']))

section Layout

variable {α : Type}

-- A matrix of R rows cast to [f, t, c] reads, at (a, b, o), row a·t + b.
theorem shapeCast_rows_apply {R f t c : Nat} (X : (⟨2, ![R, c]⟩ : Shape).Idx → α)
    (h : (⟨2, ![R, c]⟩ : Shape).ShapeCasts ⟨3, ![f, t, c]⟩) (a : Fin f) (b : Fin t) (o : Fin c) (r : Fin R)
    (hr : r.val = a.val * t + b.val) :
    shapeCast ⟨3, ![f, t, c]⟩ X h (ix3 a b o) = X (ix2 r o) :=
  shapeCast_apply X h _ _ (by
    rw [Shape.rowMajor_val_two, Shape.rowMajor_val_three]
    show r.val * c + o.val = (a.val * t + b.val) * c + o.val
    rw [hr])

-- A cut along axis 0 from o reads, at (j, b, e), the source at (o + j, b, e).
theorem slice3_axis0_apply {n0 n1 n2 m : Nat} (o : Nat) (X : (⟨3, ![n0, n1, n2]⟩ : Shape).Idx → α)
    (h : (⟨3, ![n0, n1, n2]⟩ : Shape).Slices ![o, 0, 0] ⟨3, ![m, n1, n2]⟩)
    (j : Fin m) (b : Fin n1) (e : Fin n2) (k : Fin n0) (hk : k.val = o + j.val) :
    extractStridedSlice ⟨3, ![m, n1, n2]⟩ ![o, 0, 0] X h (ix3 j b e) = X (ix3 k b e) :=
  extractStridedSlice_apply _ _ _ _ _ (fun ax => by
    match ax with
    | ⟨0, _⟩ => exact hk
    | ⟨1, _⟩ => exact (Nat.zero_add _).symm
    | ⟨2, _⟩ => exact (Nat.zero_add _).symm)

theorem transpose_ix3_102_apply {a b c : ℕ} (x : (⟨3, ![a, b, c]⟩ : Shape).Idx → α)
    (h : (⟨3, ![a, b, c]⟩ : Shape).Transposes [1, 0, 2] ⟨3, ![b, a, c]⟩) (j : Fin b) (i : Fin a) (e : Fin c) :
    transpose ⟨3, ![b, a, c]⟩ [1, 0, 2] x h (ix3 j i e) = x (ix3 i j e) :=
  transpose_apply _ x h _ _ fun d => match d with | ⟨0, _⟩ => rfl | ⟨1, _⟩ => rfl | ⟨2, _⟩ => rfl

theorem transpose_ix4_0213_apply {a b c d : ℕ} (x : (⟨4, ![a, b, c, d]⟩ : Shape).Idx → α)
    (h : (⟨4, ![a, b, c, d]⟩ : Shape).Transposes [0, 2, 1, 3] ⟨4, ![a, c, b, d]⟩) (l : Fin a) (n : Fin c) (i : Fin b) (u : Fin d) :
    transpose ⟨4, ![a, c, b, d]⟩ [0, 2, 1, 3] x h (ix4 l n i u) = x (ix4 l i n u) :=
  transpose_apply _ x h _ _ fun e => match e with | ⟨0, _⟩ => rfl | ⟨1, _⟩ => rfl | ⟨2, _⟩ => rfl | ⟨3, _⟩ => rfl

-- An [a, b, R] array cast to [a, b, n, u] reads, at (l, i, j, e), the operand at (l, i, j·u + e).
theorem shapeCast_split_last_apply {a b R n u : Nat} (X : (⟨3, ![a, b, R]⟩ : Shape).Idx → α)
    (h : (⟨3, ![a, b, R]⟩ : Shape).ShapeCasts ⟨4, ![a, b, n, u]⟩) (hR : R = n * u) (l : Fin a) (i : Fin b) (j : Fin n) (e : Fin u) (r : Fin R)
    (hr : r.val = j.val * u + e.val) :
    shapeCast ⟨4, ![a, b, n, u]⟩ X h (ix4 l i j e) = X (ix3 l i r) :=
  shapeCast_apply X h _ _ (by
    rw [Shape.rowMajor_val_three, Shape.rowMajor_val_four]
    show (l.val * b + i.val) * R + r.val = ((l.val * b + i.val) * n + j.val) * u + e.val
    rw [hr, hR, ← Nat.mul_assoc, Nat.add_mul _ j.val u, Nat.add_assoc])

end Layout

section Reads

variable {α : Type}

-- The (tap, feature, out) stack of the r feature rows from row off of a weight matrix with rows ordered (feature, tap), rounded to bf16.
abbrev tapsOf {R f c r : Nat} (A : FVec Ideal ⟨2, ![R, c]⟩ .f32) (h1 : (⟨2, ![R, c]⟩ : Shape).ShapeCasts ⟨3, ![f, 3, c]⟩)
    (hb : FTy.bits .bf16 < FTy.bits .f32) (off : Nat) (h2 : (⟨3, ![f, 3, c]⟩ : Shape).Slices ![off, 0, 0] ⟨3, ![r, 3, c]⟩)
    (h3 : (⟨3, ![r, 3, c]⟩ : Shape).Transposes [1, 0, 2] ⟨3, ![3, r, c]⟩) : FVec Ideal ⟨3, ![3, r, c]⟩ .bf16 :=
  transpose (s := ⟨3, ![r, 3, c]⟩) ⟨3, ![3, r, c]⟩ [1, 0, 2] (extractStridedSlice (s := ⟨3, ![f, 3, c]⟩) ⟨3, ![r, 3, c]⟩ ![off, 0, 0]
    (truncf (F := Ideal) (s := ⟨3, ![f, 3, c]⟩) (φ := .f32) .bf16 (shapeCast (s := ⟨2, ![R, c]⟩) ⟨3, ![f, 3, c]⟩ A h1) hb) h2) h3

-- At (mm, u, o) it is the matrix at row (off + u)·3 + mm.
theorem taps_apply {R f c r : Nat} (A : FVec Ideal ⟨2, ![R, c]⟩ .f32) (h1 : (⟨2, ![R, c]⟩ : Shape).ShapeCasts ⟨3, ![f, 3, c]⟩)
    (hb : FTy.bits .bf16 < FTy.bits .f32) (off : Nat) (h2 : (⟨3, ![f, 3, c]⟩ : Shape).Slices ![off, 0, 0] ⟨3, ![r, 3, c]⟩)
    (h3 : (⟨3, ![r, 3, c]⟩ : Shape).Transposes [1, 0, 2] ⟨3, ![3, r, c]⟩)
    (mm : Fin 3) (u : Fin r) (o : Fin c) (q : Fin R) (hq : q.val = (off + u.val) * 3 + mm.val) :
    tapsOf A h1 hb off h2 h3 (ix3 mm u o) = A (ix2 q o) :=
  (transpose_ix3_102_apply _ h3 mm u o).trans <|
    (slice3_axis0_apply off _ h2 u mm o ⟨off + u.val, Nat.lt_of_lt_of_le (Nat.add_lt_add_left u.isLt off) (h2.2 0)⟩ rfl).trans <|
      shapeCast_rows_apply A h1 ⟨off + u.val, Nat.lt_of_lt_of_le (Nat.add_lt_add_left u.isLt off) (h2.2 0)⟩ mm o q hq

theorem tapSlices {c : Nat} (p : Fin 3) : (⟨3, ![3, 64, c]⟩ : Shape).Slices ![p.val, 0, 0] ⟨3, ![1, 64, c]⟩ :=
  ⟨rfl, fun a => by
    match a with
    | ⟨0, _⟩ => show p.val + 1 ≤ 3; have := p.isLt; omega
    | ⟨1, _⟩ => show 0 + 64 ≤ 64; omega
    | ⟨2, _⟩ => show 0 + c ≤ c; omega⟩

-- Tap p of a [3, 64, c] stack as a [64, c] matrix.
abbrev tapPiece {c : Nat} (T : (⟨3, ![3, 64, c]⟩ : Shape).Idx → α) (p : Nat)
    (hp : (⟨3, ![3, 64, c]⟩ : Shape).Slices ![p, 0, 0] ⟨3, ![1, 64, c]⟩)
    (hc : (⟨3, ![1, 64, c]⟩ : Shape).ShapeCasts ⟨2, ![64, c]⟩) : (⟨2, ![64, c]⟩ : Shape).Idx → α :=
  shapeCast (s := ⟨3, ![1, 64, c]⟩) ⟨2, ![64, c]⟩ (extractStridedSlice (s := ⟨3, ![3, 64, c]⟩) ⟨3, ![1, 64, c]⟩ ![p, 0, 0] T hp) hc

theorem tapPiece_apply {c : Nat} (T : (⟨3, ![3, 64, c]⟩ : Shape).Idx → α) (p : Nat)
    (hp : (⟨3, ![3, 64, c]⟩ : Shape).Slices ![p, 0, 0] ⟨3, ![1, 64, c]⟩)
    (hc : (⟨3, ![1, 64, c]⟩ : Shape).ShapeCasts ⟨2, ![64, c]⟩) (u : Fin 64) (o : Fin c) (q : Fin 3) (hq : q.val = p) :
    tapPiece T p hp hc (ix2 u o) = T (ix3 q u o) :=
  (shapeCast_1ab_ab_apply _ hc u o).trans (slice3_axis0_apply p T hp (0 : Fin 1) u o q (by rw [hq]; rfl))

-- N pieces of 64 rows laid one under the other: row k is piece k / 64 at its row k % 64.
theorem stack_apply {c N : Nat} (f : Fin N → ((⟨2, ![64, c]⟩ : Shape).Idx → α))
    (h : Shape.Concatenates ((List.ofFn fun j => (⟨⟨2, ![64, c]⟩, f j⟩ : (s : Shape) × (s.Idx → α))).map (·.1)) ⟨2, ![N * 64, c]⟩ 0)
    (k : Fin (N * 64)) (o : Fin c) :
    concatenate ⟨2, ![N * 64, c]⟩ 0 (List.ofFn fun j => ⟨⟨2, ![64, c]⟩, f j⟩) h (ix2 k o)
      = f ⟨k.val / 64, Nat.div_lt_of_lt_mul (Nat.mul_comm N 64 ▸ k.isLt)⟩ (ix2 ⟨k.val % 64, Nat.mod_lt _ (by norm_num)⟩ o) :=
  concatenate_ofFn_apply (t := ⟨2, ![N * 64, c]⟩) (s₁ := ⟨2, ![64, c]⟩) 0 f h rfl 64 rfl (ix2 k o) _ rfl
    (ix2 ⟨k.val % 64, Nat.mod_lt _ (by norm_num)⟩ o) rfl (fun a ha => by
      match a with
      | ⟨0, _⟩ => exact absurd rfl ha
      | ⟨1, _⟩ => rfl)

-- The three taps of a stack laid one under the other; and of two stacks, six pieces.
abbrev stack3 {c : Nat} (T : (⟨3, ![3, 64, c]⟩ : Shape).Idx → α) (hc : (⟨3, ![1, 64, c]⟩ : Shape).ShapeCasts ⟨2, ![64, c]⟩)
    (h : Shape.Concatenates [(⟨2, ![64, c]⟩ : Shape), ⟨2, ![64, c]⟩, ⟨2, ![64, c]⟩] ⟨2, ![192, c]⟩ 0) : (⟨2, ![192, c]⟩ : Shape).Idx → α :=
  concatenate ⟨2, ![192, c]⟩ 0
    [⟨⟨2, ![64, c]⟩, tapPiece T 0 (tapSlices 0) hc⟩, ⟨⟨2, ![64, c]⟩, tapPiece T 1 (tapSlices 1) hc⟩, ⟨⟨2, ![64, c]⟩, tapPiece T 2 (tapSlices 2) hc⟩] h

abbrev stack6 {c : Nat} (Th Tx : (⟨3, ![3, 64, c]⟩ : Shape).Idx → α) (hc : (⟨3, ![1, 64, c]⟩ : Shape).ShapeCasts ⟨2, ![64, c]⟩)
    (h : Shape.Concatenates [(⟨2, ![64, c]⟩ : Shape), ⟨2, ![64, c]⟩, ⟨2, ![64, c]⟩, ⟨2, ![64, c]⟩, ⟨2, ![64, c]⟩, ⟨2, ![64, c]⟩] ⟨2, ![384, c]⟩ 0) :
    (⟨2, ![384, c]⟩ : Shape).Idx → α :=
  concatenate ⟨2, ![384, c]⟩ 0
    [⟨⟨2, ![64, c]⟩, tapPiece Th 0 (tapSlices 0) hc⟩, ⟨⟨2, ![64, c]⟩, tapPiece Th 1 (tapSlices 1) hc⟩, ⟨⟨2, ![64, c]⟩, tapPiece Th 2 (tapSlices 2) hc⟩,
     ⟨⟨2, ![64, c]⟩, tapPiece Tx 0 (tapSlices 0) hc⟩, ⟨⟨2, ![64, c]⟩, tapPiece Tx 1 (tapSlices 1) hc⟩, ⟨⟨2, ![64, c]⟩, tapPiece Tx 2 (tapSlices 2) hc⟩] h

theorem stack3_apply {c : Nat} (T : (⟨3, ![3, 64, c]⟩ : Shape).Idx → α)
    (hc : (⟨3, ![1, 64, c]⟩ : Shape).ShapeCasts ⟨2, ![64, c]⟩)
    (h : Shape.Concatenates [(⟨2, ![64, c]⟩ : Shape), ⟨2, ![64, c]⟩, ⟨2, ![64, c]⟩] ⟨2, ![192, c]⟩ 0) (k : Fin 192) (o : Fin c) :
    stack3 T hc h (ix2 k o)
      = T (ix3 ⟨k.val / 64, by have := k.isLt; omega⟩ ⟨k.val % 64, Nat.mod_lt _ (by norm_num)⟩ o) :=
  (stack_apply (N := 3) (fun j => tapPiece T j.val (tapSlices j) hc) h k o).trans (tapPiece_apply T _ _ hc _ o _ rfl)

theorem stack6_apply {c : Nat} (Th Tx : (⟨3, ![3, 64, c]⟩ : Shape).Idx → α)
    (hc : (⟨3, ![1, 64, c]⟩ : Shape).ShapeCasts ⟨2, ![64, c]⟩)
    (h : Shape.Concatenates [(⟨2, ![64, c]⟩ : Shape), ⟨2, ![64, c]⟩, ⟨2, ![64, c]⟩, ⟨2, ![64, c]⟩, ⟨2, ![64, c]⟩, ⟨2, ![64, c]⟩] ⟨2, ![384, c]⟩ 0)
    (k : Fin 384) (o : Fin c) :
    stack6 Th Tx hc h (ix2 k o)
      = (if k.val / 64 < 3 then Th else Tx) (ix3 ⟨k.val / 64 % 3, Nat.mod_lt _ (by norm_num)⟩ ⟨k.val % 64, Nat.mod_lt _ (by norm_num)⟩ o) :=
  (stack_apply (N := 6) (fun j => tapPiece (if j.val < 3 then Th else Tx) (j.val % 3) (tapSlices ⟨j.val % 3, Nat.mod_lt _ (by norm_num)⟩) hc) h k o).trans
    (tapPiece_apply _ _ _ hc _ o _ rfl)

-- Layer 1's six pieces (state features 64…127, then input features 0…63) read the weight matrix at the tap-major row.
theorem stack6_taps_apply {c : Nat} (A : FVec Ideal ⟨2, ![384, c]⟩ .f32) (h1 : (⟨2, ![384, c]⟩ : Shape).ShapeCasts ⟨3, ![128, 3, c]⟩)
    (hb : FTy.bits .bf16 < FTy.bits .f32) (hs : (⟨3, ![128, 3, c]⟩ : Shape).Slices ![64, 0, 0] ⟨3, ![64, 3, c]⟩)
    (hx : (⟨3, ![128, 3, c]⟩ : Shape).Slices ![0, 0, 0] ⟨3, ![64, 3, c]⟩) (h3 : (⟨3, ![64, 3, c]⟩ : Shape).Transposes [1, 0, 2] ⟨3, ![3, 64, c]⟩)
    (hc : (⟨3, ![1, 64, c]⟩ : Shape).ShapeCasts ⟨2, ![64, c]⟩)
    (h : Shape.Concatenates [(⟨2, ![64, c]⟩ : Shape), ⟨2, ![64, c]⟩, ⟨2, ![64, c]⟩, ⟨2, ![64, c]⟩, ⟨2, ![64, c]⟩, ⟨2, ![64, c]⟩] ⟨2, ![384, c]⟩ 0)
    (k : Fin 384) (o : Fin c) :
    stack6 (tapsOf A h1 hb 64 hs h3) (tapsOf A h1 hb 0 hx h3) hc h (ix2 k o)
      = A (ix2 ⟨if k.val < 192 then (64 + k.val % 64) * 3 + k.val / 64 else ((k.val - 192) % 64) * 3 + (k.val - 192) / 64, by
          have := k.isLt; split <;> omega⟩ o) := by
  refine (stack6_apply _ _ hc h k o).trans ?_
  have hk := k.isLt
  by_cases hlt : k.val < 192
  · rw [if_pos (by omega : k.val / 64 < 3)]
    exact taps_apply A h1 hb 64 hs h3 _ _ o _ (by
      show (if k.val < 192 then (64 + k.val % 64) * 3 + k.val / 64 else ((k.val - 192) % 64) * 3 + (k.val - 192) / 64)
        = (64 + k.val % 64) * 3 + k.val / 64 % 3
      rw [if_pos hlt]; omega)
  · rw [if_neg (by omega : ¬ k.val / 64 < 3)]
    exact taps_apply A h1 hb 0 hx h3 _ _ o _ (by
      show (if k.val < 192 then (64 + k.val % 64) * 3 + k.val / 64 else ((k.val - 192) % 64) * 3 + (k.val - 192) / 64)
        = (0 + k.val % 64) * 3 + k.val / 64 % 3
      rw [if_neg hlt]; omega)

end Reads

set_option maxHeartbeats 4000000 in
theorem e_v3 : (StableHlo.after (hostOps0 (F := Ideal)) (fun b => m (c, b)) (Proc.devRef .tc main_v3) : S3x1x128.Idx → EReal)
    = (tapsOf (m ((c : Thread nD τ).loc main_arg3)) shapeCasts_S195x128_S65x3x128 bitsLt_bf16_f32 0 slices_S65x3x128_S1x3x128_0_0_0 transposes_S1x3x128_S3x1x128_1_0_2) := by
  host_results <;> rfl

set_option maxHeartbeats 4000000 in
theorem e_v9 : (StableHlo.after (hostOps0 (F := Ideal)) (fun b => m (c, b)) (Proc.devRef .tc main_v9) : S3x1x64.Idx → EReal)
    = (tapsOf (m ((c : Thread nD τ).loc main_arg5)) shapeCasts_S195x64_S65x3x64 bitsLt_bf16_f32 0 slices_S65x3x64_S1x3x64_0_0_0 transposes_S1x3x64_S3x1x64_1_0_2) := by
  host_results <;> rfl

set_option maxHeartbeats 4000000 in
theorem e_v30 : (StableHlo.after (hostOps0 (F := Ideal)) (fun b => m (c, b)) (Proc.devRef .tc main_v30) : S192x128.Idx → EReal)
    = stack3 (tapsOf (m ((c : Thread nD τ).loc main_arg3)) shapeCasts_S195x128_S65x3x128 bitsLt_bf16_f32 1 slices_S65x3x128_S64x3x128_1_0_0 transposes_S64x3x128_S3x64x128_1_0_2) shapeCasts_S1x64x128_S64x128 concatenates_S64x128_S64x128_S64x128_S192x128_d0 := by
  host_results <;> rfl

set_option maxHeartbeats 4000000 in
theorem e_v37 : (StableHlo.after (hostOps0 (F := Ideal)) (fun b => m (c, b)) (Proc.devRef .tc main_v37) : S192x64.Idx → EReal)
    = stack3 (tapsOf (m ((c : Thread nD τ).loc main_arg5)) shapeCasts_S195x64_S65x3x64 bitsLt_bf16_f32 1 slices_S65x3x64_S64x3x64_1_0_0 transposes_S64x3x64_S3x64x64_1_0_2) shapeCasts_S1x64x64_S64x64 concatenates_S64x64_S64x64_S64x64_S192x64_d0 := by
  host_results <;> rfl

set_option maxHeartbeats 4000000 in
theorem e_v50 : (StableHlo.after (hostOps0 (F := Ideal)) (fun b => m (c, b)) (Proc.devRef .tc main_v50) : S384x128.Idx → EReal)
    = stack6 (tapsOf (m ((c : Thread nD τ).loc main_arg7)) shapeCasts_S384x128_S128x3x128 bitsLt_bf16_f32 64 slices_S128x3x128_S64x3x128_64_0_0 transposes_S64x3x128_S3x64x128_1_0_2) (tapsOf (m ((c : Thread nD τ).loc main_arg7)) shapeCasts_S384x128_S128x3x128 bitsLt_bf16_f32 0 slices_S128x3x128_S64x3x128_0_0_0 transposes_S64x3x128_S3x64x128_1_0_2) shapeCasts_S1x64x128_S64x128
        concatenates_S64x128_S64x128_S64x128_S64x128_S64x128_S64x128_S384x128_d0 := by
  host_results <;> rfl

set_option maxHeartbeats 4000000 in
theorem e_v63 : (StableHlo.after (hostOps0 (F := Ideal)) (fun b => m (c, b)) (Proc.devRef .tc main_v63) : S384x64.Idx → EReal)
    = stack6 (tapsOf (m ((c : Thread nD τ).loc main_arg9)) shapeCasts_S384x64_S128x3x64 bitsLt_bf16_f32 64 slices_S128x3x64_S64x3x64_64_0_0 transposes_S64x3x64_S3x64x64_1_0_2) (tapsOf (m ((c : Thread nD τ).loc main_arg9)) shapeCasts_S384x64_S128x3x64 bitsLt_bf16_f32 0 slices_S128x3x64_S64x3x64_0_0_0 transposes_S64x3x64_S3x64x64_1_0_2) shapeCasts_S1x64x64_S64x64
        concatenates_S64x64_S64x64_S64x64_S64x64_S64x64_S64x64_S384x64_d0 := by
  host_results <;> rfl

set_option maxHeartbeats 4000000 in
theorem e_v65 : (StableHlo.after (hostOps0 (F := Ideal)) (fun b => m (c, b)) (Proc.devRef .tc main_v65) : S2x512x32x64.Idx → EReal)
    = transpose (s := S2x32x512x64) S2x512x32x64 [0, 2, 1, 3]
        (shapeCast (s := S2x32x32768) S2x32x512x64 (m ((c : Thread nD τ).loc main_arg2)) shapeCasts_S2x32x32768_S2x32x512x64)
        transposes_S2x32x512x64_S2x512x32x64_0_2_1_3 := by
  host_results <;> rfl

set_option maxHeartbeats 4000000 in
theorem e_v66 : (StableHlo.after (hostOps0 (F := Ideal)) (fun b => m (c, b)) (Proc.devRef .tc main_v66) : S1x64.Idx → EReal)
    = transpose (s := S64x1) S1x64 [1, 0] (m ((c : Thread nD τ).loc main_arg11)) transposes_S64x1_S1x64_1_0 := by
  host_results <;> rfl

-- The input feature's three taps of the layer-0 weights: at (mm, 0, o), row mm of the weights.
theorem hw_v3 (mm : Fin 3) (o : Fin 128) :
    (StableHlo.after (hostOps0 (F := Ideal)) (fun b => m (c, b)) (Proc.devRef .tc main_v3) : S3x1x128.Idx → EReal) (ix3 mm (0 : Fin 1) o)
      = (m ((c : Thread nD τ).loc main_arg3) : S195x128.Idx → EReal) (ix2 ⟨mm.val, by omega⟩ o) := by
  rw [e_v3]
  exact taps_apply _ _ _ 0 _ _ mm 0 o _ (by show mm.val = (0 + 0) * 3 + mm.val; omega)

theorem hw_v9 (mm : Fin 3) (o : Fin 64) :
    (StableHlo.after (hostOps0 (F := Ideal)) (fun b => m (c, b)) (Proc.devRef .tc main_v9) : S3x1x64.Idx → EReal) (ix3 mm (0 : Fin 1) o)
      = (m ((c : Thread nD τ).loc main_arg5) : S195x64.Idx → EReal) (ix2 ⟨mm.val, by omega⟩ o) := by
  rw [e_v9]
  exact taps_apply _ _ _ 0 _ _ mm 0 o _ (by show mm.val = (0 + 0) * 3 + mm.val; omega)

-- The state features' taps of the layer-0 weights, tap-major: row mm·64 + u is row (1 + u)·3 + mm.
theorem hw_v30 (k : Fin 192) (o : Fin 128) :
    (StableHlo.after (hostOps0 (F := Ideal)) (fun b => m (c, b)) (Proc.devRef .tc main_v30) : S192x128.Idx → EReal) (ix2 k o)
      = (m ((c : Thread nD τ).loc main_arg3) : S195x128.Idx → EReal) (ix2 ⟨(1 + k.val % 64) * 3 + k.val / 64, by omega⟩ o) := by
  rw [e_v30]
  exact (stack3_apply _ _ _ k o).trans (taps_apply _ _ _ 1 _ _ _ _ _ _ rfl)

theorem hw_v37 (k : Fin 192) (o : Fin 64) :
    (StableHlo.after (hostOps0 (F := Ideal)) (fun b => m (c, b)) (Proc.devRef .tc main_v37) : S192x64.Idx → EReal) (ix2 k o)
      = (m ((c : Thread nD τ).loc main_arg5) : S195x64.Idx → EReal) (ix2 ⟨(1 + k.val % 64) * 3 + k.val / 64, by omega⟩ o) := by
  rw [e_v37]
  exact (stack3_apply _ _ _ k o).trans (taps_apply _ _ _ 1 _ _ _ _ _ _ rfl)

-- The layer-1 weights, tap-major: the three taps of the state features, then of the input features.
theorem hw_v50 (k : Fin 384) (o : Fin 128) :
    (StableHlo.after (hostOps0 (F := Ideal)) (fun b => m (c, b)) (Proc.devRef .tc main_v50) : S384x128.Idx → EReal) (ix2 k o)
      = (m ((c : Thread nD τ).loc main_arg7) : S384x128.Idx → EReal) (ix2 ⟨if k.val < 192 then (64 + k.val % 64) * 3 + k.val / 64
          else ((k.val - 192) % 64) * 3 + (k.val - 192) / 64, by split <;> omega⟩ o) := by
  rw [e_v50]
  exact stack6_taps_apply _ _ _ _ _ _ _ _ k o

theorem hw_v63 (k : Fin 384) (o : Fin 64) :
    (StableHlo.after (hostOps0 (F := Ideal)) (fun b => m (c, b)) (Proc.devRef .tc main_v63) : S384x64.Idx → EReal) (ix2 k o)
      = (m ((c : Thread nD τ).loc main_arg9) : S384x64.Idx → EReal) (ix2 ⟨if k.val < 192 then (64 + k.val % 64) * 3 + k.val / 64
          else ((k.val - 192) % 64) * 3 + (k.val - 192) / 64, by split <;> omega⟩ o) := by
  rw [e_v63]
  exact stack6_taps_apply _ _ _ _ _ _ _ _ k o

-- The hidden state as (layer, node, batch, unit): at (l, n, b, u), entry (l, b, n·64 + u) of the argument.
theorem hw_v65 (l : Fin 2) (n : Fin 512) (b : Fin 32) (u : Fin 64) :
    (StableHlo.after (hostOps0 (F := Ideal)) (fun b => m (c, b)) (Proc.devRef .tc main_v65) : S2x512x32x64.Idx → EReal) (ix4 l n b u)
      = (m ((c : Thread nD τ).loc main_arg2) : S2x32x32768.Idx → EReal) (ix3 l b ⟨n.val * 64 + u.val, by omega⟩) := by
  rw [e_v65]
  exact (transpose_ix4_0213_apply _ _ l n b u).trans (shapeCast_split_last_apply _ _ (by decide) l b n u _ rfl)

-- The projection weights as a row.
theorem hw_v66 (u : Fin 64) :
    (StableHlo.after (hostOps0 (F := Ideal)) (fun b => m (c, b)) (Proc.devRef .tc main_v66) : S1x64.Idx → EReal) (ix2 (0 : Fin 1) u)
      = (m ((c : Thread nD τ).loc main_arg11) : S64x1.Idx → EReal) (ix2 u (0 : Fin 1)) := by
  rw [e_v66]
  exact transpose_ix2_apply _ _ (0 : Fin 1) u

end Cert.KernelIdeal.HostW

end
-- ==== Proof.KBlocks.lean ====
/-
  Grid point t's blocks, entry by entry, as entries of the argument arrays: the input and the states at batch
  rows 16 t + b, the adjacency and the biases whole, the weights with their rows in tap-major order.
-/
import proofs.«168098_g44504451121623_cont_8to1_c_180_35_alg».proof.Proof.KFrameI
import proofs.«168098_g44504451121623_cont_8to1_c_180_35_alg».proof.Proof.KHostI
import proofs.«168098_g44504451121623_cont_8to1_c_180_35_alg».proof.Proof.KDefs

noncomputable section

namespace Cert.KernelIdeal.KVal.Blocks

open Cert.KernelIdeal Cert.KernelIdeal.Gen Cert.KernelIdeal.GenH Cert.Spec
open Idealize.ShloMosaic Idealize.ShloMosaic.ValueIdx Idealize.ShloMosaic.TcCoe
open Idealize.SL Idealize.SL.Sem

variable (m : (ℓ : Loc nD τ sig) → Buf (Elt Ideal) ℓ)

theorem tlt (t : Fin cfg0.N) : t.val < 2 := Nat.lt_of_lt_of_eq t.isLt N_0

theorem off0 : ∀ t : Fin cfg0.N, win0_0.index t (0 : Fin 2) = t.val ∧ win0_0.index t (1 : Fin 2) = 0 :=
  (by decide +kernel : ∀ t : Fin grid0.N, _)

theorem off2 : ∀ t : Fin cfg0.N, win0_2.index t (0 : Fin 4) = 0 ∧ win0_2.index t (1 : Fin 4) = 0
    ∧ win0_2.index t (2 : Fin 4) = t.val ∧ win0_2.index t (3 : Fin 4) = 0 :=
  (by decide +kernel : ∀ t : Fin grid0.N, _)

/-- A parameter's block sits at the origin of its array at both grid points. -/
theorem off1 : ∀ (t : Fin cfg0.N) (a : Fin 2), win0_1.index t a = 0 :=
  (by decide +kernel : ∀ t : Fin grid0.N, _)
theorem off3 : ∀ (t : Fin cfg0.N) (a : Fin 3), win0_3.index t a = 0 :=
  (by decide +kernel : ∀ t : Fin grid0.N, _)
theorem off4 : ∀ (t : Fin cfg0.N) (a : Fin 2), win0_4.index t a = 0 :=
  (by decide +kernel : ∀ t : Fin grid0.N, _)
theorem off5 : ∀ (t : Fin cfg0.N) (a : Fin 3), win0_5.index t a = 0 :=
  (by decide +kernel : ∀ t : Fin grid0.N, _)
theorem off6 : ∀ (t : Fin cfg0.N) (a : Fin 2), win0_6.index t a = 0 :=
  (by decide +kernel : ∀ t : Fin grid0.N, _)
theorem off7 : ∀ (t : Fin cfg0.N) (a : Fin 1), win0_7.index t a = 0 :=
  (by decide +kernel : ∀ t : Fin grid0.N, _)
theorem off8 : ∀ (t : Fin cfg0.N) (a : Fin 1), win0_8.index t a = 0 :=
  (by decide +kernel : ∀ t : Fin grid0.N, _)
theorem off9 : ∀ (t : Fin cfg0.N) (a : Fin 2), win0_9.index t a = 0 :=
  (by decide +kernel : ∀ t : Fin grid0.N, _)
theorem off10 : ∀ (t : Fin cfg0.N) (a : Fin 2), win0_10.index t a = 0 :=
  (by decide +kernel : ∀ t : Fin grid0.N, _)
theorem off11 : ∀ (t : Fin cfg0.N) (a : Fin 1), win0_11.index t a = 0 :=
  (by decide +kernel : ∀ t : Fin grid0.N, _)
theorem off12 : ∀ (t : Fin cfg0.N) (a : Fin 1), win0_12.index t a = 0 :=
  (by decide +kernel : ∀ t : Fin grid0.N, _)
theorem off13 : ∀ (t : Fin cfg0.N) (a : Fin 2), win0_13.index t a = 0 :=
  (by decide +kernel : ∀ t : Fin grid0.N, _)
theorem off14 : ∀ (t : Fin cfg0.N) (a : Fin 1), win0_14.index t a = 0 :=
  (by decide +kernel : ∀ t : Fin grid0.N, _)

/-- The input block holds batch rows 16 t … 16 t + 15. -/
theorem e0 (c : Dev nD) (t : Fin cfg0.N) (b : Fin 16) (n : Fin 512) :
    (iblk m c 0 t : Vec Ideal S16x512 .f32) (ix2 b n)
      = (m ((c : Thread nD τ).loc main_arg0) : Arr2 32 512)
          (ix2 (⟨16 * t.val + b.val, by have := b.isLt; have := tlt t; omega⟩ : Fin 32) n) := by
  obtain ⟨h0, h1⟩ := off0 t
  rw [← V_arg m c main_arg0 (by decide)]
  show V m c main_arg0 (((cfg0.win 0).blk t).view.emb (ix2 b n)) = V m c main_arg0 _
  refine congrArg (V m c main_arg0) (funext fun a => Fin.ext ?_)
  match a with
  | ⟨0, _⟩ => show win0_0.index t (0 : Fin 2) * 16 + 1 * b.val = 16 * t.val + b.val; omega
  | ⟨1, _⟩ => show win0_0.index t (1 : Fin 2) * 512 + 1 * n.val = n.val; omega

theorem state_blk (c : Dev nD) (t : Fin cfg0.N) (l : Fin 2) (n : Fin 512) (b : Fin 16) (u : Fin 64) :
    (iblk m c 2 t : Vec Ideal S2x512x16x64 .f32) (ix4 l n b u)
      = (V m c main_v65 : S2x512x32x64.Idx → Elt Ideal .f32)
          (ix4 l n (⟨16 * t.val + b.val, by have := b.isLt; have := tlt t; omega⟩ : Fin 32) u) := by
  obtain ⟨h0, h1, h2, h3⟩ := off2 t
  show V m c main_v65 (((cfg0.win 2).blk t).view.emb (ix4 l n b u)) = V m c main_v65 _
  refine congrArg (V m c main_v65) (funext fun a => Fin.ext ?_)
  match a with
  | ⟨0, _⟩ => show win0_2.index t (0 : Fin 4) * 2 + 1 * l.val = l.val; omega
  | ⟨1, _⟩ => show win0_2.index t (1 : Fin 4) * 512 + 1 * n.val = n.val; omega
  | ⟨2, _⟩ => show win0_2.index t (2 : Fin 4) * 16 + 1 * b.val = 16 * t.val + b.val; omega
  | ⟨3, _⟩ => show win0_2.index t (3 : Fin 4) * 64 + 1 * u.val = u.val; omega

/-- The state block at (l, n, b, u) is the state array at (l, 16 t + b, n · 64 + u). -/
theorem e2 (c : Dev nD) (t : Fin cfg0.N) (l : Fin 2) (n : Fin 512) (b : Fin 16) (u : Fin 64) :
    (iblk m c 2 t : Vec Ideal S2x512x16x64 .f32) (ix4 l n b u)
      = (m ((c : Thread nD τ).loc main_arg2) : Arr3 2 32 32768)
          (ix3 l (⟨16 * t.val + b.val, by have := b.isLt; have := tlt t; omega⟩ : Fin 32)
            (⟨n.val * 64 + u.val, by have := n.isLt; have := u.isLt; omega⟩ : Fin 32768)) :=
  (state_blk m c t l n b u).trans (HostW.hw_v65 m c l n _ u)

/-- A block at the origin that is its whole array reads as the array does. -/
theorem e1 (c : Dev nD) (t : Fin cfg0.N) (n k : Fin 512) :
    (iblk m c 1 t : Vec Ideal S512x512 .f32) (ix2 n k) = (m ((c : Thread nD τ).loc main_arg1) : Arr2 512 512) (ix2 n k) :=
  (congrArg (V m c main_arg1) (funext fun a => Fin.ext (win0_1.rect_emb_val_of_index_zero t a (off1 t a) (ix2 n k)))).trans
    (congrFun (V_arg m c main_arg1 (by decide)) _)

theorem e3 (c : Dev nD) (t : Fin cfg0.N) (j : Fin 3) (o : Fin 128) :
    (iblk m c 3 t : Vec Ideal S3x1x128 .bf16) (ix3 j (0 : Fin 1) o)
      = (m ((c : Thread nD τ).loc main_arg3) : Arr2 195 128) (ix2 (Cert.Spec.rowx j) o) :=
  (congrArg (V m c main_v3) (funext fun a => Fin.ext (win0_3.rect_emb_val_of_index_zero t a (off3 t a) (ix3 j (0 : Fin 1) o)))).trans
    (HostW.hw_v3 m c j o)

theorem e4 (c : Dev nD) (t : Fin cfg0.N) (k : Fin 192) (o : Fin 128) :
    (iblk m c 4 t : Vec Ideal S192x128 .bf16) (ix2 k o)
      = (m ((c : Thread nD τ).loc main_arg3) : Arr2 195 128) (ix2 (Cert.Spec.row0 k) o) :=
  (congrArg (V m c main_v30) (funext fun a => Fin.ext (win0_4.rect_emb_val_of_index_zero t a (off4 t a) (ix2 k o)))).trans
    (HostW.hw_v30 m c k o)

theorem e5 (c : Dev nD) (t : Fin cfg0.N) (j : Fin 3) (u : Fin 64) :
    (iblk m c 5 t : Vec Ideal S3x1x64 .bf16) (ix3 j (0 : Fin 1) u)
      = (m ((c : Thread nD τ).loc main_arg5) : Arr2 195 64) (ix2 (Cert.Spec.rowx j) u) :=
  (congrArg (V m c main_v9) (funext fun a => Fin.ext (win0_5.rect_emb_val_of_index_zero t a (off5 t a) (ix3 j (0 : Fin 1) u)))).trans
    (HostW.hw_v9 m c j u)

theorem e6 (c : Dev nD) (t : Fin cfg0.N) (k : Fin 192) (u : Fin 64) :
    (iblk m c 6 t : Vec Ideal S192x64 .bf16) (ix2 k u)
      = (m ((c : Thread nD τ).loc main_arg5) : Arr2 195 64) (ix2 (Cert.Spec.row0 k) u) :=
  (congrArg (V m c main_v37) (funext fun a => Fin.ext (win0_6.rect_emb_val_of_index_zero t a (off6 t a) (ix2 k u)))).trans
    (HostW.hw_v37 m c k u)

theorem e7 (c : Dev nD) (t : Fin cfg0.N) (o : Fin 128) :
    (iblk m c 7 t : Vec Ideal S128 .f32) (ix1 o) = (m ((c : Thread nD τ).loc main_arg4) : Arr1 128) (ix1 o) :=
  (congrArg (V m c main_arg4) (funext fun a => Fin.ext (win0_7.rect_emb_val_of_index_zero t a (off7 t a) (ix1 o)))).trans
    (congrFun (V_arg m c main_arg4 (by decide)) _)

theorem e8 (c : Dev nD) (t : Fin cfg0.N) (u : Fin 64) :
    (iblk m c 8 t : Vec Ideal S64 .f32) (ix1 u) = (m ((c : Thread nD τ).loc main_arg6) : Arr1 64) (ix1 u) :=
  (congrArg (V m c main_arg6) (funext fun a => Fin.ext (win0_8.rect_emb_val_of_index_zero t a (off8 t a) (ix1 u)))).trans
    (congrFun (V_arg m c main_arg6 (by decide)) _)

theorem e9 (c : Dev nD) (t : Fin cfg0.N) (k : Fin 384) (o : Fin 128) :
    (iblk m c 9 t : Vec Ideal S384x128 .bf16) (ix2 k o)
      = (m ((c : Thread nD τ).loc main_arg7) : Arr2 384 128) (ix2 (Cert.Spec.row1 k) o) :=
  (congrArg (V m c main_v50) (funext fun a => Fin.ext (win0_9.rect_emb_val_of_index_zero t a (off9 t a) (ix2 k o)))).trans
    (HostW.hw_v50 m c k o)

theorem e10 (c : Dev nD) (t : Fin cfg0.N) (k : Fin 384) (u : Fin 64) :
    (iblk m c 10 t : Vec Ideal S384x64 .bf16) (ix2 k u)
      = (m ((c : Thread nD τ).loc main_arg9) : Arr2 384 64) (ix2 (Cert.Spec.row1 k) u) :=
  (congrArg (V m c main_v63) (funext fun a => Fin.ext (win0_10.rect_emb_val_of_index_zero t a (off10 t a) (ix2 k u)))).trans
    (HostW.hw_v63 m c k u)

theorem e11 (c : Dev nD) (t : Fin cfg0.N) (o : Fin 128) :
    (iblk m c 11 t : Vec Ideal S128 .f32) (ix1 o) = (m ((c : Thread nD τ).loc main_arg8) : Arr1 128) (ix1 o) :=
  (congrArg (V m c main_arg8) (funext fun a => Fin.ext (win0_11.rect_emb_val_of_index_zero t a (off11 t a) (ix1 o)))).trans
    (congrFun (V_arg m c main_arg8 (by decide)) _)

theorem e12 (c : Dev nD) (t : Fin cfg0.N) (u : Fin 64) :
    (iblk m c 12 t : Vec Ideal S64 .f32) (ix1 u) = (m ((c : Thread nD τ).loc main_arg10) : Arr1 64) (ix1 u) :=
  (congrArg (V m c main_arg10) (funext fun a => Fin.ext (win0_12.rect_emb_val_of_index_zero t a (off12 t a) (ix1 u)))).trans
    (congrFun (V_arg m c main_arg10 (by decide)) _)

theorem e13 (c : Dev nD) (t : Fin cfg0.N) (u : Fin 64) :
    (iblk m c 13 t : Vec Ideal S1x64 .f32) (ix2 (0 : Fin 1) u)
      = (m ((c : Thread nD τ).loc main_arg11) : Arr2 64 1) (ix2 u (0 : Fin 1)) :=
  (congrArg (V m c main_v66) (funext fun a => Fin.ext (win0_13.rect_emb_val_of_index_zero t a (off13 t a) (ix2 (0 : Fin 1) u)))).trans
    (HostW.hw_v66 m c u)

theorem e14 (c : Dev nD) (t : Fin cfg0.N) :
    (iblk m c 14 t : Vec Ideal S1 .f32) (ix1 (0 : Fin 1)) = (m ((c : Thread nD τ).loc main_arg12) : Arr1 1) (ix1 (0 : Fin 1)) :=
  (congrArg (V m c main_arg12) (funext fun a => Fin.ext (win0_14.rect_emb_val_of_index_zero t a (off14 t a) (ix1 (0 : Fin 1))))).trans
    (congrFun (V_arg m c main_arg12 (by decide)) _)

end Cert.KernelIdeal.KVal.Blocks

end
-- ==== Proof.KGate0.lean ====
/-
  Layer 0's gates as the fused body computes them from its blocks: the input column's three taps, the state's
  three taps contracted with the stacked weights, the bias, the input's outer-product terms and the logistic.
  Entry (n, b, o) is the specification's gate at chunk element b.
-/
import proofs.«168098_g44504451121623_cont_8to1_c_180_35_alg».proof.Proof.KDiffuse

noncomputable section

namespace Cert.KernelIdeal.KVal

open Cert.KernelIdeal Cert.KernelIdeal.Gen Cert.KernelIdeal.GenH Cert.Spec Idealize.ShloMosaic Idealize.ShloMosaic.ValueIdx
open Cert.KernelIdeal.KVal.Dif
open scoped BigOperators

namespace G0

-- The adjacency applied to the 16 input columns at once.
theorem matX_apply (a : FVec Ideal S512x512 .bf16) (z : FVec Ideal S512x16 .bf16) (n : Fin 512) (b : Fin 16) :
    matmul dot_S512x512_S512x16_S512x16_1_0_0_1_n_n none a z (constant (F := Ideal) S512x16 .f32 0x00000000#32) (ix2 n b)
      = ∑ k : Fin 512, a (ix2 n k) * z (ix2 k b) := mat_apply a z n b

theorem pay6_apply (v7 : Vec Ideal S16x512 .f32) (n : Fin 512) (b : Fin 16) : k0_pay6 v7 (ix2 n b) = v7 (ix2 b n) := by
  unfold k0_pay6
  exact transpose_apply _ _ _ _ (ix2 b n) (fun a => by
    match a with
    | ⟨0, _⟩ => rfl
    | ⟨1, _⟩ => rfl)

theorem addUnit_apply (v : FVec Ideal S512x16 .f32) (n : Fin 512) (b : Fin 16) (e : Fin 1) :
    shapeCast S512x16x1 v shapeCasts_S512x16_S512x16x1 (ix3 n b e) = v (ix2 n b) := by
  refine shapeCast_apply v _ _ _ ?_
  rw [Shape.rowMajor_val_three, Shape.rowMajor_val_two]
  show n.val * 16 + b.val = (n.val * 16 + b.val) * 1 + e.val
  have := e.isLt
  omega

theorem pay9_apply (v7 : Vec Ideal S16x512 .f32) (n : Fin 512) (b : Fin 16) :
    k0_pay9 v7 (ix3 n b (0 : Fin 1)) = v7 (ix2 b n) :=
  (addUnit_apply (k0_pay6 v7) n b 0).trans (pay6_apply v7 n b)

theorem pay8_apply (v0 : Vec Ideal S512x512 .f32) (v7 : Vec Ideal S16x512 .f32) (n : Fin 512) (b : Fin 16) :
    k0_pay8 v0 v7 (ix2 n b) = ∑ k : Fin 512, v0 (ix2 n k) * v7 (ix2 b k) := by
  refine (matX_apply (k0_pay3 v0) (k0_pay7 v7) n b).trans (Finset.sum_congr rfl fun k _ => ?_)
  show v0 (ix2 n k) * k0_pay6 v7 (ix2 k b) = _
  rw [pay6_apply]

theorem pay10_apply (v0 : Vec Ideal S512x512 .f32) (v7 : Vec Ideal S16x512 .f32) (n : Fin 512) (b : Fin 16) :
    k0_pay10 v0 v7 (ix3 n b (0 : Fin 1)) = ∑ k : Fin 512, v0 (ix2 n k) * v7 (ix2 b k) :=
  (addUnit_apply (k0_pay8 v0 v7) n b 0).trans (pay8_apply v0 v7 n b)

theorem pay4_apply (v0 : Vec Ideal S512x512 .f32) (i : S512x512.Idx) : k0_pay4 v0 i = v0 i * c2 := rfl

theorem pay11_apply (v0 : Vec Ideal S512x512 .f32) (v7 : Vec Ideal S16x512 .f32) (n : Fin 512) (b : Fin 16) :
    k0_pay11 v0 v7 (ix3 n b (0 : Fin 1))
      = (∑ k : Fin 512, (v0 (ix2 n k) * c2) * (∑ k' : Fin 512, v0 (ix2 k k') * v7 (ix2 b k'))) - v7 (ix2 b n) := by
  unfold k0_pay11
  refine (addUnit_apply _ n b 0).trans ?_
  rw [extf_apply, subf_apply, truncf_apply, matX_apply]
  congr 1
  · refine Finset.sum_congr rfl fun k _ => ?_
    rw [pay4_apply, truncf_apply, pay8_apply]
  · show k0_pay6 v7 (ix2 n b) = _
    rw [pay6_apply]

theorem ld_rA1 (x0 : Vec Ideal S16x512 .f32) : View.ld x0 rA1 = x0 := View.ld_unit_zero (S := S16x512) z2 _ x0
theorem ld_rA2 (x1 : Vec Ideal S512x512 .f32) : View.ld x1 rA2 = x1 := View.ld_unit_zero (S := S512x512) z2 _ x1
theorem ld_rA4 (x3 : Vec Ideal S3x1x128 .bf16) : View.ld x3 rA4 = x3 := View.ld_unit_zero (S := S3x1x128) z3 _ x3
theorem ld_rA5 (x4 : Vec Ideal S192x128 .bf16) : View.ld x4 rA5 = x4 := View.ld_unit_zero (S := S192x128) z2 _ x4
theorem ld_rA8 (x7 : Vec Ideal S128 .f32) : View.ld x7 rA8 = x7 := View.ld_unit_zero (S := S128) z1 _ x7

theorem pay14_apply (v16 v18 v20 : FVec Ideal S512x16x1 .f32) (v23 : FVec Ideal S3x1x128 .bf16) (v26 : Vec Ideal S128 .f32)
    (v38 : FVec Ideal S512x16x128 .f32) (n : Fin 512) (b : Fin 16) (o : Fin 128) :
    k0_pay14 v16 v18 v20 v23 v26 v38 (ix3 n b o)
      = Ideal.logistic ((((v38 (ix3 n b o) + v26 (ix1 o))
          + v16 (ix3 n b (0 : Fin 1)) * v23 (ix3 (0 : Fin 3) (0 : Fin 1) o))
          + v18 (ix3 n b (0 : Fin 1)) * v23 (ix3 (1 : Fin 3) (0 : Fin 1) o))
          + v20 (ix3 n b (0 : Fin 1)) * v23 (ix3 (2 : Fin 3) (0 : Fin 1) o)) := by
  have w0 := wrow_apply v23 ![0, 0, 0] slices_S3x1x128_o0_0_0_S1x1x128 0 rfl rfl rfl
    shapeCasts_S1x1x128_S128 shapeCasts_S128_S1x1x128 broadcasts_S1x1x128_S512x16x128 bitsLt_bf16_f32 n b o
  have w1 := wrow_apply v23 ![1, 0, 0] slices_S3x1x128_o1_0_0_S1x1x128 1 rfl rfl rfl
    shapeCasts_S1x1x128_S128 shapeCasts_S128_S1x1x128 broadcasts_S1x1x128_S512x16x128 bitsLt_bf16_f32 n b o
  have w2 := wrow_apply v23 ![2, 0, 0] slices_S3x1x128_o2_0_0_S1x1x128 2 rfl rfl rfl
    shapeCasts_S1x1x128_S128 shapeCasts_S128_S1x1x128 broadcasts_S1x1x128_S512x16x128 bitsLt_bf16_f32 n b o
  have t0 := col_apply v16 broadcasts_S512x16x1_S512x16x128 n b o
  have t1 := col_apply v18 broadcasts_S512x16x1_S512x16x128 n b o
  have t2 := col_apply v20 broadcasts_S512x16x1_S512x16x128 n b o
  have bb := bias_apply v26 shapeCasts_S128_S1x1x128 broadcasts_S1x1x128_S512x16x128 n b o
  rw [← w0, ← w1, ← w2, ← t0, ← t1, ← t2, ← bb]
  rfl

end G0

section
variable (X : Ins Ideal)

-- The input column and its two taps, in the specification's tap notation.
theorem kv16_tap (n : Fin 512) (b : Fin 16) :
    kv16 X (ix3 n b (0 : Fin 1)) = tapK (Q X).A 0 (xk X.x0 b) n := by
  unfold kv16
  rw [G0.ld_rA1]
  exact G0.pay9_apply X.x0 n b
theorem kv18_tap (n : Fin 512) (b : Fin 16) :
    kv18 X (ix3 n b (0 : Fin 1)) = tapK (Q X).A 1 (xk X.x0 b) n := by
  unfold kv18
  rw [G0.ld_rA1, G0.ld_rA2]
  exact G0.pay10_apply X.x1 X.x0 n b
theorem kv20_tap (n : Fin 512) (b : Fin 16) :
    kv20 X (ix3 n b (0 : Fin 1)) = tapK (Q X).A 2 (xk X.x0 b) n := by
  unfold kv20
  rw [G0.ld_rA1, G0.ld_rA2]
  exact G0.pay11_apply X.x1 X.x0 n b

theorem kv23_apply (m : Fin 3) (o : Fin 128) :
    kv23 X (ix3 m (0 : Fin 1) o) = (Q X).wxg0 m o := by
  unfold kv23 k0_pay12
  rw [G0.ld_rA4]
  exact congrFun (shapeCast_self X.x3 _) _

theorem kv26_apply (o : Fin 128) : kv26 X (ix1 o) = (Q X).bg0 o := by
  unfold kv26
  rw [G0.ld_rA8]
  rfl

-- The gate's state part: row n·16 + b of the state's three taps against the stacked weights.
theorem kv38_apply (n : Fin 512) (b : Fin 16) (o : Fin 128) :
    kv38 X (ix3 n b o)
      = ∑ k : Fin 192, tapK (Q X).A (k.val / 64) (col (hk X.x2 0 b) (k.val % 64) (Nat.mod_lt _ (by norm_num))) n
          * (Q X).whg0 k o := by
  refine (ofRows_apply _ _ n b o).trans ((mat_apply _ _ (rowIx n b) o).trans
    (Finset.sum_congr rfl fun k _ => congrArg₂ (· * ·)
      (rows3_field (Q X).A _ _ (kv1_apply X) (kv4_apply X) _ b _ (fun n u => kv6_apply X n b u) n k) ?_))
  exact (congrFun (shapeCast_self _ _) _).trans (congrFun (G0.ld_rA5 X.x4) _)

-- Layer 0's gates are the specification's gates of chunk element b.
theorem kp_gate0 (n : Fin 512) (b : Fin 16) (o : Fin 128) :
    k0_pay14 (kv16 X) (kv18 X) (kv20 X) (kv23 X) (kv26 X) (kv38 X) (ix3 n b o)
      = gateOf (pg0K (Q X) (xk X.x0 b)) (hk X.x2 0 b) n o := by
  rw [G0.pay14_apply, kv16_tap, kv18_tap, kv20_tap, kv23_apply, kv23_apply, kv23_apply, kv26_apply, kv38_apply]
  rfl

end

end Cert.KernelIdeal.KVal

end
-- ==== Proof.KH0.lean ====
/-
  Layer 0's new state of the fused cell at (node n, chunk element b, unit u) is the specification's cell at chunk
  element b: the update gate is the gate's units 64..127, the candidate contracts the three taps of the reset
  state with the stacked weights and adds the bias and the input's three taps times their weights, and the new
  state is g·h + (1 − g)·tanh(candidate).
-/
import proofs.«168098_g44504451121623_cont_8to1_c_180_35_alg».proof.Proof.KDiffuse

noncomputable section

namespace Cert.KernelIdeal.KVal.H0

open Cert.KernelIdeal Cert.KernelIdeal.Gen Cert.KernelIdeal.GenH Cert.Spec Idealize.ShloMosaic Idealize.ShloMosaic.ValueIdx
open Cert.KernelIdeal.KVal.Dif
open scoped BigOperators

theorem pay16_eq (v71 : Vec Ideal S3x1x64 .bf16) : k0_pay16 v71 = v71 := by
  unfold k0_pay16
  exact shapeCast_self _ _

-- The new state: g·h + (1 − g)·tanh of the contraction plus the bias plus the input's three taps times their weights.
theorem pay19_apply (v6 : FVec Ideal S512x16x64 .f32) (v16 v18 v20 : FVec Ideal S512x16x1 .f32) (v68 : FVec Ideal S512x16x64 .f32)
    (v72 : FVec Ideal S3x1x64 .bf16) (v87 v89 : FVec Ideal S512x16x64 .f32) (n : Fin 512) (b : Fin 16) (u : Fin 64) :
    k0_pay19 v6 v16 v18 v20 v68 v72 v87 v89 (ix3 n b u)
      = v68 (ix3 n b u) * v6 (ix3 n b u)
        + (Ideal.ofBits .f32 0x3F800000#32 - v68 (ix3 n b u))
          * Ideal.tanh ((((v87 (ix3 n b u) + v89 (ix3 n b u))
              + v16 (ix3 n b (0 : Fin 1)) * v72 (ix3 (0 : Fin 3) (0 : Fin 1) u))
              + v18 (ix3 n b (0 : Fin 1)) * v72 (ix3 (1 : Fin 3) (0 : Fin 1) u))
              + v20 (ix3 n b (0 : Fin 1)) * v72 (ix3 (2 : Fin 3) (0 : Fin 1) u)) := by
  have w0 := wrow_apply v72 ![0, 0, 0] slices_S3x1x64_o0_0_0_S1x1x64 0 rfl rfl rfl
    shapeCasts_S1x1x64_S64 shapeCasts_S64_S1x1x64 broadcasts_S1x1x64_S512x16x64 bitsLt_bf16_f32 n b u
  have w1 := wrow_apply v72 ![1, 0, 0] slices_S3x1x64_o1_0_0_S1x1x64 1 rfl rfl rfl
    shapeCasts_S1x1x64_S64 shapeCasts_S64_S1x1x64 broadcasts_S1x1x64_S512x16x64 bitsLt_bf16_f32 n b u
  have w2 := wrow_apply v72 ![2, 0, 0] slices_S3x1x64_o2_0_0_S1x1x64 2 rfl rfl rfl
    shapeCasts_S1x1x64_S64 shapeCasts_S64_S1x1x64 broadcasts_S1x1x64_S512x16x64 bitsLt_bf16_f32 n b u
  have t0 := col_apply v16 broadcasts_S512x16x1_S512x16x64 n b u
  have t1 := col_apply v18 broadcasts_S512x16x1_S512x16x64 n b u
  have t2 := col_apply v20 broadcasts_S512x16x1_S512x16x64 n b u
  rw [← w0, ← w1, ← w2, ← t0, ← t1, ← t2]
  rfl

section blocks
variable (X : Ins Ideal)

-- The update gate is the gate's units 64..127.
theorem kv68_apply (n : Fin 512) (b : Fin 16) (u : Fin 64) :
    kv68 X (ix3 n b u)
      = k0_pay14 (kv16 X) (kv18 X)
          (kv20 X) (kv23 X)
          (kv26 X) (kv38 X)
          (ix3 n b (⟨64 + u.val, by have := u.isLt; omega⟩ : Fin 128)) := by
  unfold kv68 k0_pay15
  exact gateHi_apply _ n b u

theorem kv72_eq : kv72 X = X.x5 := by
  unfold kv72
  rw [pay16_eq]
  exact View.ld_unit_zero (S := S3x1x64) z3 _ X.x5

theorem kv89_apply (n : Fin 512) (b : Fin 16) (u : Fin 64) :
    kv89 X (ix3 n b u) = X.x8 (ix1 u) := by
  unfold kv89 k0_pay18
  exact (bias_apply _ _ _ n b u).trans (congrFun (View.ld_unit_zero (S := S64) z1 _ X.x8) (ix1 u))

-- The candidate's contraction: row n·16 + b of the reset state's three taps against the stacked weights.
theorem kv87_apply
    (hg : ∀ (n : Fin 512) (b : Fin 16) (o : Fin 128), k0_pay14 (kv16 X) (kv18 X) (kv20 X) (kv23 X) (kv26 X) (kv38 X) (ix3 n b o)
      = gateOf (pg0K (Q X) (xk X.x0 b)) (hk X.x2 0 b) n o)
    (n : Fin 512) (b : Fin 16) (u : Fin 64) :
    kv87 X (ix3 n b u)
      = ∑ k : Fin 192, tapK (Q X).A (k.val / 64)
          (col (rhOf (pg0K (Q X) (xk X.x0 b)) (hk X.x2 0 b)) (k.val % 64) (Nat.mod_lt _ (by norm_num))) n * (Q X).whc0 k u := by
  refine (ofRows_apply _ _ n b u).trans ((mat_apply _ _ (rowIx n b) u).trans
    (Finset.sum_congr rfl fun k _ => congrArg₂ (· * ·)
      (rows3_field (Q X).A _ _ (kv1_apply X) (kv4_apply X) _ b _ (fun n' u' => ?_) n k) ?_))
  · refine (rh_apply _ _ n' b u').trans ?_
    rw [hg, kv6_apply]
    rfl
  · exact (congrFun (shapeCast_self _ _) _).trans (congrFun (View.ld_unit_zero (S := S192x64) z2 _ X.x6) _)

end blocks

end Cert.KernelIdeal.KVal.H0

namespace Cert.KernelIdeal.KVal

open Cert.KernelIdeal Cert.KernelIdeal.Gen Cert.KernelIdeal.GenH Cert.Spec Idealize.ShloMosaic Idealize.ShloMosaic.ValueIdx
open scoped BigOperators
open H0

-- Layer 0's new state is the specification's cell at chunk element b, given the gates and the input's three taps.
theorem kp_h0 (X : Ins Ideal)
    (hg : ∀ (n : Fin 512) (b : Fin 16) (o : Fin 128),
      k0_pay14 (kv16 X) (kv18 X)
          (kv20 X) (kv23 X)
          (kv26 X) (kv38 X) (ix3 n b o)
        = gateOf (pg0K (Q X) (xk X.x0 b)) (hk X.x2 0 b) n o)
    (hx0 : ∀ (n : Fin 512) (b : Fin 16), kv16 X (ix3 n b (0 : Fin 1))
        = tapK (Q X).A 0 (xk X.x0 b) n)
    (hx1 : ∀ (n : Fin 512) (b : Fin 16), kv18 X (ix3 n b (0 : Fin 1))
        = tapK (Q X).A 1 (xk X.x0 b) n)
    (hx2 : ∀ (n : Fin 512) (b : Fin 16), kv20 X (ix3 n b (0 : Fin 1))
        = tapK (Q X).A 2 (xk X.x0 b) n)
    (n : Fin 512) (b : Fin 16) (u : Fin 64) :
    h0new X (ix3 n b u)
      = h0nK (Q X) (xk X.x0 b) (hk X.x2 0 b) n u := by
  unfold h0new
  rw [pay19_apply, kv68_apply, kv72_eq, kv87_apply X hg, kv89_apply, hx0, hx1, hx2, hg, kv6_apply]
  rfl

end Cert.KernelIdeal.KVal

end
-- ==== Proof.KGate1Def.lean ====
/-
  Layer 1 of the fused cell, cut at its gates. The gates: the logistic of the rows of six tap blocks (the layer's
  state and its two taps, then the layer's input and its two taps) contracted with the stacked gate weights, plus
  the bias. The rest of the layer from given gates: the reset state, its taps in place of the state's, the
  candidate's contraction plus bias, tanh, and the convex combination with the update gate.
-/
import proofs.«168098_g44504451121623_cont_8to1_c_180_35_alg».proof.Proof.KDiffuse

noncomputable section

namespace Cert.KernelIdeal.KVal

open Cert.KernelIdeal Cert.KernelIdeal.Gen Cert.KernelIdeal.GenH Cert.Spec Idealize.ShloMosaic Idealize.ShloMosaic.ValueIdx
open Cert.KernelIdeal.KVal.Dif
open scoped BigOperators

def gate1 (X : Ins Ideal) : FVec Ideal S512x16x128 .f32 :=
  logistic (addf
    (shapeCast S512x16x128 (matmul dot_S8192x384_S384x128_S8192x128_1_0_0_1_n_n none
      (rows6 (kv1 X) (kv4 X) (kv132 X) (kv123 X)) (kv134 X) (constant S8192x128 .f32 0x00000000#32)) shapeCasts_S8192x128_S512x16x128)
    (broadcastTo S512x16x128 (shapeCast S1x1x128 (kv135 X) shapeCasts_S128_S1x1x128) broadcasts_S1x1x128_S512x16x128))

def cand1 (X : Ins Ideal) (g : FVec Ideal S512x16x128 .f32) : FVec Ideal S512x16x64 .f32 :=
  have z : FVec Ideal S512x16x64 .f32 := extractStridedSlice S512x16x64 ![0, 0, 64] g slices_S512x16x128_o0_0_64_S512x16x64
  have rh : FVec Ideal S512x16x64 .bf16 :=
    truncf .bf16 (mulf (extractStridedSlice S512x16x64 ![0, 0, 0] g slices_S512x16x128_o0_0_0_S512x16x64) (kv122 X)) bitsLt_bf16_f32
  have w : FVec Ideal S384x64 .bf16 := shapeCast S384x64 (View.ld X.x10 rA11) shapeCasts_S384x64_S384x64
  have one : Ideal .f32 := Scalar.ofBits .f32 0x3F800000#32
  addf (mulf z (kv122 X)) (mulf (subf (broadcast S512x16x64 one) z)
    (tanh (addf
      (shapeCast S512x16x64 (matmul dot_S8192x384_S384x64_S8192x64_1_0_0_1_n_n none (rows6 (kv1 X) (kv4 X) rh (kv123 X)) w
        (constant S8192x64 .f32 0x00000000#32)) shapeCasts_S8192x64_S512x16x64)
      (broadcastTo S512x16x64 (shapeCast S1x1x64 (View.ld X.x12 rA13) shapeCasts_S64_S1x1x64) broadcasts_S1x1x64_S512x16x64))))

-- The body's layer-1 state is the rest of the layer at its own gates.
theorem h1new_eq (X : Ins Ideal) : h1new X = cand1 X (gate1 X) := rfl

end Cert.KernelIdeal.KVal

end
-- ==== Proof.KGate1.lean ====
/-
  Layer 1's gates at an index: per (node, chunk element) row, the three taps of the layer's state followed by the
  three taps of the layer's input (layer 0's new state) are contracted with the stacked gate weights, and the
  bias is added.
-/
import proofs.«168098_g44504451121623_cont_8to1_c_180_35_alg».proof.Proof.KGate1Def

noncomputable section

namespace Cert.KernelIdeal.KVal

open Cert.KernelIdeal Cert.KernelIdeal.Gen Cert.KernelIdeal.GenH Cert.Spec Idealize.ShloMosaic Idealize.ShloMosaic.ValueIdx
open Cert.KernelIdeal.KVal.Dif
open scoped BigOperators

theorem kv134_apply (X : Ins Ideal) (k : Fin 384) (o : Fin 128) : kv134 X (ix2 k o) = (Q X).wg1 k o :=
  (congrFun (shapeCast_self (View.ld X.x9 rA10 : Vec Ideal S384x128 .bf16) shapeCasts_S384x128_S384x128) (ix2 k o)).trans
    (congrFun (View.ld_unit_zero (S := S384x128) z2 _ X.x9) (ix2 k o))

-- Layer 1's gates, given layer 0's new state, are the specification's gates of chunk element b.
theorem kp_gate1 (X : Ins Ideal)
    (h0 : ∀ (n : Fin 512) (b : Fin 16) (u : Fin 64), h0new X (ix3 n b u) = h0nK (Q X) (xk X.x0 b) (hk X.x2 0 b) n u)
    (n : Fin 512) (b : Fin 16) (o : Fin 128) :
    gate1 X (ix3 n b o) = gateOf (pg1K (Q X) (h0nK (Q X) (xk X.x0 b) (hk X.x2 0 b))) (hk X.x2 1 b) n o := by
  unfold gate1
  refine congrArg Ideal.logistic (congrArg₂ (fun x y : R => x + y) ?_ ?_)
  · exact (ofRows_apply _ _ n b o).trans ((mat_apply _ _ (rowIx n b) o).trans (Finset.sum_congr rfl fun k _ =>
      congrArg₂ (· * ·) (rows6_field (Q X).A _ _ (kv1_apply X) (kv4_apply X) _ b _ (fun n u => kv122_apply X n b u) _ _
        (fun n u => h0 n b u) n k) (kv134_apply X k o)))
  · exact (bias_apply (kv135 X) _ _ n b o).trans (congrFun (View.ld_unit_zero (S := S128) z1 _ X.x11) (ix1 o))

end Cert.KernelIdeal.KVal

end
-- ==== Proof.KH1.lean ====
/-
  Layer 1's new state from its gates at (node n, chunk element b, unit u): the reset gate times the state, the row
  of that field's three taps then the input's three, its contraction with the stacked candidate weights plus the
  bias, tanh, and u·h + (1 − u)·c with the update gate u.
-/
import proofs.«168098_g44504451121623_cont_8to1_c_180_35_alg».proof.Proof.KGate1Def

noncomputable section

namespace Cert.KernelIdeal.KVal

open Cert.KernelIdeal Cert.KernelIdeal.Gen Cert.KernelIdeal.GenH Cert.Spec Idealize.ShloMosaic Idealize.ShloMosaic.ValueIdx
open Cert.KernelIdeal.KVal.Dif
open scoped BigOperators

-- Layer 1's new state from the specification's gates, its input layer 0's new state, is the specification's cell.
theorem kp_h1 (X : Ins Ideal)
    (h0 : ∀ (n : Fin 512) (b : Fin 16) (u : Fin 64), h0new X (ix3 n b u) = h0nK (Q X) (xk X.x0 b) (hk X.x2 0 b) n u)
    (hg1 : ∀ (n : Fin 512) (b : Fin 16) (o : Fin 128), gate1 X (ix3 n b o)
      = gateOf (pg1K (Q X) (h0nK (Q X) (xk X.x0 b) (hk X.x2 0 b))) (hk X.x2 1 b) n o)
    (n : Fin 512) (b : Fin 16) (u : Fin 64) :
    cand1 X (gate1 X) (ix3 n b u) = h1nK (Q X) (xk X.x0 b) (hk X.x2 0 b) (hk X.x2 1 b) n u := by
  show extractStridedSlice S512x16x64 ![0, 0, 64] (gate1 X) slices_S512x16x128_o0_0_64_S512x16x64 (ix3 n b u) * kv122 X (ix3 n b u)
      + (c1 - extractStridedSlice S512x16x64 ![0, 0, 64] (gate1 X) slices_S512x16x128_o0_0_64_S512x16x64 (ix3 n b u))
        * Ideal.tanh (_ + _) = _
  rw [gateHi_apply, hg1, kv122_apply]
  refine congrArg (fun t => _ + _ * Ideal.tanh t) (congrArg₂ (fun x y : R => x + y) ?_ ?_)
  · refine (ofRows_apply _ _ n b u).trans ((mat_apply _ _ (rowIx n b) u).trans (Finset.sum_congr rfl fun k _ =>
      congrArg₂ (· * ·) (rows6_field (Q X).A _ _ (kv1_apply X) (kv4_apply X) _ b _ (fun n' u' => ?_) _ _
        (fun n' u' => h0 n' b u') n k) ?_))
    · refine (rh_apply _ _ n' b u').trans ?_
      rw [hg1, kv122_apply]
      rfl
    · exact (congrFun (shapeCast_self _ _) _).trans (congrFun (View.ld_unit_zero (S := S384x64) z2 _ X.x10) _)
  · exact (bias_apply _ _ _ n b u).trans (congrFun (View.ld_unit_zero (S := S64) z1 _ X.x12) (ix1 u))

end Cert.KernelIdeal.KVal

end
-- ==== Proof.KFinal.lean ====
/-
  Both layers' new states of the fused cell equal the specification's cells at every (node, chunk element, unit):
  layer 0 from its gates and the input's taps, layer 1 from its gates with layer 0's new state as its input.
-/
import proofs.«168098_g44504451121623_cont_8to1_c_180_35_alg».proof.Proof.KGate0
import proofs.«168098_g44504451121623_cont_8to1_c_180_35_alg».proof.Proof.KH0
import proofs.«168098_g44504451121623_cont_8to1_c_180_35_alg».proof.Proof.KGate1
import proofs.«168098_g44504451121623_cont_8to1_c_180_35_alg».proof.Proof.KH1

noncomputable section

namespace Cert.KernelIdeal.KVal

open Cert.KernelIdeal Cert.KernelIdeal.Gen Cert.KernelIdeal.GenH Cert.Spec Idealize.ShloMosaic Idealize.ShloMosaic.ValueIdx

theorem kp_h0_all (X : Ins Ideal) :
    ∀ (n : Fin 512) (b : Fin 16) (u : Fin 64), h0new X (ix3 n b u) = h0nK (Q X) (xk X.x0 b) (hk X.x2 0 b) n u :=
  kp_h0 X (kp_gate0 X) (kv16_tap X) (kv18_tap X) (kv20_tap X)

theorem kp_h1_all (X : Ins Ideal) :
    ∀ (n : Fin 512) (b : Fin 16) (u : Fin 64), h1new X (ix3 n b u) = h1nK (Q X) (xk X.x0 b) (hk X.x2 0 b) (hk X.x2 1 b) n u :=
  fun n b u => (congrFun (h1new_eq X) _).trans (kp_h1 X (kp_h0_all X) (kp_gate1 X (kp_h0_all X)) n b u)

end Cert.KernelIdeal.KVal

end
-- ==== Proof.KRunI.lean ====
/-
  What grid point t writes is rows 16 t … 16 t + 15 of the specification's result arrays, and the two points'
  blocks cover the arrays: the run ends with both result arrays at the specification's, the arguments as launched.
-/
import proofs.«168098_g44504451121623_cont_8to1_c_180_35_alg».proof.Proof.KOut
import proofs.«168098_g44504451121623_cont_8to1_c_180_35_alg».proof.Proof.SpecAlg
import proofs.«168098_g44504451121623_cont_8to1_c_180_35_alg».proof.Proof.KFrameI
import proofs.«168098_g44504451121623_cont_8to1_c_180_35_alg».proof.Proof.KBlocks
import proofs.«168098_g44504451121623_cont_8to1_c_180_35_alg».proof.Proof.KFinal

noncomputable section

namespace Cert.KernelIdeal.KVal

open Cert.KernelIdeal Cert.KernelIdeal.Gen Cert.KernelIdeal.GenH Cert.Spec Idealize.ShloMosaic Idealize.ShloMosaic.ValueIdx
open scoped BigOperators

namespace Run

/-- Batch row 16 T + b. -/
abbrev rowOf (T : ℕ) (hT : T < 2) (b : Fin 16) : Fin 32 := ⟨16 * T + b.val, by have := b.isLt; omega⟩

section arrays

variable (a0 : Arr2 32 512) (a1 : Arr2 512 512) (a2 : Arr3 2 32 32768) (a3 : Arr2 195 128) (a4 : Arr1 128)
  (a5 : Arr2 195 64) (a6 : Arr1 64) (a7 : Arr2 384 128) (a8 : Arr1 128) (a9 : Arr2 384 64) (a10 : Arr1 64)
  (a11 : Arr2 64 1) (a12 : Arr1 1)

theorem outArr_apply (B : Fin 32) (n : Fin 512) :
    outArr a0 a1 a2 a3 a4 a5 a6 a7 a8 a9 a10 a11 a12 (ix2 B n)
      = outR (Params.ofArrays a1 a3 a4 a5 a6 a7 a8 a9 a10 a11 a12) (xOf a0 B) (hOf a2 0 B) (hOf a2 1 B) n := rfl

theorem hsArr_apply0 (B : Fin 32) (n : Fin 512) (u : Fin 64) :
    hsArr a0 a1 a2 a3 a4 a5 a6 a7 a8 a9 a10 a11 a12 (ix3 (0 : Fin 2) B (Out.colOf n u))
      = h0nR (Params.ofArrays a1 a3 a4 a5 a6 a7 a8 a9 a10 a11 a12) (xOf a0 B) (hOf a2 0 B) n u := by
  unfold hsArr
  rw [if_pos (show ((ix3 (0 : Fin 2) B (Out.colOf n u)) 0).val = 0 from rfl)]
  have hn : (⟨(n.val * 64 + u.val) / 64, by have := n.isLt; have := u.isLt; omega⟩ : Fin 512) = n :=
    Fin.ext (by show (n.val * 64 + u.val) / 64 = n.val; have := u.isLt; omega)
  have hu : (⟨(n.val * 64 + u.val) % 64, Nat.mod_lt _ (by norm_num)⟩ : Fin 64) = u :=
    Fin.ext (by show (n.val * 64 + u.val) % 64 = u.val; have := u.isLt; omega)
  show h0nR _ _ _ ⟨(n.val * 64 + u.val) / 64, _⟩ ⟨(n.val * 64 + u.val) % 64, _⟩ = _
  rw [hn, hu]

theorem hsArr_apply1 (B : Fin 32) (n : Fin 512) (u : Fin 64) :
    hsArr a0 a1 a2 a3 a4 a5 a6 a7 a8 a9 a10 a11 a12 (ix3 (1 : Fin 2) B (Out.colOf n u))
      = h1nR (Params.ofArrays a1 a3 a4 a5 a6 a7 a8 a9 a10 a11 a12) (xOf a0 B) (hOf a2 0 B) (hOf a2 1 B) n u := by
  unfold hsArr
  rw [if_neg (show ¬((ix3 (1 : Fin 2) B (Out.colOf n u)) 0).val = 0 from by show ¬(1 = 0); omega)]
  have hn : (⟨(n.val * 64 + u.val) / 64, by have := n.isLt; have := u.isLt; omega⟩ : Fin 512) = n :=
    Fin.ext (by show (n.val * 64 + u.val) / 64 = n.val; have := u.isLt; omega)
  have hu : (⟨(n.val * 64 + u.val) % 64, Nat.mod_lt _ (by norm_num)⟩ : Fin 64) = u :=
    Fin.ext (by show (n.val * 64 + u.val) % 64 = u.val; have := u.isLt; omega)
  show h1nR _ _ _ _ ⟨(n.val * 64 + u.val) / 64, _⟩ ⟨(n.val * 64 + u.val) % 64, _⟩ = _
  rw [hn, hu]

variable (X : Ins Ideal)

/-- Point T's fifteen blocks as entries of the thirteen argument arrays. -/
structure BlocksOf (T : ℕ) (hT : T < 2) : Prop where
  e0 : ∀ (b : Fin 16) (n : Fin 512), X.x0 (ix2 b n) = a0 (ix2 (rowOf T hT b) n)
  e1 : ∀ (n k : Fin 512), X.x1 (ix2 n k) = a1 (ix2 n k)
  e2 : ∀ (l : Fin 2) (n : Fin 512) (b : Fin 16) (u : Fin 64),
    X.x2 (ix4 l n b u) = a2 (ix3 l (rowOf T hT b) (Out.colOf n u))
  e3 : ∀ (j : Fin 3) (o : Fin 128), X.x3 (ix3 j (0 : Fin 1) o) = a3 (ix2 (rowx j) o)
  e4 : ∀ (k : Fin 192) (o : Fin 128), X.x4 (ix2 k o) = a3 (ix2 (row0 k) o)
  e5 : ∀ (j : Fin 3) (u : Fin 64), X.x5 (ix3 j (0 : Fin 1) u) = a5 (ix2 (rowx j) u)
  e6 : ∀ (k : Fin 192) (u : Fin 64), X.x6 (ix2 k u) = a5 (ix2 (row0 k) u)
  e7 : ∀ o : Fin 128, X.x7 (ix1 o) = a4 (ix1 o)
  e8 : ∀ u : Fin 64, X.x8 (ix1 u) = a6 (ix1 u)
  e9 : ∀ (k : Fin 384) (o : Fin 128), X.x9 (ix2 k o) = a7 (ix2 (row1 k) o)
  e10 : ∀ (k : Fin 384) (u : Fin 64), X.x10 (ix2 k u) = a9 (ix2 (row1 k) u)
  e11 : ∀ o : Fin 128, X.x11 (ix1 o) = a8 (ix1 o)
  e12 : ∀ u : Fin 64, X.x12 (ix1 u) = a10 (ix1 u)
  e13 : ∀ u : Fin 64, X.x13 (ix2 (0 : Fin 1) u) = a11 (ix2 u (0 : Fin 1))
  e14 : X.x14 (ix1 (0 : Fin 1)) = a12 (ix1 (0 : Fin 1))

variable {a0 a1 a2 a3 a4 a5 a6 a7 a8 a9 a10 a11 a12} {X} {T : ℕ} {hT : T < 2}
  (E : BlocksOf a0 a1 a2 a3 a4 a5 a6 a7 a8 a9 a10 a11 a12 X T hT)
include E

theorem Q_ofArrays :
    Q X
      = KParams.ofParams (Params.ofArrays a1 a3 a4 a5 a6 a7 a8 a9 a10 a11 a12) := by
  unfold Q KParams.ofParams Params.ofArrays
  congr 1
  · funext n k; exact E.e1 n k
  · funext j o; exact E.e3 j o
  · funext k o; exact E.e4 k o
  · funext o; exact E.e7 o
  · funext j u; exact E.e5 j u
  · funext k u; exact E.e6 k u
  · funext u; exact E.e8 u
  · funext k o; exact E.e9 k o
  · funext o; exact E.e11 o
  · funext k u; exact E.e10 k u
  · funext u; exact E.e12 u
  · funext u; exact E.e13 u
  · exact E.e14

theorem xk_of (b : Fin 16) : xk X.x0 b = xOf a0 (rowOf T hT b) := funext fun n => E.e0 b n

theorem hk_of (l : Fin 2) (b : Fin 16) : hk X.x2 l b = hOf a2 l (rowOf T hT b) :=
  funext fun n => funext fun u => E.e2 l n b u

theorem point15
    (h1 : ∀ (n : Fin 512) (b : Fin 16) (u : Fin 64), h1new X (ix3 n b u)
      = h1nK (Q X) (xk X.x0 b) (hk X.x2 0 b) (hk X.x2 1 b) n u)
    (b : Fin 16) (n : Fin 512) :
    out0_15 X (ix2 b n)
      = outArr a0 a1 a2 a3 a4 a5 a6 a7 a8 a9 a10 a11 a12 (ix2 (rowOf T hT b) n) := by
  refine (kp_out15 X h1 b n).trans ?_
  rw [Q_ofArrays E, xk_of E b, hk_of E 0 b, hk_of E 1 b, outK_eq, outArr_apply]

theorem point16_0
    (h0 : ∀ (n : Fin 512) (b : Fin 16) (u : Fin 64), h0new X (ix3 n b u)
      = h0nK (Q X) (xk X.x0 b) (hk X.x2 0 b) n u)
    (b : Fin 16) (n : Fin 512) (u : Fin 64) :
    out0_16 X (ix3 (0 : Fin 2) b (Out.colOf n u))
      = hsArr a0 a1 a2 a3 a4 a5 a6 a7 a8 a9 a10 a11 a12 (ix3 (0 : Fin 2) (rowOf T hT b) (Out.colOf n u)) := by
  refine (kp_out16_0 X h0 b n u).trans ?_
  rw [Q_ofArrays E, xk_of E b, hk_of E 0 b, h0nK_eq, hsArr_apply0]

theorem point16_1
    (h1 : ∀ (n : Fin 512) (b : Fin 16) (u : Fin 64), h1new X (ix3 n b u)
      = h1nK (Q X) (xk X.x0 b) (hk X.x2 0 b) (hk X.x2 1 b) n u)
    (b : Fin 16) (n : Fin 512) (u : Fin 64) :
    out0_16 X (ix3 (1 : Fin 2) b (Out.colOf n u))
      = hsArr a0 a1 a2 a3 a4 a5 a6 a7 a8 a9 a10 a11 a12 (ix3 (1 : Fin 2) (rowOf T hT b) (Out.colOf n u)) := by
  refine (kp_out16_1 X h1 b n u).trans ?_
  rw [Q_ofArrays E, xk_of E b, hk_of E 0 b, hk_of E 1 b, h1nK_eq, hsArr_apply1]

end arrays

end Run

namespace Run

open Idealize.ShloMosaic.TcCoe Idealize.SL.Sem
open Idealize.ShloMosaic.Pipeline (Dat)

variable (m : (ℓ : Loc nD τ sig) → Buf (Elt Ideal) ℓ) (ρ : Dev nD → PrngReg)

abbrev arr0 (c : Dev nD) : Arr2 32 512 := m ((c.tc : Thread nD τ).loc main_arg0)
abbrev arr1 (c : Dev nD) : Arr2 512 512 := m ((c.tc : Thread nD τ).loc main_arg1)
abbrev arr2 (c : Dev nD) : Arr3 2 32 32768 := m ((c.tc : Thread nD τ).loc main_arg2)
abbrev arr3 (c : Dev nD) : Arr2 195 128 := m ((c.tc : Thread nD τ).loc main_arg3)
abbrev arr4 (c : Dev nD) : Arr1 128 := m ((c.tc : Thread nD τ).loc main_arg4)
abbrev arr5 (c : Dev nD) : Arr2 195 64 := m ((c.tc : Thread nD τ).loc main_arg5)
abbrev arr6 (c : Dev nD) : Arr1 64 := m ((c.tc : Thread nD τ).loc main_arg6)
abbrev arr7 (c : Dev nD) : Arr2 384 128 := m ((c.tc : Thread nD τ).loc main_arg7)
abbrev arr8 (c : Dev nD) : Arr1 128 := m ((c.tc : Thread nD τ).loc main_arg8)
abbrev arr9 (c : Dev nD) : Arr2 384 64 := m ((c.tc : Thread nD τ).loc main_arg9)
abbrev arr10 (c : Dev nD) : Arr1 64 := m ((c.tc : Thread nD τ).loc main_arg10)
abbrev arr11 (c : Dev nD) : Arr2 64 1 := m ((c.tc : Thread nD τ).loc main_arg11)
abbrev arr12 (c : Dev nD) : Arr1 1 := m ((c.tc : Thread nD τ).loc main_arg12)

abbrev outA (c : Dev nD) : Arr2 32 512 :=
  outArr (arr0 m c) (arr1 m c) (arr2 m c) (arr3 m c) (arr4 m c) (arr5 m c) (arr6 m c) (arr7 m c) (arr8 m c)
    (arr9 m c) (arr10 m c) (arr11 m c) (arr12 m c)
abbrev hsA (c : Dev nD) : Arr3 2 32 32768 :=
  hsArr (arr0 m c) (arr1 m c) (arr2 m c) (arr3 m c) (arr4 m c) (arr5 m c) (arr6 m c) (arr7 m c) (arr8 m c)
    (arr9 m c) (arr10 m c) (arr11 m c) (arr12 m c)

theorem tlt (t : Fin cfg0.N) : t.val < 2 := by
  have h := t.isLt
  have hN : cfg0.N = 2 := N_0
  omega

theorem blocksOf (c : Dev nD) (t : Fin cfg0.N) :
    BlocksOf (arr0 m c) (arr1 m c) (arr2 m c) (arr3 m c) (arr4 m c) (arr5 m c) (arr6 m c) (arr7 m c) (arr8 m c)
      (arr9 m c) (arr10 m c) (arr11 m c) (arr12 m c)
      (blk m c t) t.val (tlt t) :=
  by
  constructor <;> dsimp only [blk]
  exacts [Blocks.e0 m c t, Blocks.e1 m c t, Blocks.e2 m c t, Blocks.e3 m c t, Blocks.e4 m c t, Blocks.e5 m c t, Blocks.e6 m c t, Blocks.e7 m c t, Blocks.e8 m c t, Blocks.e9 m c t, Blocks.e10 m c t, Blocks.e11 m c t, Blocks.e12 m c t, Blocks.e13 m c t, Blocks.e14 m c t]

theorem idxO15 : ∀ t : Fin cfg0.N, win0_15.index t (0 : Fin 2) = t.val ∧ win0_15.index t (1 : Fin 2) = 0 :=
  (by decide +kernel : ∀ t : Fin grid0.N, _)
theorem idxO16 : ∀ t : Fin cfg0.N,
    win0_16.index t (0 : Fin 3) = 0 ∧ win0_16.index t (1 : Fin 3) = t.val ∧ win0_16.index t (2 : Fin 3) = 0 :=
  (by decide +kernel : ∀ t : Fin grid0.N, _)

theorem read15 (t : Fin cfg0.N) (G : Arr2 32 512) (X : Vec Ideal S16x512 .f32)
    (h : ∀ (b : Fin 16) (n : Fin 512), X (ix2 b n) = G (ix2 (rowOf t.val (tlt t) b) n)) :
    (cfg0.win 15).cut (grid0.coords t) X = ((cfg0.win 15).blk t).view.read (Elt Ideal) G := by
  refine funext fun (j : S16x512.Idx) => ?_
  obtain ⟨b, n, rfl⟩ : ∃ (b : Fin 16) (n : Fin 512), j = ix2 b n := ⟨j 0, j 1, eq_ix2 j⟩
  obtain ⟨i0, i1⟩ := idxO15 t
  show X (ix2 b n) = G (((cfg0.win 15).blk t).view.emb (ix2 b n))
  rw [h b n]
  refine congrArg G ?_
  funext a; apply Fin.ext
  match a with
  | ⟨0, _⟩ => show 16 * t.val + b.val = win0_15.index t (0 : Fin 2) * 16 + 1 * b.val; omega
  | ⟨1, _⟩ => show n.val = win0_15.index t (1 : Fin 2) * 512 + 1 * n.val; omega

theorem read16 (t : Fin cfg0.N) (G : Arr3 2 32 32768) (X : Vec Ideal S2x16x32768 .f32)
    (h : ∀ (l : Fin 2) (b : Fin 16) (n : Fin 512) (u : Fin 64),
      X (ix3 l b (Out.colOf n u)) = G (ix3 l (rowOf t.val (tlt t) b) (Out.colOf n u))) :
    (cfg0.win 16).cut (grid0.coords t) X = ((cfg0.win 16).blk t).view.read (Elt Ideal) G := by
  refine funext fun (j : S2x16x32768.Idx) => ?_
  obtain ⟨l, b, q, rfl⟩ : ∃ (l : Fin 2) (b : Fin 16) (q : Fin 32768), j = ix3 l b q := ⟨j 0, j 1, j 2, eq_ix3 j⟩
  obtain ⟨n, u, rfl⟩ : ∃ (n : Fin 512) (u : Fin 64), q = Out.colOf n u :=
    ⟨⟨q.val / 64, by have := q.isLt; omega⟩, ⟨q.val % 64, Nat.mod_lt _ (by norm_num)⟩,
      Fin.ext (by show q.val = q.val / 64 * 64 + q.val % 64; omega)⟩
  obtain ⟨i0, i1, i2⟩ := idxO16 t
  show X (ix3 l b (Out.colOf n u)) = G (((cfg0.win 16).blk t).view.emb (ix3 l b (Out.colOf n u)))
  rw [h l b n u]
  refine congrArg G ?_
  funext a; apply Fin.ext
  match a with
  | ⟨0, _⟩ => show l.val = win0_16.index t (0 : Fin 3) * 2 + 1 * l.val; omega
  | ⟨1, _⟩ => show 16 * t.val + b.val = win0_16.index t (1 : Fin 3) * 16 + 1 * b.val; omega
  | ⟨2, _⟩ => show n.val * 64 + u.val = win0_16.index t (2 : Fin 3) * 32768 + 1 * (n.val * 64 + u.val); omega

theorem flushed15_eq (c : Dev nD) (t : Fin cfg0.N) :
    (dats m 0 c).flushed 15 t = ((cfg0.win 15).blk t).view.read (Elt Ideal) (outA m c) := by
  show (cfg0.win 15).cut (grid0.coords t) ((dats m 0 c).after 15 t) = _
  rw [after0_15]
  exact read15 t (outA m c)
    (out0_15 (blk m c t))
    (fun b n => point15 (blocksOf m c t) (kp_h1_all (blk m c t)) b n)

theorem flushed16_eq (c : Dev nD) (t : Fin cfg0.N) :
    (dats m 0 c).flushed 16 t = ((cfg0.win 16).blk t).view.read (Elt Ideal) (hsA m c) := by
  show (cfg0.win 16).cut (grid0.coords t) ((dats m 0 c).after 16 t) = _
  rw [after0_16]
  refine read16 t (hsA m c)
    (out0_16 (blk m c t)) (fun l b n u => ?_)
  have hl : l = 0 ∨ l = 1 := by
    have := l.isLt
    rcases Nat.lt_or_ge l.val 1 with h | h
    · left; exact Fin.ext (by show l.val = 0; omega)
    · right; exact Fin.ext (by show l.val = 1; omega)
  rcases hl with rfl | rfl
  · exact point16_0 (blocksOf m c t) (kp_h0_all (blk m c t)) b n u
  · exact point16_1 (blocksOf m c t) (kp_h1_all (blk m c t)) b n u

theorem mem_blk15 (t : Fin cfg0.N) (i : S32x512.Idx) :
    i ∈ ((cfg0.win 15).blk t).view.set ↔ ∀ a : Fin 2, win0_15.index t a * S16x512.size a ≤ (i a).val
      ∧ (i a).val < win0_15.index t a * S16x512.size a + S16x512.size a := by
  show i ∈ ((View.whole main_v67_0).slice (win0_15.rect t)).set ↔ _
  rw [View.set_slice_whole, Rect.mem_set_unit]
  exact Iff.rfl

theorem mem_blk16 (t : Fin cfg0.N) (i : S2x32x32768.Idx) :
    i ∈ ((cfg0.win 16).blk t).view.set ↔ ∀ a : Fin 3, win0_16.index t a * S2x16x32768.size a ≤ (i a).val
      ∧ (i a).val < win0_16.index t a * S2x16x32768.size a + S2x16x32768.size a := by
  show i ∈ ((View.whole main_v67_1).slice (win0_16.rect t)).set ↔ _
  rw [View.set_slice_whole, Rect.mem_set_unit]
  exact Iff.rfl

theorem cover15 (i : S32x512.Idx) :
    ∃ t : Fin cfg0.N, (cfg0.win 15).flush t = true ∧ i ∈ ((cfg0.win 15).blk t).view.set := by
  have hi0 : (i 0).val < 32 := (i 0).isLt
  have hi1 : (i 1).val < 512 := (i 1).isLt
  have hN : cfg0.N = 2 := N_0
  obtain ⟨t, ht⟩ : ∃ t : Fin cfg0.N, t.val = (i 0).val / 16 := ⟨⟨(i 0).val / 16, by rw [hN]; omega⟩, rfl⟩
  obtain ⟨e0, e1⟩ := idxO15 t
  refine ⟨t, flush0_15 t, ?_⟩
  rw [mem_blk15]
  intro a
  match a with
  | ⟨0, _⟩ =>
    show win0_15.index t (0 : Fin 2) * 16 ≤ (i 0).val ∧ (i 0).val < win0_15.index t (0 : Fin 2) * 16 + 16
    omega
  | ⟨1, _⟩ =>
    show win0_15.index t (1 : Fin 2) * 512 ≤ (i 1).val ∧ (i 1).val < win0_15.index t (1 : Fin 2) * 512 + 512
    omega

theorem cover16 (i : S2x32x32768.Idx) :
    ∃ t : Fin cfg0.N, (cfg0.win 16).flush t = true ∧ i ∈ ((cfg0.win 16).blk t).view.set := by
  have hi0 : (i 0).val < 2 := (i 0).isLt
  have hi1 : (i 1).val < 32 := (i 1).isLt
  have hi2 : (i 2).val < 32768 := (i 2).isLt
  have hN : cfg0.N = 2 := N_0
  obtain ⟨t, ht⟩ : ∃ t : Fin cfg0.N, t.val = (i 1).val / 16 := ⟨⟨(i 1).val / 16, by rw [hN]; omega⟩, rfl⟩
  obtain ⟨e0, e1, e2⟩ := idxO16 t
  refine ⟨t, flush0_16 t, ?_⟩
  rw [mem_blk16]
  intro a
  match a with
  | ⟨0, _⟩ =>
    show win0_16.index t (0 : Fin 3) * 2 ≤ (i 0).val ∧ (i 0).val < win0_16.index t (0 : Fin 3) * 2 + 2
    omega
  | ⟨1, _⟩ =>
    show win0_16.index t (1 : Fin 3) * 16 ≤ (i 1).val ∧ (i 1).val < win0_16.index t (1 : Fin 3) * 16 + 16
    omega
  | ⟨2, _⟩ =>
    show win0_16.index t (2 : Fin 3) * 32768 ≤ (i 2).val ∧ (i 2).val < win0_16.index t (2 : Fin 3) * 32768 + 32768
    omega

theorem final15 (c : Dev nD) : (dats m 0 c).arrAt 15 cfg0.N = outA m c :=
  (dats m 0 c).arrAt_eq_of_cover 15 (outA m c) (fun t _ => flushed15_eq m c t) (fun i => cover15 i)

theorem final16 (c : Dev nD) : (dats m 0 c).arrAt 16 cfg0.N = hsA m c :=
  (dats m 0 c).arrAt_eq_of_cover 16 (hsA m c) (fun t _ => flushed16_eq m c t) (fun i => cover16 i)

theorem post15 (r : PUnit × MemSt nD τ sig (Elt Ideal)) (h : Pipeline.FramePost cfgs (dats m) 0 (V m) r) (c : Dev nD) :
    r.2.mem ((c.tc : Thread nD τ).loc main_v67_0) = outA m c :=
  ((h c).1 15).trans (final15 m c)

theorem post16 (r : PUnit × MemSt nD τ sig (Elt Ideal)) (h : Pipeline.FramePost cfgs (dats m) 0 (V m) r) (c : Dev nD) :
    r.2.mem ((c.tc : Thread nD τ).loc main_v67_1) = hsA m c :=
  ((h c).1 16).trans (final16 m c)

end Run

open Idealize.ShloMosaic.TcCoe Idealize.SL.Sem in

/-- Both result arrays end at the specification's arrays of the arguments. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v67_0) = Run.outA m c
      ∧ r.2.mem ((c.tc : Thread nD τ).loc main_v67_1) = Run.hsA m c ∧ Kept m r c) :=
  (θ_run defs _ _).mono (fun r h c => ⟨Run.post15 m r h c, Run.post16 m r h c, kept m r h c⟩) (run_main m ρ)

end Cert.KernelIdeal.KVal

end
-- ==== Proof.RefDefs.lean ====
/-
  What the specification takes as input, extracted from a valuation of the reference's thirteen arguments: the
  parameter record, the input of a batch element, and its state in either layer. Also the flat position
  n*64+u of a node's unit.
-/
import proofs.«168098_g44504451121623_cont_8to1_c_180_35_alg».proof.Proof.Gen.ReferenceIdeal
import proofs.«168098_g44504451121623_cont_8to1_c_180_35_alg».proof.Proof.SpecArr

noncomputable section

namespace Cert.ReferenceIdeal.RefVal

-- Position of (node n, unit u) among the 32768 columns.
abbrev nu (n : Fin 512) (u : Fin 64) : Fin 32768 := ⟨n.val * 64 + u.val, by have := n.isLt; have := u.isLt; omega⟩

open Cert.ReferenceIdeal Cert.ReferenceIdeal.Gen Cert.Spec Idealize.ShloMosaic Idealize.ShloMosaic.ValueIdx Idealize.SL.Sem

def PR (V0 : Valuation τ sig (Elt Ideal)) : Params :=
  Params.ofArrays (V0 (Proc.devRef .tc main_arg1)) (V0 (Proc.devRef .tc main_arg3)) (V0 (Proc.devRef .tc main_arg4))
    (V0 (Proc.devRef .tc main_arg5)) (V0 (Proc.devRef .tc main_arg6)) (V0 (Proc.devRef .tc main_arg7))
    (V0 (Proc.devRef .tc main_arg8)) (V0 (Proc.devRef .tc main_arg9)) (V0 (Proc.devRef .tc main_arg10))
    (V0 (Proc.devRef .tc main_arg11)) (V0 (Proc.devRef .tc main_arg12))

def X (V0 : Valuation τ sig (Elt Ideal)) (b : Fin 32) : Fin 512 → R := xOf (V0 (Proc.devRef .tc main_arg0)) b

def H (V0 : Valuation τ sig (Elt Ideal)) (l : Fin 2) (b : Fin 32) : Fin 512 → Fin 64 → R :=
  hOf (V0 (Proc.devRef .tc main_arg2)) l b

end Cert.ReferenceIdeal.RefVal

end
-- ==== Proof.RefOut.lean ====
/-
  Results. The output is layer 1's updated state times a 64 x 1 weight plus a bias, one value per (b, n); the
  returned states are the two updated states stacked. Both equal the specification's arrays entrywise.
-/
import proofs.«168098_g44504451121623_cont_8to1_c_180_35_alg».proof.Proof.Gen.ReferenceIdeal
import proofs.«168098_g44504451121623_cont_8to1_c_180_35_alg».proof.Proof.SpecArr
import proofs.«168098_g44504451121623_cont_8to1_c_180_35_alg».proof.Proof.RefDefs
import Idealize.ShloMosaic.Lib.Pipeline.Value
import Idealize.ShloMosaic.Lib.ValueIdx
import Idealize.ShloMosaic.Lib.StackMember
import Idealize.ShloMosaic.PureOps.Ideal.Laws

noncomputable section

namespace Cert.ReferenceIdeal.RefVal

open Cert.ReferenceIdeal Cert.ReferenceIdeal.Gen Cert.Spec Idealize.ShloMosaic Idealize.ShloMosaic.ValueIdx Idealize.SL.Sem
open scoped BigOperators

namespace Out

theorem outRows_apply (y : FVec Ideal S16384x1 .f32) (b : Fin 32) (n : Fin 512) :
    shapeCast S32x512 y shapeCasts_S16384x1_S32x512 (ix2 b n)
      = y (ix2 (⟨b.val * 512 + n.val, by have := b.isLt; have := n.isLt; omega⟩ : Fin 16384) (0 : Fin 1)) := by
  refine shapeCast_apply _ _ _ _ ?_
  rw [Shape.rowMajor_val_two, Shape.rowMajor_val_two]
  show (b.val * 512 + n.val) * 1 + 0 = b.val * 512 + n.val
  omega

theorem stateRows_apply (s : FVec Ideal S32x32768 .f32) (b : Fin 32) (n : Fin 512) (u : Fin 64) :
    shapeCast S16384x64 s shapeCasts_S32x32768_S16384x64
        (ix2 (⟨b.val * 512 + n.val, by have := b.isLt; have := n.isLt; omega⟩ : Fin 16384) u)
      = s (ix2 b (nu n u)) := by
  refine shapeCast_apply _ _ _ _ ?_
  rw [Shape.rowMajor_val_two, Shape.rowMajor_val_two]
  show b.val * 32768 + (n.val * 64 + u.val) = (b.val * 512 + n.val) * 64 + u.val
  omega

theorem dotP_apply (M : FVec Ideal S16384x64 .f32) (W : FVec Ideal S64x1 .f32) (r : Fin 16384) (c : Fin 1) :
    Host.dotGeneral dot_S16384x64_S64x1_S16384x1_1_0_0_1_n_n none M W (ix2 r c)
      = ∑ k : Fin 64, M (ix2 r k) * W (ix2 k c) :=
  StackMember.dotGeneral_plain_apply none M W r c

theorem biasP_apply (c : FVec Ideal S1 .f32) (r : Fin 16384) (z : Fin 1) :
    broadcastInDim S16384x1 ![0, 1] bcast_S1x1_S16384x1_0_1 (broadcastInDim S1x1 ![1] bcast_S1_S1x1_1 c) (ix2 r z)
      = c (ix1 (0 : Fin 1)) := by
  refine (broadcastInDim_apply _ _ _ _ (ix2 (0 : Fin 1) (0 : Fin 1)) fun a => ?_).trans ?_
  · match a with
    | ⟨0, _⟩ => rfl
    | ⟨1, _⟩ => rfl
  · refine broadcastInDim_apply _ _ _ _ _ fun a => ?_
    match a with
    | ⟨0, _⟩ => rfl

theorem lead_apply (s : FVec Ideal S32x32768 .f32) (b : Fin 32) (q : Fin 32768) :
    broadcastInDim S1x32x32768 ![1, 2] bcast_S32x32768_S1x32x32768_1_2 s (ix3 (0 : Fin 1) b q) = s (ix2 b q) := by
  refine broadcastInDim_apply _ _ _ _ _ fun a => ?_
  match a with
  | ⟨0, _⟩ => rfl
  | ⟨1, _⟩ => rfl

theorem stack_lo (x y : FVec Ideal S32x32768 .f32) (b : Fin 32) (q : Fin 32768) :
    concatenate S2x32x32768 0
        [⟨S1x32x32768, broadcastInDim S1x32x32768 ![1, 2] bcast_S32x32768_S1x32x32768_1_2 x⟩,
         ⟨S1x32x32768, broadcastInDim S1x32x32768 ![1, 2] bcast_S32x32768_S1x32x32768_1_2 y⟩]
        concatenates_S1x32x32768_S1x32x32768_S2x32x32768_d0 (ix3 (0 : Fin 2) b q)
      = x (ix2 b q) := by
  refine (concatenate_pair_apply_left (t := S2x32x32768) (s₁ := S1x32x32768) (s₂ := S1x32x32768) 0 _ _
    concatenates_S1x32x32768_S1x32x32768_S2x32x32768_d0 (ix3 (0 : Fin 2) b q) rfl (ix3 (0 : Fin 1) b q) fun a => ?_).trans
    (lead_apply x b q)
  match a with
  | ⟨0, _⟩ => rfl
  | ⟨1, _⟩ => rfl
  | ⟨2, _⟩ => rfl

theorem stack_hi (x y : FVec Ideal S32x32768 .f32) (b : Fin 32) (q : Fin 32768) :
    concatenate S2x32x32768 0
        [⟨S1x32x32768, broadcastInDim S1x32x32768 ![1, 2] bcast_S32x32768_S1x32x32768_1_2 x⟩,
         ⟨S1x32x32768, broadcastInDim S1x32x32768 ![1, 2] bcast_S32x32768_S1x32x32768_1_2 y⟩]
        concatenates_S1x32x32768_S1x32x32768_S2x32x32768_d0 (ix3 (1 : Fin 2) b q)
      = y (ix2 b q) := by
  refine (concatenate_pair_apply_right (t := S2x32x32768) (s₁ := S1x32x32768) (s₂ := S1x32x32768) 0 _ _
    concatenates_S1x32x32768_S1x32x32768_S2x32x32768_d0 (ix3 (1 : Fin 2) b q) rfl rfl (ix3 (0 : Fin 1) b q) (fun a => ?_) rfl).trans
    (lead_apply y b q)
  match a with
  | ⟨0, _⟩ => exact fun h => absurd rfl h
  | ⟨1, _⟩ => exact fun _ => rfl
  | ⟨2, _⟩ => exact fun _ => rfl

theorem col_divmod (q : Fin 32768) :
    (⟨(q.val / 64) * 64 + q.val % 64, by have := q.isLt; omega⟩ : Fin 32768) = q := by
  apply Fin.ext; show (q.val / 64) * 64 + q.val % 64 = q.val; omega

end Out

theorem ref_out_chain (V0 : Valuation τ sig (Elt Ideal)) (r127 : FVec Ideal S32x32768 .f32)
    (h127 : ∀ (b : Fin 32) (n : Fin 512) (u : Fin 64),
      r127 (ix2 b (nu n u))
        = h1nR (PR V0) (X V0 b) (H V0 0 b) (H V0 1 b) n u) :
    shapeCast _ (addf (Host.dotGeneral (F := Ideal) (φ₁ := .f32) (φ₂ := .f32) dot_S16384x64_S64x1_S16384x1_1_0_0_1_n_n none (shapeCast _ r127 shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512
      = outArr (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) := by
  funext i
  obtain ⟨b, n, rfl⟩ : ∃ (b : Fin 32) (n : Fin 512), i = ix2 b n := ⟨i 0, i 1, eq_ix2 i⟩
  rw [Out.outRows_apply, addf_apply, Out.dotP_apply, Out.biasP_apply]
  simp only [Out.stateRows_apply, h127]
  rfl

theorem ref_hs_chain (V0 : Valuation τ sig (Elt Ideal)) (r63 r127 : FVec Ideal S32x32768 .f32)
    (h63 : ∀ (b : Fin 32) (n : Fin 512) (u : Fin 64),
      r63 (ix2 b (nu n u))
        = h0nR (PR V0) (X V0 b) (H V0 0 b) n u)
    (h127 : ∀ (b : Fin 32) (n : Fin 512) (u : Fin 64),
      r127 (ix2 b (nu n u))
        = h1nR (PR V0) (X V0 b) (H V0 0 b) (H V0 1 b) n u) :
    concatenate S2x32x32768 0 [⟨S1x32x32768, (broadcastInDim S1x32x32768 ![1, 2] bcast_S32x32768_S1x32x32768_1_2 r63)⟩, ⟨S1x32x32768, (broadcastInDim S1x32x32768 ![1, 2] bcast_S32x32768_S1x32x32768_1_2 r127)⟩] concatenates_S1x32x32768_S1x32x32768_S2x32x32768_d0
      = hsArr (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) := by
  funext i
  obtain ⟨l, b, q, rfl⟩ : ∃ (l : Fin 2) (b : Fin 32) (q : Fin 32768), i = ix3 l b q := ⟨i 0, i 1, i 2, eq_ix3 i⟩
  have e : ix2 b q = ix2 b (⟨(q.val / 64) * 64 + q.val % 64, by have := q.isLt; omega⟩ : Fin 32768) := by
    rw [Out.col_divmod]
  unfold hsArr
  match l with
  | ⟨0, _⟩ =>
    refine (Out.stack_lo r63 r127 b q).trans (Eq.trans ?_ (if_pos rfl).symm)
    rw [e]
    exact h63 b ⟨q.val / 64, by have := q.isLt; omega⟩ ⟨q.val % 64, Nat.mod_lt _ (by norm_num)⟩
  | ⟨1, _⟩ =>
    refine (Out.stack_hi r63 r127 b q).trans (Eq.trans ?_ (if_neg (show ¬ ((1 : ℕ) = 0) by decide)).symm)
    rw [e]
    exact h127 b ⟨q.val / 64, by have := q.isLt; omega⟩ ⟨q.val % 64, Nat.mod_lt _ (by norm_num)⟩

end Cert.ReferenceIdeal.RefVal

end
-- ==== Proof.Ref0Chain.lean ====
/-
  Chebyshev taps as a matrix, for any number J of features (J = 65 is layer 0). For a 512 x J*32 field x0 (feature j
  of batch element b in column j*32+b) and a 512 x 512 matrix A, put T0 = x0, T1 = A x0, T2 = 2 A T1 - x0: the array
  built from them has, in row b*512+n and column j*3+m, the value of Tm at node n for feature j of batch element b.
-/
import proofs.«168098_g44504451121623_cont_8to1_c_180_35_alg».proof.Proof.Gen.ReferenceIdeal
import proofs.«168098_g44504451121623_cont_8to1_c_180_35_alg».proof.Proof.SpecArr
import Idealize.ShloMosaic.Lib.StackMember
import Idealize.ShloMosaic.Lib.ValueLayout
import Idealize.ShloMosaic.PureOps.Ideal.Laws

noncomputable section

namespace Cert.ReferenceIdeal.RefVal.L0g

open Cert.ReferenceIdeal Cert.ReferenceIdeal.Gen Cert.Spec Idealize.ShloMosaic Idealize.ShloMosaic.ValueIdx
open scoped BigOperators

section Taps
variable {α : Type} {J C K : ℕ}

theorem castMat_apply (h : (⟨4, ![32, 512, J, 3]⟩ : Shape).ShapeCasts ⟨2, ![16384, K]⟩) (hK : K = J * 3)
    (x : (⟨4, ![32, 512, J, 3]⟩ : Shape).Idx → α) (b : Fin 32) (n : Fin 512) (k : Fin K) :
    shapeCast ⟨2, ![16384, K]⟩ x h (ix2 (⟨b.val * 512 + n.val, by have := b.isLt; have := n.isLt; omega⟩ : Fin 16384) k)
      = x (ix4 b n (⟨k.val / 3, by have := k.isLt; omega⟩ : Fin J) (⟨k.val % 3, Nat.mod_lt _ (by norm_num)⟩ : Fin 3)) :=
  shapeCast_apply x _ _ _ (by
    rw [Shape.rowMajor_val_four, Shape.rowMajor_val_two]
    show ((b.val * 512 + n.val) * J + k.val / 3) * 3 + k.val % 3 = (b.val * 512 + n.val) * K + k.val
    have e : (b.val * 512 + n.val) * K = (b.val * 512 + n.val) * J * 3 := by rw [hK, Nat.mul_assoc]
    omega)

theorem trTaps_apply (h : (⟨4, ![3, 512, J, 32]⟩ : Shape).Transposes [3, 1, 2, 0] ⟨4, ![32, 512, J, 3]⟩)
    (x : (⟨4, ![3, 512, J, 32]⟩ : Shape).Idx → α) (b : Fin 32) (n : Fin 512) (j : Fin J) (m : Fin 3) :
    transpose ⟨4, ![32, 512, J, 3]⟩ [3, 1, 2, 0] x h (ix4 b n j m) = x (ix4 m n j b) :=
  transpose_apply _ x _ _ _ fun c => match c with | ⟨0, _⟩ => rfl | ⟨1, _⟩ => rfl | ⟨2, _⟩ => rfl | ⟨3, _⟩ => rfl

theorem castCols_apply (h : (⟨3, ![3, 512, C]⟩ : Shape).ShapeCasts ⟨4, ![3, 512, J, 32]⟩) (hC : C = J * 32)
    (x : (⟨3, ![3, 512, C]⟩ : Shape).Idx → α) (m : Fin 3) (n : Fin 512) (j : Fin J) (b : Fin 32) :
    shapeCast ⟨4, ![3, 512, J, 32]⟩ x h (ix4 m n j b)
      = x (ix3 m n (⟨j.val * 32 + b.val, by have := j.isLt; have := b.isLt; omega⟩ : Fin C)) :=
  shapeCast_apply x _ _ _ (by
    rw [Shape.rowMajor_val_three, Shape.rowMajor_val_four]
    show (m.val * 512 + n.val) * C + (j.val * 32 + b.val) = ((m.val * 512 + n.val) * J + j.val) * 32 + b.val
    have e : (m.val * 512 + n.val) * C = (m.val * 512 + n.val) * J * 32 := by rw [hC, Nat.mul_assoc]
    omega)

theorem bcast1_apply (h : (⟨2, ![512, C]⟩ : Shape).BroadcastsInDim ⟨3, ![1, 512, C]⟩ ![1, 2]) (hC : C = J * 32)
    (y : (⟨2, ![512, C]⟩ : Shape).Idx → α) (u : Fin 1) (n : Fin 512) (c : Fin C) :
    broadcastInDim ⟨3, ![1, 512, C]⟩ ![1, 2] h y (ix3 u n c) = y (ix2 n c) :=
  broadcastInDim_apply _ _ y _ _ fun a => match a with
    | ⟨0, _⟩ => rfl
    | ⟨1, _⟩ => (if_neg (by omega : ¬ C = 1)).symm

-- Reading a stack of three pieces of height one at height m gives piece m.
theorem cat3_apply
    (h : Shape.Concatenates [(⟨3, ![1, 512, C]⟩ : Shape), ⟨3, ![1, 512, C]⟩, ⟨3, ![1, 512, C]⟩] ⟨3, ![3, 512, C]⟩ 0)
    (u0 u1 u2 : (⟨3, ![1, 512, C]⟩ : Shape).Idx → α) (m : ℕ) (hm : m < 3) (n : Fin 512) (c : Fin C) :
    concatenate ⟨3, ![3, 512, C]⟩ 0 [⟨⟨3, ![1, 512, C]⟩, u0⟩, ⟨⟨3, ![1, 512, C]⟩, u1⟩, ⟨⟨3, ![1, 512, C]⟩, u2⟩] h
        (ix3 (⟨m, hm⟩ : Fin 3) n c)
      = if m = 0 then u0 (ix3 0 n c) else if m = 1 then u1 (ix3 0 n c) else u2 (ix3 0 n c) := by
  have hi : ∀ (m' : Fin 3) (b : Fin 3), b ≠ 0 →
      ((ix3 (0 : Fin 1) n c : (⟨3, ![1, 512, C]⟩ : Shape).Idx) b).val = ((ix3 m' n c : (⟨3, ![3, 512, C]⟩ : Shape).Idx) b).val :=
    fun _ b hb => match b, hb with
      | ⟨0, _⟩, hb => absurd rfl hb
      | ⟨1, _⟩, _ => rfl
      | ⟨2, _⟩, _ => rfl
  match m, hm with
  | 0, _ => exact concatenate_apply_piece (t := ⟨3, ![3, 512, C]⟩) 0 [⟨_, u0⟩, ⟨_, u1⟩, ⟨_, u2⟩] h _ 0 (by simp) _ u0 rfl rfl 0 rfl _ (hi _) rfl
  | 1, _ => exact concatenate_apply_piece (t := ⟨3, ![3, 512, C]⟩) 0 [⟨_, u0⟩, ⟨_, u1⟩, ⟨_, u2⟩] h _ 1 (by simp) _ u1 rfl rfl 1 rfl _ (hi _) rfl
  | 2, _ => exact concatenate_apply_piece (t := ⟨3, ![3, 512, C]⟩) 0 [⟨_, u0⟩, ⟨_, u1⟩, ⟨_, u2⟩] h _ 2 (by simp) _ u2 rfl rfl 2 rfl _ (hi _) rfl
  | m + 3, h => exact absurd h (by omega)

end Taps

-- T0, T1, T2 stacked; columns split into (feature, batch element); axes reordered to (batch element, node, feature, tap); rows and columns merged.
abbrev tapsT {J C K : ℕ} (h0 : S_.BroadcastsInDim ⟨2, ![512, C]⟩ ![])
    (hb : (⟨2, ![512, C]⟩ : Shape).BroadcastsInDim ⟨3, ![1, 512, C]⟩ ![1, 2])
    (hc : Shape.Concatenates [(⟨3, ![1, 512, C]⟩ : Shape), ⟨3, ![1, 512, C]⟩, ⟨3, ![1, 512, C]⟩] ⟨3, ![3, 512, C]⟩ 0)
    (h1 : (⟨3, ![3, 512, C]⟩ : Shape).ShapeCasts ⟨4, ![3, 512, J, 32]⟩)
    (ht : (⟨4, ![3, 512, J, 32]⟩ : Shape).Transposes [3, 1, 2, 0] ⟨4, ![32, 512, J, 3]⟩)
    (h2 : (⟨4, ![32, 512, J, 3]⟩ : Shape).ShapeCasts ⟨2, ![16384, K]⟩)
    (A : FVec Ideal S512x512 .f32) (x0 : FVec Ideal ⟨2, ![512, C]⟩ .f32) : FVec Ideal ⟨2, ![16384, K]⟩ .f32 :=
  shapeCast ⟨2, ![16384, K]⟩ (transpose ⟨4, ![32, 512, J, 3]⟩ [3, 1, 2, 0] (shapeCast ⟨4, ![3, 512, J, 32]⟩
    (concatenate ⟨3, ![3, 512, C]⟩ 0
      [⟨⟨3, ![1, 512, C]⟩, broadcastInDim ⟨3, ![1, 512, C]⟩ ![1, 2] hb x0⟩,
       ⟨⟨3, ![1, 512, C]⟩, broadcastInDim ⟨3, ![1, 512, C]⟩ ![1, 2] hb
          (Host.dotGeneral (DotDims.plain 512 512 C) none A x0)⟩,
       ⟨⟨3, ![1, 512, C]⟩, broadcastInDim ⟨3, ![1, 512, C]⟩ ![1, 2] hb
          (subf (mulf (broadcastInDim ⟨2, ![512, C]⟩ ![] h0 (constant (F := Ideal) S_ .f32 0x40000000#32))
            (Host.dotGeneral (DotDims.plain 512 512 C) none A
              (Host.dotGeneral (DotDims.plain 512 512 C) none A x0))) x0)⟩] hc) h1) ht) h2

-- Each reshaping step keeps row-major position, and each product with A is a sum over the 512 nodes.
theorem taps_apply {J C K : ℕ} (hC : C = J * 32) (hK : K = J * 3) (h0 : S_.BroadcastsInDim ⟨2, ![512, C]⟩ ![])
    (hb : (⟨2, ![512, C]⟩ : Shape).BroadcastsInDim ⟨3, ![1, 512, C]⟩ ![1, 2])
    (hc : Shape.Concatenates [(⟨3, ![1, 512, C]⟩ : Shape), ⟨3, ![1, 512, C]⟩, ⟨3, ![1, 512, C]⟩] ⟨3, ![3, 512, C]⟩ 0)
    (h1 : (⟨3, ![3, 512, C]⟩ : Shape).ShapeCasts ⟨4, ![3, 512, J, 32]⟩)
    (ht : (⟨4, ![3, 512, J, 32]⟩ : Shape).Transposes [3, 1, 2, 0] ⟨4, ![32, 512, J, 3]⟩)
    (h2 : (⟨4, ![32, 512, J, 3]⟩ : Shape).ShapeCasts ⟨2, ![16384, K]⟩)
    (A : FVec Ideal S512x512 .f32) (x0 : FVec Ideal ⟨2, ![512, C]⟩ .f32) (b : Fin 32) (n : Fin 512) (k : Fin K) :
    tapsT h0 hb hc h1 ht h2 A x0 (ix2 (⟨b.val * 512 + n.val, by have := b.isLt; have := n.isLt; omega⟩ : Fin 16384) k)
      = tap (fun n k => A (ix2 n k)) (k.val % 3)
          (fun n' => x0 (ix2 n' (⟨k.val / 3 * 32 + b.val, by have := k.isLt; have := b.isLt; omega⟩ : Fin C))) n := by
  unfold tapsT
  rw [castMat_apply h2 hK, trTaps_apply, castCols_apply h1 hC, cat3_apply, bcast1_apply hb hC, bcast1_apply hb hC,
    bcast1_apply hb hC]
  unfold tap
  by_cases h0' : k.val % 3 = 0
  · rw [if_pos h0', if_pos h0']
  · rw [if_neg h0', if_neg h0']
    by_cases h1' : k.val % 3 = 1
    · rw [if_pos h1', if_pos h1', StackMember.dotGeneral_plain_apply]
      rfl
    · rw [if_neg h1', if_neg h1', subf_apply, mulf_apply, StackMember.dotGeneral_plain_apply]
      simp only [StackMember.dotGeneral_plain_apply]
      rfl

-- J = 65.
abbrev matT (A : FVec Ideal S512x512 .f32) (x0 : FVec Ideal S512x2080 .f32) : FVec Ideal S16384x195 .f32 :=
  tapsT (J := 65) bcast_S_S512x2080 bcast_S512x2080_S1x512x2080_1_2
    concatenates_S1x512x2080_S1x512x2080_S1x512x2080_S3x512x2080_d0 shapeCasts_S3x512x2080_S3x512x65x32
    transposes_S3x512x65x32_S32x512x65x3_3_1_2_0 shapeCasts_S32x512x65x3_S16384x195 A x0

theorem chain195 (A : FVec Ideal S512x512 .f32) (x0 : FVec Ideal S512x2080 .f32) (b : Fin 32) (n : Fin 512) (k : Fin 195) :
    matT A x0 (ix2 (⟨b.val * 512 + n.val, by have := b.isLt; have := n.isLt; omega⟩ : Fin 16384) k)
      = tap (fun n k => A (ix2 n k)) (k.val % 3)
          (fun n' => x0 (ix2 n' (⟨k.val / 3 * 32 + b.val, by have := k.isLt; have := b.isLt; omega⟩ : Fin 2080))) n :=
  taps_apply (J := 65) (C := 2080) (K := 195) rfl rfl _ _ _ _ _ _ A x0 b n k

end Cert.ReferenceIdeal.RefVal.L0g

end
-- ==== Proof.Ref0gX0.lean ====
/-
  Feature columns: two (32, 512, ·) arrays joined along their last axis, the axes reordered to (node, feature, batch
  element) and the last two merged, the entry in row n and column j*32+b being feature j of batch element b; layer 0
  joins the one input value to the 64 state units. Also: either of the two stored states, read as a (32, 32768) array.
-/
import proofs.«168098_g44504451121623_cont_8to1_c_180_35_alg».proof.Proof.RefDefs
import Idealize.ShloMosaic.Lib.ValueLayout

noncomputable section

namespace Cert.ReferenceIdeal.RefVal.L0g

open Cert.ReferenceIdeal Cert.ReferenceIdeal.Gen Cert.Spec Idealize.ShloMosaic Idealize.ShloMosaic.ValueIdx

section
variable {α : Type}

-- Taking state l out of the pair and dropping its unit axis changes no position.
theorem slab_apply (l : Fin 2) (hs : S2x32x32768.Slices ![l.val, 0, 0] S1x32x32768) (a2 : S2x32x32768.Idx → α)
    (b : Fin 32) (q : Fin 32768) :
    shapeCast S32x32768 (extractStridedSlice S1x32x32768 ![l.val, 0, 0] a2 hs) shapeCasts_S1x32x32768_S32x32768 (ix2 b q)
      = a2 (ix3 l b q) := by
  refine (shapeCast_1ab_ab_apply _ _ b q).trans ?_
  exact extractStridedSlice_apply _ _ _ _ _ fun a => match a with
    | ⟨0, _⟩ => (Nat.add_zero _).symm
    | ⟨1, _⟩ => (Nat.zero_add _).symm
    | ⟨2, _⟩ => (Nat.zero_add _).symm

theorem castx1_apply (a0 : S32x512.Idx → α) (b : Fin 32) (n : Fin 512) (u : Fin 1) :
    shapeCast S32x512x1 a0 shapeCasts_S32x512_S32x512x1 (ix3 b n u) = a0 (ix2 b n) :=
  shapeCast_apply a0 _ _ _ (by
    rw [Shape.rowMajor_val_three, Shape.rowMajor_val_two]
    show b.val * 512 + n.val = (b.val * 512 + n.val) * 1 + u.val
    have := u.isLt
    omega)

theorem casth_apply (v1 : S32x32768.Idx → α) (b : Fin 32) (n : Fin 512) (u : Fin 64) :
    shapeCast S32x512x64 v1 shapeCasts_S32x32768_S32x512x64 (ix3 b n u)
      = v1 (ix2 b (nu n u)) :=
  shapeCast_apply v1 _ _ _ (by
    rw [Shape.rowMajor_val_three, Shape.rowMajor_val_two]
    show b.val * 32768 + (n.val * 64 + u.val) = (b.val * 512 + n.val) * 64 + u.val
    omega)

-- Feature j comes from p when j < P and from q, at j - P, otherwise.
theorem feat_apply {P Q J C : ℕ} (hJ : J = P + Q) (hC : C = J * 32)
    (hc : Shape.Concatenates [(⟨3, ![32, 512, P]⟩ : Shape), ⟨3, ![32, 512, Q]⟩] ⟨3, ![32, 512, J]⟩ 2)
    (ht : (⟨3, ![32, 512, J]⟩ : Shape).Transposes [1, 2, 0] ⟨3, ![512, J, 32]⟩)
    (h : (⟨3, ![512, J, 32]⟩ : Shape).ShapeCasts ⟨2, ![512, C]⟩)
    (p : (⟨3, ![32, 512, P]⟩ : Shape).Idx → α) (q : (⟨3, ![32, 512, Q]⟩ : Shape).Idx → α)
    (n : Fin 512) (j : Fin J) (b : Fin 32) :
    shapeCast ⟨2, ![512, C]⟩ (transpose ⟨3, ![512, J, 32]⟩ [1, 2, 0]
        (concatenate ⟨3, ![32, 512, J]⟩ 2 [⟨⟨3, ![32, 512, P]⟩, p⟩, ⟨⟨3, ![32, 512, Q]⟩, q⟩] hc) ht) h
        (ix2 n (⟨j.val * 32 + b.val, by have := j.isLt; have := b.isLt; omega⟩ : Fin C))
      = if hj : j.val < P then p (ix3 b n ⟨j.val, hj⟩)
        else q (ix3 b n ⟨j.val - P, by have := j.isLt; omega⟩) := by
  refine (shapeCast_apply _ _ _ (ix3 n j b) ?_).trans ?_
  · rw [Shape.rowMajor_val_three, Shape.rowMajor_val_two]
    show (n.val * J + j.val) * 32 + b.val = n.val * C + (j.val * 32 + b.val)
    have e : n.val * C = n.val * J * 32 := by rw [hC, Nat.mul_assoc]
    omega
  refine (transpose_apply _ _ _ _ (ix3 b n j) fun a => match a with | ⟨0, _⟩ => rfl | ⟨1, _⟩ => rfl | ⟨2, _⟩ => rfl).trans ?_
  by_cases hj : j.val < P
  · rw [dif_pos hj]
    exact concatenate_pair_apply_left (t := ⟨3, ![32, 512, J]⟩) 2 p q hc (ix3 b n j) rfl _ fun a => match a with
      | ⟨0, _⟩ => rfl
      | ⟨1, _⟩ => rfl
      | ⟨2, _⟩ => rfl
  · rw [dif_neg hj]
    exact concatenate_pair_apply_right (t := ⟨3, ![32, 512, J]⟩) 2 p q hc (ix3 b n j) rfl rfl _
      (fun a ha => match a, ha with
        | ⟨0, _⟩, _ => rfl
        | ⟨1, _⟩, _ => rfl
        | ⟨2, _⟩, ha => absurd (Fin.ext rfl) ha)
      (by show j.val - P + P = j.val; omega)

-- P = 1, Q = 64.
theorem x0_chain (a0 : S32x512.Idx → α) (v1 : S32x32768.Idx → α) (n : Fin 512) (j : Fin 65) (b : Fin 32) :
    shapeCast S512x2080 (transpose S512x65x32 [1, 2, 0]
        (concatenate S32x512x65 2 [⟨S32x512x1, shapeCast S32x512x1 a0 shapeCasts_S32x512_S32x512x1⟩,
            ⟨S32x512x64, shapeCast S32x512x64 v1 shapeCasts_S32x32768_S32x512x64⟩]
          concatenates_S32x512x1_S32x512x64_S32x512x65_d2) transposes_S32x512x65_S512x65x32_1_2_0)
        shapeCasts_S512x65x32_S512x2080
        (ix2 n (⟨j.val * 32 + b.val, by have := j.isLt; have := b.isLt; omega⟩ : Fin 2080))
      = if h : j.val = 0 then a0 (ix2 b n)
        else v1 (ix2 b (⟨n.val * 64 + (j.val - 1), by have := n.isLt; have := j.isLt; omega⟩ : Fin 32768)) := by
  refine (feat_apply (P := 1) (Q := 64) rfl rfl concatenates_S32x512x1_S32x512x64_S32x512x65_d2
    transposes_S32x512x65_S512x65x32_1_2_0 shapeCasts_S512x65x32_S512x2080 _ _ n j b).trans ?_
  by_cases h : j.val = 0
  · rw [dif_pos h, dif_pos (by omega)]
    exact castx1_apply a0 b n _
  · rw [dif_neg h, dif_neg (by omega)]
    exact casth_apply v1 b n _

end

end Cert.ReferenceIdeal.RefVal.L0g

end
-- ==== Proof.Ref0gDot.lean ====
/-
  Gates from a feature matrix. For M with 16384 rows b*512+n and K columns, a K x 128 weight W and a bias c, the
  gate array is logistic (M W + c) reshaped to (32, 512, 128), the logistic being spelled 1 / (1 + exp (-y)).
  K is arbitrary, so one statement serves both layers.
-/
import proofs.«168098_g44504451121623_cont_8to1_c_180_35_alg».proof.Proof.Gen.ReferenceIdeal
import proofs.«168098_g44504451121623_cont_8to1_c_180_35_alg».proof.Proof.SpecArr
import Idealize.ShloMosaic.Lib.StackMember
import Idealize.ShloMosaic.Lib.ValueLayout
import Idealize.ShloMosaic.Lib.IdealHost
import Idealize.ShloMosaic.PureOps.Ideal.Laws

noncomputable section

namespace Cert.ReferenceIdeal.RefVal.L0g

open Cert.ReferenceIdeal Cert.ReferenceIdeal.Gen Cert.Spec Idealize.ShloMosaic Idealize.ShloMosaic.ValueIdx
open scoped BigOperators

section
variable {α : Type}

theorem biasg0_apply (bias : S128.Idx → α) (r : Fin 16384) (o : Fin 128) :
    broadcastInDim S16384x128 ![0, 1] bcast_S1x128_S16384x128_0_1
        (broadcastInDim S1x128 ![1] bcast_S128_S1x128_1 bias) (ix2 r o) = bias (ix1 o) := by
  refine (broadcastInDim_apply _ _ _ _ (ix2 (0 : Fin 1) o) fun a => match a with | ⟨0, _⟩ => rfl | ⟨1, _⟩ => rfl).trans ?_
  exact broadcastInDim_apply _ _ _ _ (ix1 o) fun a => match a with | ⟨0, _⟩ => rfl

theorem castrows_apply (y : S16384x128.Idx → α) (b : Fin 32) (n : Fin 512) (o : Fin 128) :
    shapeCast S32x65536 y shapeCasts_S16384x128_S32x65536
        (ix2 b (⟨n.val * 128 + o.val, by have := n.isLt; have := o.isLt; omega⟩ : Fin 65536))
      = y (ix2 (⟨b.val * 512 + n.val, by have := b.isLt; have := n.isLt; omega⟩ : Fin 16384) o) :=
  shapeCast_apply y _ _ _ (by
    rw [Shape.rowMajor_val_two, Shape.rowMajor_val_two]
    show (b.val * 512 + n.val) * 128 + o.val = b.val * 65536 + (n.val * 128 + o.val)
    omega)

theorem castgate_apply (z : S32x65536.Idx → α) (b : Fin 32) (n : Fin 512) (o : Fin 128) :
    shapeCast S32x512x128 z shapeCasts_S32x65536_S32x512x128 (ix3 b n o)
      = z (ix2 b (⟨n.val * 128 + o.val, by have := n.isLt; have := o.isLt; omega⟩ : Fin 65536)) :=
  shapeCast_apply z _ _ _ (by
    rw [Shape.rowMajor_val_two, Shape.rowMajor_val_three]
    show b.val * 65536 + (n.val * 128 + o.val) = (b.val * 512 + n.val) * 128 + o.val
    omega)

end

theorem one_apply (i : S32x65536.Idx) :
    broadcastInDim S32x65536 ![] bcast_S_S32x65536 (constant (F := Ideal) S_ .f32 0x3F800000#32) i = 1 :=
  (broadcastInDim_apply _ _ _ _ ix0 fun a => a.elim0).trans Ideal.ofBits_one_f32

theorem logistic_apply (y : FVec Ideal S32x65536 .f32) (i : S32x65536.Idx) :
    Host.divf (broadcastInDim S32x65536 ![] bcast_S_S32x65536 (constant (F := Ideal) S_ .f32 0x3F800000#32))
        (addf (broadcastInDim S32x65536 ![] bcast_S_S32x65536 (constant (F := Ideal) S_ .f32 0x3F800000#32))
          (Host.exp (Host.negf y))) i = Ideal.logistic (y i) := by
  show Ideal.div (broadcastInDim S32x65536 ![] bcast_S_S32x65536 (constant (F := Ideal) S_ .f32 0x3F800000#32) i)
      (broadcastInDim S32x65536 ![] bcast_S_S32x65536 (constant (F := Ideal) S_ .f32 0x3F800000#32) i + Ideal.exp (-(y i)))
    = Ideal.logistic (y i)
  rw [one_apply]
  rfl

-- logistic (M W + c), reshaped to (batch element, node, gate unit).
abbrev gateT {K : ℕ} (M : FVec Ideal ⟨2, ![16384, K]⟩ .f32) (W : FVec Ideal ⟨2, ![K, 128]⟩ .f32) (bias : FVec Ideal S128 .f32) :
    FVec Ideal S32x512x128 .f32 :=
  shapeCast S32x512x128
    (Host.divf (broadcastInDim S32x65536 ![] bcast_S_S32x65536 (constant (F := Ideal) S_ .f32 0x3F800000#32))
      (addf (broadcastInDim S32x65536 ![] bcast_S_S32x65536 (constant (F := Ideal) S_ .f32 0x3F800000#32))
        (Host.exp (Host.negf (shapeCast S32x65536
          (addf (Host.dotGeneral (DotDims.plain 16384 K 128) none M W)
            (broadcastInDim S16384x128 ![0, 1] bcast_S1x128_S16384x128_0_1
              (broadcastInDim S1x128 ![1] bcast_S128_S1x128_1 bias)))
          shapeCasts_S16384x128_S32x65536)))))
    shapeCasts_S32x65536_S32x512x128

-- Reshaping keeps row-major position, so entry (b, n, o) reads row b*512+n and column o of M W + c.
theorem gate_of_mat {K : ℕ} (M : FVec Ideal ⟨2, ![16384, K]⟩ .f32) (W : FVec Ideal ⟨2, ![K, 128]⟩ .f32)
    (bias : FVec Ideal S128 .f32) (b : Fin 32) (n : Fin 512) (o : Fin 128) :
    gateT M W bias (ix3 b n o)
      = Ideal.logistic ((∑ k : Fin K,
          M (ix2 (⟨b.val * 512 + n.val, by have := b.isLt; have := n.isLt; omega⟩ : Fin 16384) k) * W (ix2 k o))
          + bias (ix1 o)) := by
  refine (castgate_apply _ b n o).trans ?_
  rw [logistic_apply, castrows_apply, addf_apply, StackMember.dotGeneral_plain_apply, biasg0_apply]

end Cert.ReferenceIdeal.RefVal.L0g

end
-- ==== Proof.Ref0gAll.lean ====
/-
  Layer 0's gate array written out over the argument arrays, and its value at (b, n, o): the logistic of the
  specification's gate pre-activation for batch element b.
-/
import proofs.«168098_g44504451121623_cont_8to1_c_180_35_alg».proof.Proof.Ref0Chain
import proofs.«168098_g44504451121623_cont_8to1_c_180_35_alg».proof.Proof.Ref0gX0
import proofs.«168098_g44504451121623_cont_8to1_c_180_35_alg».proof.Proof.Ref0gDot

noncomputable section

namespace Cert.ReferenceIdeal.RefVal.L0g

open Cert.ReferenceIdeal Cert.ReferenceIdeal.Gen Cert.Spec Idealize.ShloMosaic Idealize.ShloMosaic.ValueIdx
open scoped BigOperators

abbrev v1T (a2 : FVec Ideal S2x32x32768 .f32) : FVec Ideal S32x32768 .f32 :=
  shapeCast S32x32768 (extractStridedSlice S1x32x32768 ![0, 0, 0] a2 slices_S2x32x32768_S1x32x32768_0_0_0)
    shapeCasts_S1x32x32768_S32x32768

abbrev x0T (a0 : FVec Ideal S32x512 .f32) (v1 : FVec Ideal S32x32768 .f32) : FVec Ideal S512x2080 .f32 :=
  shapeCast S512x2080 (transpose S512x65x32 [1, 2, 0]
    (concatenate S32x512x65 2 [⟨S32x512x1, shapeCast S32x512x1 a0 shapeCasts_S32x512_S32x512x1⟩,
        ⟨S32x512x64, shapeCast S32x512x64 v1 shapeCasts_S32x32768_S32x512x64⟩]
      concatenates_S32x512x1_S32x512x64_S32x512x65_d2) transposes_S32x512x65_S512x65x32_1_2_0)
    shapeCasts_S512x65x32_S512x2080

-- Column (k/3)*32+b of the feature columns, as a function of the node, is feature k/3 of the specification.
theorem x0_eq_cat0 (a0 : FVec Ideal S32x512 .f32) (a2 : FVec Ideal S2x32x32768 .f32) (b : Fin 32) (k : Fin 195) :
    (fun n' : Fin 512 => x0T a0 (v1T a2)
        (ix2 n' (⟨k.val / 3 * 32 + b.val, by have := k.isLt; have := b.isLt; omega⟩ : Fin 2080)))
      = cat0 (xOf a0 b) (hOf a2 0 b) ⟨k.val / 3, by have := k.isLt; omega⟩ := by
  funext n'
  refine (x0_chain a0 (v1T a2) n' (⟨k.val / 3, by have := k.isLt; omega⟩ : Fin 65) b).trans ?_
  unfold cat0
  by_cases h : k.val / 3 = 0
  · rw [dif_pos h, dif_pos h]
    rfl
  · rw [dif_neg h, dif_neg h]
    exact slab_apply 0 _ a2 b _

theorem gate0_chain (a0 : FVec Ideal S32x512 .f32) (a1 : FVec Ideal S512x512 .f32) (a2 : FVec Ideal S2x32x32768 .f32)
    (a3 : FVec Ideal S195x128 .f32) (a4 : FVec Ideal S128 .f32) (P : Params)
    (hA : P.A = fun n k => a1 (ix2 n k)) (hW : P.Wg0 = fun k o => a3 (ix2 k o)) (hb : P.bg0 = fun o => a4 (ix1 o))
    (b : Fin 32) (n : Fin 512) (o : Fin 128) :
    gateT (matT a1 (x0T a0 (v1T a2))) a3 a4 (ix3 b n o)
      = gateOf (pg0R P (xOf a0 b)) (hOf a2 0 b) n o := by
  refine (gate_of_mat _ a3 a4 b n o).trans ?_
  unfold gateOf pg0R preR0
  rw [hA, hW, hb]
  refine congrArg Ideal.logistic (congrArg (· + a4 (ix1 o)) (Finset.sum_congr rfl fun k _ => ?_))
  refine congrArg (· * a3 (ix2 k o)) ?_
  refine (chain195 a1 (x0T a0 (v1T a2)) b n k).trans ?_
  rw [x0_eq_cat0]

end Cert.ReferenceIdeal.RefVal.L0g

end
-- ==== Proof.Ref0g.lean ====
/-
  The two layer-0 facts about the reference's values at a valuation: its first stored state is the argument's
  state 0, and its gate array equals the specification's gates.
-/
import proofs.«168098_g44504451121623_cont_8to1_c_180_35_alg».proof.Proof.RefRunP
import proofs.«168098_g44504451121623_cont_8to1_c_180_35_alg».proof.Proof.RefDefs
import proofs.«168098_g44504451121623_cont_8to1_c_180_35_alg».proof.Proof.Ref0gAll

noncomputable section

namespace Cert.ReferenceIdeal.RefVal

open Cert.ReferenceIdeal Cert.ReferenceIdeal.Gen Cert.ReferenceIdeal.Value Cert.Spec Idealize.ShloMosaic
  Idealize.ShloMosaic.ValueIdx Idealize.ShloMosaic.StableHlo Idealize.SL.Sem

theorem ref_v1 (V0 : Valuation τ sig (Elt Ideal)) (b : Fin 32) (q : Fin 32768) :
    res_main_v1 (F := Ideal) V0 (ix2 b q) = V0 (Proc.devRef .tc main_arg2) (ix3 0 b q) :=
  L0g.slab_apply 0 _ (V0 (Proc.devRef .tc main_arg2)) b q

theorem ref_gate0 (V0 : Valuation τ sig (Elt Ideal)) (b : Fin 32) (n : Fin 512) (o : Fin 128) :
    res_main_v30 (F := Ideal) V0 (ix3 b n o) = gateOf (pg0R (PR V0) (X V0 b)) (H V0 0 b) n o :=
  L0g.gate0_chain (V0 (Proc.devRef .tc main_arg0)) (V0 (Proc.devRef .tc main_arg1)) (V0 (Proc.devRef .tc main_arg2))
    (V0 (Proc.devRef .tc main_arg3)) (V0 (Proc.devRef .tc main_arg4)) (PR V0) rfl rfl rfl b n o

end Cert.ReferenceIdeal.RefVal

end
-- ==== Proof.Ref0cA.lean ====
/-
  Index identities shared by both layers' candidates: the two halves of a (32, 512, 128) gate array read through
  their flattening to (32, 32768), the bias of a unit copied to all 16384 rows, and the 64-unit affine map
  M W + c of a 16384 x K matrix M, flattened, for any K.
-/
import proofs.«168098_g44504451121623_cont_8to1_c_180_35_alg».proof.Proof.Ref0gX0
import Idealize.ShloMosaic.Lib.Pipeline.Value
import Idealize.ShloMosaic.Lib.ValueIdx
import Idealize.ShloMosaic.Lib.StackMember
import Idealize.ShloMosaic.PureOps.Ideal.Laws

noncomputable section

namespace Cert.ReferenceIdeal.RefVal.L0c

open Cert.ReferenceIdeal Cert.ReferenceIdeal.Gen Cert.Spec Idealize.ShloMosaic Idealize.ShloMosaic.ValueIdx
open scoped BigOperators

theorem gateHi_apply (g : FVec Ideal S32x512x128 .f32) (b : Fin 32) (n : Fin 512) (u : Fin 64) :
    shapeCast S32x32768 (extractStridedSlice S32x512x64 ![0, 0, 64] g slices_S32x512x128_S32x512x64_0_0_64)
        shapeCasts_S32x512x64_S32x32768
        (ix2 b (nu n u))
      = g (ix3 b n (⟨64 + u.val, by have := u.isLt; omega⟩ : Fin 128)) := by
  refine (shapeCast_apply _ _ _ (ix3 b n u) ?_).trans ?_
  · rw [Shape.rowMajor_val_three, Shape.rowMajor_val_two]
    show (b.val * 512 + n.val) * 64 + u.val = b.val * 32768 + (n.val * 64 + u.val)
    omega
  · refine extractStridedSlice_apply _ _ _ _ _ fun a => ?_
    match a with
    | ⟨0, _⟩ => show b.val = 0 + b.val; omega
    | ⟨1, _⟩ => show n.val = 0 + n.val; omega
    | ⟨2, _⟩ => show 64 + u.val = 64 + u.val; rfl

theorem gateLo_apply (g : FVec Ideal S32x512x128 .f32) (b : Fin 32) (n : Fin 512) (u : Fin 64) :
    shapeCast S32x32768 (extractStridedSlice S32x512x64 ![0, 0, 0] g slices_S32x512x128_S32x512x64_0_0_0)
        shapeCasts_S32x512x64_S32x32768
        (ix2 b (nu n u))
      = g (ix3 b n (⟨u.val, by have := u.isLt; omega⟩ : Fin 128)) := by
  refine (shapeCast_apply _ _ _ (ix3 b n u) ?_).trans ?_
  · rw [Shape.rowMajor_val_three, Shape.rowMajor_val_two]
    show (b.val * 512 + n.val) * 64 + u.val = b.val * 32768 + (n.val * 64 + u.val)
    omega
  · refine extractStridedSlice_apply _ _ _ _ _ fun a => ?_
    match a with
    | ⟨0, _⟩ => show b.val = 0 + b.val; omega
    | ⟨1, _⟩ => show n.val = 0 + n.val; omega
    | ⟨2, _⟩ => show u.val = 0 + u.val; omega

theorem bias64_apply (c : FVec Ideal S64 .f32) (r : Fin 16384) (u : Fin 64) :
    broadcastInDim S16384x64 ![0, 1] bcast_S1x64_S16384x64_0_1 (broadcastInDim S1x64 ![1] bcast_S64_S1x64_1 c) (ix2 r u)
      = c (ix1 u) := by
  refine (broadcastInDim_apply _ _ _ _ (ix2 (0 : Fin 1) u) fun a => match a with | ⟨0, _⟩ => rfl | ⟨1, _⟩ => rfl).trans ?_
  exact broadcastInDim_apply _ _ _ _ _ fun a => match a with | ⟨0, _⟩ => rfl

theorem rows64_apply (y : FVec Ideal S16384x64 .f32) (b : Fin 32) (n : Fin 512) (u : Fin 64) :
    shapeCast S32x32768 y shapeCasts_S16384x64_S32x32768
        (ix2 b (nu n u))
      = y (ix2 (⟨b.val * 512 + n.val, by have := b.isLt; have := n.isLt; omega⟩ : Fin 16384) u) := by
  refine shapeCast_apply _ _ _ _ ?_
  rw [Shape.rowMajor_val_two, Shape.rowMajor_val_two]
  show (b.val * 512 + n.val) * 64 + u.val = b.val * 32768 + (n.val * 64 + u.val)
  omega

-- At row b*512+n and unit u, M W + c is ∑ k, M (b*512+n, k) * W (k, u) + c u; flattening keeps row-major position.
theorem pre_apply {K : ℕ} (M : FVec Ideal ⟨2, ![16384, K]⟩ .f32) (W : FVec Ideal ⟨2, ![K, 64]⟩ .f32) (c : FVec Ideal S64 .f32)
    (b : Fin 32) (n : Fin 512) (u : Fin 64) :
    shapeCast S32x32768 (addf (Host.dotGeneral (DotDims.plain 16384 K 64) none M W)
        (broadcastInDim S16384x64 ![0, 1] bcast_S1x64_S16384x64_0_1 (broadcastInDim S1x64 ![1] bcast_S64_S1x64_1 c)))
        shapeCasts_S16384x64_S32x32768
        (ix2 b (nu n u))
      = (∑ k : Fin K, M (ix2 (⟨b.val * 512 + n.val, by have := b.isLt; have := n.isLt; omega⟩ : Fin 16384) k) * W (ix2 k u))
          + c (ix1 u) := by
  rw [rows64_apply, addf_apply, StackMember.dotGeneral_plain_apply, bias64_apply]

theorem one_apply (i : S32x32768.Idx) :
    broadcastInDim S32x32768 ![] bcast_S_S32x32768 (constant (F := Ideal) S_ .f32 0x3F800000#32) i = c1 :=
  (broadcastInDim_apply _ _ _ _ ix0 fun a => a.elim0).trans rfl

end Cert.ReferenceIdeal.RefVal.L0c

end
-- ==== Proof.Ref0cC.lean ====
/-
  Layer 0, candidate and update, over arbitrary arrays. With g the gate array and h the state, the new state is
  g_hi * h + (1 - g_hi) * tanh (taps (x | g_lo * h) W + c); at batch element b, node n, unit u this is the cell
  formula of the specification once g and h are identified with its gates and state.
-/
import proofs.«168098_g44504451121623_cont_8to1_c_180_35_alg».proof.Proof.Ref0cA
import proofs.«168098_g44504451121623_cont_8to1_c_180_35_alg».proof.Proof.Ref0gAll

noncomputable section

namespace Cert.ReferenceIdeal.RefVal.L0c

open Cert.ReferenceIdeal Cert.ReferenceIdeal.Gen Cert.Spec Idealize.ShloMosaic Idealize.ShloMosaic.ValueIdx
open scoped BigOperators

def pre64 (A : FVec Ideal S512x512 .f32) (x0 : FVec Ideal S512x2080 .f32) (W : FVec Ideal S195x64 .f32)
    (c : FVec Ideal S64 .f32) : FVec Ideal S32x32768 .f32 :=
  shapeCast S32x32768 (addf (Host.dotGeneral dot_S16384x195_S195x64_S16384x64_1_0_0_1_n_n none (L0g.matT A x0) W)
    (broadcastInDim S16384x64 ![0, 1] bcast_S1x64_S16384x64_0_1 (broadcastInDim S1x64 ![1] bcast_S64_S1x64_1 c)))
    shapeCasts_S16384x64_S32x32768

def gateHi (g : FVec Ideal S32x512x128 .f32) : FVec Ideal S32x32768 .f32 :=
  shapeCast S32x32768 (extractStridedSlice S32x512x64 ![0, 0, 64] g slices_S32x512x128_S32x512x64_0_0_64)
    shapeCasts_S32x512x64_S32x32768

def gateLo (g : FVec Ideal S32x512x128 .f32) : FVec Ideal S32x32768 .f32 :=
  shapeCast S32x32768 (extractStridedSlice S32x512x64 ![0, 0, 0] g slices_S32x512x128_S32x512x64_0_0_0)
    shapeCasts_S32x512x64_S32x32768

def cell0 (A : FVec Ideal S512x512 .f32) (x : FVec Ideal S32x512 .f32) (h : FVec Ideal S32x32768 .f32)
    (g : FVec Ideal S32x512x128 .f32) (W : FVec Ideal S195x64 .f32) (c : FVec Ideal S64 .f32) : FVec Ideal S32x32768 .f32 :=
  addf (mulf (gateHi g) h)
    (mulf (subf (broadcastInDim S32x32768 ![] bcast_S_S32x32768 (constant (F := Ideal) S_ .f32 0x3F800000#32)) (gateHi g))
      (Host.tanh (pre64 A (L0g.x0T x (mulf (gateLo g) h)) W c)))

theorem pre64_apply (A : FVec Ideal S512x512 .f32) (x0 : FVec Ideal S512x2080 .f32) (W : FVec Ideal S195x64 .f32)
    (c : FVec Ideal S64 .f32) (b : Fin 32) (n : Fin 512) (u : Fin 64) :
    pre64 A x0 W c (ix2 b (nu n u))
      = (∑ k : Fin 195, tap (fun n k => A (ix2 n k)) (k.val % 3)
            (fun n' => x0 (ix2 n' (⟨k.val / 3 * 32 + b.val, by have := k.isLt; have := b.isLt; omega⟩ : Fin 2080))) n * W (ix2 k u))
          + c (ix1 u) := by
  unfold pre64
  refine (pre_apply _ W c b n u).trans ?_
  refine congrArg (· + c (ix1 u)) (Finset.sum_congr rfl fun k _ => congrArg (· * W (ix2 k u)) ?_)
  exact L0g.chain195 A x0 b n k

theorem hostTanh_apply {s : Shape} {φ : FTy} (y : FVec Ideal s φ) (i : s.Idx) : Host.tanh y i = Ideal.tanh (y i) := rfl

theorem cand0_apply (A : FVec Ideal S512x512 .f32) (x : FVec Ideal S32x512 .f32) (s : FVec Ideal S32x32768 .f32)
    (W : FVec Ideal S195x64 .f32) (c : FVec Ideal S64 .f32) (b : Fin 32) (n : Fin 512) (u : Fin 64) :
    Host.tanh (pre64 A (L0g.x0T x s) W c) (ix2 b (nu n u))
      = Ideal.tanh (preR0 (fun n k => A (ix2 n k)) (fun n' => x (ix2 b n'))
          (fun n' u' => s (ix2 b (nu n' u')))
          (fun k => W (ix2 k u)) (c (ix1 u)) n) := by
  refine (hostTanh_apply _ _).trans (congrArg Ideal.tanh ?_)
  refine (pre64_apply A _ W c b n u).trans ?_
  unfold preR0
  refine congrArg₂ (· + ·) (Finset.sum_congr rfl fun k _ => congrArg₂ (· * ·) ?_ rfl) rfl
  refine congrArg (fun z => tap (fun n k => A (ix2 n k)) (k.val % 3) z n) ?_
  funext n'
  exact L0g.x0_chain x s n' (⟨k.val / 3, by have := k.isLt; omega⟩ : Fin 65) b

theorem cell0_apply (A : FVec Ideal S512x512 .f32) (x : FVec Ideal S32x512 .f32) (h : FVec Ideal S32x32768 .f32)
    (g : FVec Ideal S32x512x128 .f32) (W : FVec Ideal S195x64 .f32) (c : FVec Ideal S64 .f32)
    (b : Fin 32) (G : Fin 512 → Fin 128 → R) (S : Fin 512 → Fin 64 → R)
    (hG : ∀ (n : Fin 512) (o : Fin 128), g (ix3 b n o) = G n o)
    (hS : ∀ (n : Fin 512) (u : Fin 64),
      h (ix2 b (nu n u)) = S n u)
    (n : Fin 512) (u : Fin 64) :
    cell0 A x h g W c (ix2 b (nu n u))
      = G n (⟨64 + u.val, by have := u.isLt; omega⟩ : Fin 128) * S n u
        + (c1 - G n (⟨64 + u.val, by have := u.isLt; omega⟩ : Fin 128))
          * Ideal.tanh (preR0 (fun n k => A (ix2 n k)) (fun n' => x (ix2 b n'))
              (fun n' u' => G n' (⟨u'.val, by have := u'.isLt; omega⟩ : Fin 128) * S n' u')
              (fun k => W (ix2 k u)) (c (ix1 u)) n) := by
  unfold cell0
  refine (addf_apply _ _ _).trans (congrArg₂ (· + ·) ?_ ?_)
  · exact (mulf_apply _ _ _).trans (congrArg₂ (· * ·) ((gateHi_apply g b n u).trans (hG _ _)) (hS n u))
  · refine (mulf_apply _ _ _).trans (congrArg₂ (· * ·) ?_ ?_)
    · exact (subf_apply _ _ _).trans (congrArg₂ (· - ·) (one_apply _) ((gateHi_apply g b n u).trans (hG _ _)))
    · refine (cand0_apply A x _ W c b n u).trans (congrArg Ideal.tanh ?_)
      refine congrArg (fun s => preR0 (fun n k => A (ix2 n k)) (fun n' => x (ix2 b n')) s (fun k => W (ix2 k u)) (c (ix1 u)) n) ?_
      funext n' u'
      exact (mulf_apply _ _ _).trans (congrArg₂ (· * ·) ((gateLo_apply g b n' u').trans (hG _ _)) (hS n' u'))

end Cert.ReferenceIdeal.RefVal.L0c

end
-- ==== Proof.Ref0cD.lean ====
/-
  Layer 0's updated state for the actual arguments: if the gate array agrees with the specification's gates, the
  updated state agrees with the specification's at every (b, n, u).
-/
import proofs.«168098_g44504451121623_cont_8to1_c_180_35_alg».proof.Proof.RefRunP
import proofs.«168098_g44504451121623_cont_8to1_c_180_35_alg».proof.Proof.RefDefs
import proofs.«168098_g44504451121623_cont_8to1_c_180_35_alg».proof.Proof.Ref0cC

noncomputable section

namespace Cert.ReferenceIdeal.RefVal

open Cert.ReferenceIdeal Cert.ReferenceIdeal.Gen Cert.ReferenceIdeal.Value Cert.Spec Idealize.ShloMosaic
  Idealize.ShloMosaic.ValueIdx Idealize.ShloMosaic.StableHlo Idealize.SL.Sem
open scoped BigOperators

theorem ref_v1_col (V0 : Valuation τ sig (Elt Ideal)) (b : Fin 32) (n : Fin 512) (u : Fin 64) :
    res_main_v1 (F := Ideal) V0 (ix2 b (nu n u))
      = H V0 0 b n u :=
  L0g.slab_apply 0 _ (V0 (Proc.devRef .tc main_arg2)) b _

set_option maxRecDepth 8192 in

theorem ref_v63 (V0 : Valuation τ sig (Elt Ideal))
    (hg : ∀ (b : Fin 32) (n : Fin 512) (o : Fin 128),
      res_main_v30 (F := Ideal) V0 (ix3 b n o) = gateOf (pg0R (PR V0) (X V0 b)) (H V0 0 b) n o)
    (b : Fin 32) (n : Fin 512) (u : Fin 64) :
    res_main_v63 (F := Ideal) V0 (ix2 b (nu n u))
      = h0nR (PR V0) (X V0 b) (H V0 0 b) n u := by
  unfold res_main_v63 res_main_v41 res_main_v40 res_main_v34
  exact L0c.cell0_apply (V0 (Proc.devRef .tc main_arg1)) (V0 (Proc.devRef .tc main_arg0)) (res_main_v1 V0)
    (res_main_v30 V0) (V0 (Proc.devRef .tc main_arg5)) (V0 (Proc.devRef .tc main_arg6)) b
    (gateOf (pg0R (PR V0) (X V0 b)) (H V0 0 b)) (H V0 0 b) (hg b) (ref_v1_col V0 b) n u

end Cert.ReferenceIdeal.RefVal

end
-- ==== Proof.Ref1Chain.lean ====
/-
  Layer 1's matrix of taps: J = 128 features, hence 4096 field columns and 384 matrix columns.
-/
import proofs.«168098_g44504451121623_cont_8to1_c_180_35_alg».proof.Proof.Ref0Chain

noncomputable section

namespace Cert.ReferenceIdeal.RefVal.L1g

open Cert.ReferenceIdeal Cert.ReferenceIdeal.Gen Cert.Spec Idealize.ShloMosaic Idealize.ShloMosaic.ValueIdx
open scoped BigOperators

def tapsMat (A : FVec Ideal S512x512 .f32) (x0 : FVec Ideal S512x4096 .f32) : FVec Ideal S16384x384 .f32 :=
  shapeCast _ (transpose S32x512x128x3 [3, 1, 2, 0] (shapeCast _ (concatenate S3x512x4096 0 [⟨S1x512x4096, (broadcastInDim S1x512x4096 ![1, 2] bcast_S512x4096_S1x512x4096_1_2 x0)⟩, ⟨S1x512x4096, (broadcastInDim S1x512x4096 ![1, 2] bcast_S512x4096_S1x512x4096_1_2 (Host.dotGeneral dot_S512x512_S512x4096_S512x4096_1_0_0_1_n_n none A x0))⟩, ⟨S1x512x4096, (broadcastInDim S1x512x4096 ![1, 2] bcast_S512x4096_S1x512x4096_1_2 (subf (mulf (broadcastInDim S512x4096 ![] bcast_S_S512x4096 (constant (F := Ideal) S_ .f32 0x40000000#32)) (Host.dotGeneral dot_S512x512_S512x4096_S512x4096_1_0_0_1_n_n none A (Host.dotGeneral dot_S512x512_S512x4096_S512x4096_1_0_0_1_n_n none A x0))) x0))⟩] concatenates_S1x512x4096_S1x512x4096_S1x512x4096_S3x512x4096_d0) shapeCasts_S3x512x4096_S3x512x128x32) transposes_S3x512x128x32_S32x512x128x3_3_1_2_0) shapeCasts_S32x512x128x3_S16384x384

-- The J = 128 case of the statement for all J.
theorem tapsMat_apply (A : FVec Ideal S512x512 .f32) (x0 : FVec Ideal S512x4096 .f32) (b : Fin 32) (n : Fin 512)
    (k : Fin 384) :
    tapsMat A x0 (ix2 ⟨b.val * 512 + n.val, by have := b.isLt; have := n.isLt; omega⟩ k)
      = tap (fun n k => A (ix2 n k)) (k.val % 3)
          (fun n' => x0 (ix2 n' ⟨k.val / 3 * 32 + b.val, by have := k.isLt; have := b.isLt; omega⟩)) n :=
  L0g.taps_apply (J := 128) rfl rfl bcast_S_S512x4096 bcast_S512x4096_S1x512x4096_1_2
    concatenates_S1x512x4096_S1x512x4096_S1x512x4096_S3x512x4096_d0 shapeCasts_S3x512x4096_S3x512x128x32
    transposes_S3x512x128x32_S32x512x128x3_3_1_2_0 shapeCasts_S32x512x128x3_S16384x384 A x0 b n k

end Cert.ReferenceIdeal.RefVal.L1g

end
-- ==== Proof.Ref1gCols.lean ====
/-
  Layer 1's feature columns for the gates: layer 0's updated state joined to layer 1's state, 64 units each, so
  J = 128.
-/
import proofs.«168098_g44504451121623_cont_8to1_c_180_35_alg».proof.Proof.Ref0gX0
import Idealize.ShloMosaic.Lib.Pipeline.Value
import Idealize.ShloMosaic.Lib.ValueLayout
import Idealize.ShloMosaic.Lib.ValueIdx

noncomputable section

namespace Cert.ReferenceIdeal.RefVal.L1g

open Cert.ReferenceIdeal Cert.ReferenceIdeal.Gen Cert.Spec Idealize.ShloMosaic Idealize.ShloMosaic.ValueIdx
  Idealize.ShloMosaic.StableHlo

def featL1 (v63 v65 : FVec Ideal S32x32768 .f32) : FVec Ideal S512x4096 .f32 :=
  shapeCast _ (transpose S512x128x32 [1, 2, 0] (concatenate S32x512x128 2 [⟨S32x512x64, (shapeCast _ v63 shapeCasts_S32x32768_S32x512x64)⟩, ⟨S32x512x64, (shapeCast _ v65 shapeCasts_S32x32768_S32x512x64)⟩] concatenates_S32x512x64_S32x512x64_S32x512x128_d2) transposes_S32x512x128_S512x128x32_1_2_0) shapeCasts_S512x128x32_S512x4096

theorem featL1_apply (v63 v65 : FVec Ideal S32x32768 .f32) (n : Fin 512) (j : Fin 128) (b : Fin 32) :
    featL1 v63 v65 (ix2 n ⟨j.val * 32 + b.val, by have := j.isLt; have := b.isLt; omega⟩)
      = if h : j.val < 64 then v63 (ix2 b ⟨n.val * 64 + j.val, by have := n.isLt; omega⟩)
        else v65 (ix2 b ⟨n.val * 64 + (j.val - 64), by have := n.isLt; have := j.isLt; omega⟩) := by
  unfold featL1
  refine (L0g.feat_apply (P := 64) (Q := 64) rfl rfl concatenates_S32x512x64_S32x512x64_S32x512x128_d2
    transposes_S32x512x128_S512x128x32_1_2_0 shapeCasts_S512x128x32_S512x4096 _ _ n j b).trans ?_
  by_cases h : j.val < 64
  · rw [dif_pos h, dif_pos h, L0g.casth_apply]
  · rw [dif_neg h, dif_neg h, L0g.casth_apply]

end Cert.ReferenceIdeal.RefVal.L1g

end
-- ==== Proof.Ref1gAsm.lean ====
/-
  Layer 1's gate array at (b, n, o), over arbitrary arrays for the two states: the logistic of the
  specification's layer-1 gate pre-activation.
-/
import proofs.«168098_g44504451121623_cont_8to1_c_180_35_alg».proof.Proof.Ref1Chain
import proofs.«168098_g44504451121623_cont_8to1_c_180_35_alg».proof.Proof.Ref1gCols
import proofs.«168098_g44504451121623_cont_8to1_c_180_35_alg».proof.Proof.Ref0gDot

noncomputable section

namespace Cert.ReferenceIdeal.RefVal.L1g

open Cert.ReferenceIdeal Cert.ReferenceIdeal.Gen Cert.Spec Idealize.ShloMosaic Idealize.ShloMosaic.ValueIdx
  Idealize.ShloMosaic.StableHlo
open scoped BigOperators

theorem gate1_apply (A : FVec Ideal S512x512 .f32) (v63 v65 : FVec Ideal S32x32768 .f32)
    (W : FVec Ideal S384x128 .f32) (bias : FVec Ideal S128 .f32) (b : Fin 32) (xin s : Fin 512 → Fin 64 → R)
    (hxin : ∀ (n : Fin 512) (u : Fin 64),
      v63 (ix2 b (nu n u)) = xin n u)
    (hs : ∀ (n : Fin 512) (u : Fin 64),
      v65 (ix2 b (nu n u)) = s n u)
    (n : Fin 512) (o : Fin 128) :
    L0g.gateT (tapsMat A (featL1 v63 v65)) W bias (ix3 b n o)
      = Ideal.logistic (preR1 (fun n k => A (ix2 n k)) xin s (fun k => W (ix2 k o)) (bias (ix1 o)) n) := by
  rw [L0g.gate_of_mat]
  unfold preR1
  refine congrArg (fun t => Ideal.logistic (t + bias (ix1 o))) (Finset.sum_congr rfl fun k _ => ?_)
  rw [tapsMat_apply]
  refine congrArg (fun z => tap (fun n k => A (ix2 n k)) (k.val % 3) z n * W (ix2 k o)) (funext fun n' => ?_)
  refine (featL1_apply v63 v65 n' ⟨k.val / 3, by have := k.isLt; omega⟩ b).trans ?_
  unfold cat1
  by_cases h : k.val / 3 < 64
  · rw [dif_pos h, dif_pos h]
    exact hxin n' ⟨k.val / 3, h⟩
  · rw [dif_neg h, dif_neg h]
    exact hs n' ⟨k.val / 3 - 64, by have := k.isLt; omega⟩

end Cert.ReferenceIdeal.RefVal.L1g

end
-- ==== Proof.Ref1g.lean ====
/-
  The two layer-1 facts about the reference's values at a valuation: its second stored state is the argument's
  state 1, and, given layer 0's updated state, its gate array equals the specification's gates.
-/
import proofs.«168098_g44504451121623_cont_8to1_c_180_35_alg».proof.Proof.RefRunP
import proofs.«168098_g44504451121623_cont_8to1_c_180_35_alg».proof.Proof.RefDefs
import proofs.«168098_g44504451121623_cont_8to1_c_180_35_alg».proof.Proof.Ref1gAsm

noncomputable section

namespace Cert.ReferenceIdeal.RefVal

open Cert.ReferenceIdeal Cert.ReferenceIdeal.Gen Cert.ReferenceIdeal.Value Cert.Spec Idealize.ShloMosaic
  Idealize.ShloMosaic.ValueIdx Idealize.ShloMosaic.StableHlo Idealize.SL.Sem

namespace L1g

theorem ref_v65 (V0 : Valuation τ sig (Elt Ideal)) (b : Fin 32) (q : Fin 32768) :
    res_main_v65 (F := Ideal) V0 (ix2 b q) = V0 (Proc.devRef .tc main_arg2) (ix3 (1 : Fin 2) b q) := by
  unfold res_main_v65
  exact L0g.slab_apply 1 _ _ b q

theorem v94_eq (V0 : Valuation τ sig (Elt Ideal)) :
    res_main_v94 (F := Ideal) V0
      = L0g.gateT (tapsMat (V0 (Proc.devRef .tc main_arg1)) (featL1 (res_main_v63 V0) (res_main_v65 V0)))
          (V0 (Proc.devRef .tc main_arg7)) (V0 (Proc.devRef .tc main_arg8)) := rfl

end L1g

theorem ref_gate1 (V0 : Valuation τ sig (Elt Ideal))
    (h63 : ∀ (b : Fin 32) (n : Fin 512) (u : Fin 64),
      res_main_v63 (F := Ideal) V0 (ix2 b (nu n u))
        = h0nR (PR V0) (X V0 b) (H V0 0 b) n u)
    (b : Fin 32) (n : Fin 512) (o : Fin 128) :
    res_main_v94 (F := Ideal) V0 (ix3 b n o)
      = gateOf (pg1R (PR V0) (h0nR (PR V0) (X V0 b) (H V0 0 b))) (H V0 1 b) n o := by
  rw [L1g.v94_eq]
  exact L1g.gate1_apply _ _ _ _ _ b _ _ (fun n u => h63 b n u) (fun n u => L1g.ref_v65 V0 b _) n o

end Cert.ReferenceIdeal.RefVal

end
-- ==== Proof.Ref1cA.lean ====
/-
  Layer 1, candidate: the 64-unit affine map with K = 384, and the update z * h + (1 - z) * tanh (pre) read at
  an index.
-/
import proofs.«168098_g44504451121623_cont_8to1_c_180_35_alg».proof.Proof.Ref0cA
import proofs.«168098_g44504451121623_cont_8to1_c_180_35_alg».proof.Proof.Ref1gCols

noncomputable section

namespace Cert.ReferenceIdeal.RefVal.L1c

open Cert.ReferenceIdeal Cert.ReferenceIdeal.Gen Cert.Spec Idealize.ShloMosaic Idealize.ShloMosaic.ValueIdx Idealize.SL.Sem
open scoped BigOperators

-- K = 384.
theorem pre_apply (M : FVec Ideal S16384x384 .f32) (W : FVec Ideal S384x64 .f32) (bias : FVec Ideal S64 .f32)
    (b : Fin 32) (n : Fin 512) (u : Fin 64) :
    shapeCast S32x32768 (addf (Host.dotGeneral (F := Ideal) dot_S16384x384_S384x64_S16384x64_1_0_0_1_n_n none M W) (broadcastInDim S16384x64 ![0, 1] bcast_S1x64_S16384x64_0_1 (broadcastInDim S1x64 ![1] bcast_S64_S1x64_1 bias))) shapeCasts_S16384x64_S32x32768
        (ix2 b (nu n u))
      = (∑ k : Fin 384, M (ix2 (⟨b.val * 512 + n.val, by have := b.isLt; have := n.isLt; omega⟩ : Fin 16384) k) * W (ix2 k u))
          + bias (ix1 u) :=
  L0c.pre_apply M W bias b n u

theorem gru_apply (z h1 pre : FVec Ideal S32x32768 .f32) (i : S32x32768.Idx) :
    addf (mulf z h1) (mulf (subf (broadcastInDim S32x32768 ![] bcast_S_S32x32768 (constant (F := Ideal) S_ .f32 0x3F800000#32)) z) (Host.tanh (F := Ideal) pre)) i
      = z i * h1 i + (c1 - z i) * Ideal.tanh (pre i) := rfl

end Cert.ReferenceIdeal.RefVal.L1c

end
-- ==== Proof.Ref1cB.lean ====
/-
  Layer 1, candidate and update, over arbitrary arrays. Assuming the update gate z, the feature columns x0 and
  the state h agree with the specification at batch element b, the updated state at (b, n, u) is the
  specification's cell.
-/
import proofs.«168098_g44504451121623_cont_8to1_c_180_35_alg».proof.Proof.Ref1cA
import proofs.«168098_g44504451121623_cont_8to1_c_180_35_alg».proof.Proof.Ref1Chain

noncomputable section

namespace Cert.ReferenceIdeal.RefVal.L1c

open Cert.ReferenceIdeal Cert.ReferenceIdeal.Gen Cert.Spec Idealize.ShloMosaic Idealize.ShloMosaic.ValueIdx Idealize.SL.Sem
open Cert.ReferenceIdeal.RefVal.L1g
open scoped BigOperators

theorem z_apply (g : FVec Ideal S32x512x128 .f32) (b : Fin 32) (hh : Fin 512 → Fin 64 → R)
    (pg : (Fin 512 → Fin 64 → R) → Fin 512 → Fin 128 → R)
    (hg : ∀ (n : Fin 512) (o : Fin 128), g (ix3 b n o) = gateOf pg hh n o) (n : Fin 512) (u : Fin 64) :
    shapeCast S32x32768 (extractStridedSlice S32x512x64 ![0, 0, 64] g slices_S32x512x128_S32x512x64_0_0_64) shapeCasts_S32x512x64_S32x32768
        (ix2 b (nu n u))
      = gateOf pg hh n (⟨64 + u.val, by have := u.isLt; omega⟩ : Fin 128) :=
  (L0c.gateHi_apply g b n u).trans (hg n _)

theorem x0_cat1 (v63 : FVec Ideal S32x32768 .f32) (g : FVec Ideal S32x512x128 .f32) (h1 : FVec Ideal S32x32768 .f32)
    (b : Fin 32) (xin hh : Fin 512 → Fin 64 → R) (pg : (Fin 512 → Fin 64 → R) → Fin 512 → Fin 128 → R)
    (hv63 : ∀ (n : Fin 512) (u : Fin 64), v63 (ix2 b (nu n u)) = xin n u)
    (hg : ∀ (n : Fin 512) (o : Fin 128), g (ix3 b n o) = gateOf pg hh n o)
    (hh1 : ∀ (n : Fin 512) (u : Fin 64), h1 (ix2 b (nu n u)) = hh n u)
    (n : Fin 512) (j : Fin 128) :
    shapeCast S512x4096 (transpose S512x128x32 [1, 2, 0] (concatenate S32x512x128 2 [⟨S32x512x64, (shapeCast S32x512x64 v63 shapeCasts_S32x32768_S32x512x64)⟩, ⟨S32x512x64, (shapeCast S32x512x64 (mulf (shapeCast S32x32768 (extractStridedSlice S32x512x64 ![0, 0, 0] g slices_S32x512x128_S32x512x64_0_0_0) shapeCasts_S32x512x64_S32x32768) h1) shapeCasts_S32x32768_S32x512x64)⟩] concatenates_S32x512x64_S32x512x64_S32x512x128_d2) transposes_S32x512x128_S512x128x32_1_2_0) shapeCasts_S512x128x32_S512x4096
        (ix2 n (⟨j.val * 32 + b.val, by have := j.isLt; have := b.isLt; omega⟩ : Fin 4096))
      = cat1 xin (rhOf pg hh) j n := by
  refine (L1g.featL1_apply v63 _ n j b).trans ?_
  unfold cat1
  by_cases h : j.val < 64
  · rw [dif_pos h, dif_pos h]
    exact hv63 n ⟨j.val, h⟩
  · rw [dif_neg h, dif_neg h, mulf_apply]
    unfold rhOf
    exact congrArg₂ (· * ·) ((L0c.gateLo_apply g b n ⟨j.val - 64, by have := j.isLt; omega⟩).trans (hg n _))
      (hh1 n ⟨j.val - 64, by have := j.isLt; omega⟩)

theorem cell_apply (A : FVec Ideal S512x512 .f32) (x0 : FVec Ideal S512x4096 .f32) (W : FVec Ideal S384x64 .f32)
    (bias : FVec Ideal S64 .f32) (z h1 : FVec Ideal S32x32768 .f32) (b : Fin 32)
    (xin hh : Fin 512 → Fin 64 → R) (pg : (Fin 512 → Fin 64 → R) → Fin 512 → Fin 128 → R)
    (hz : ∀ (n : Fin 512) (u : Fin 64), z (ix2 b (nu n u)) = gateOf pg hh n (⟨64 + u.val, by have := u.isLt; omega⟩ : Fin 128))
    (hx0 : ∀ (n : Fin 512) (j : Fin 128),
      x0 (ix2 n (⟨j.val * 32 + b.val, by have := j.isLt; have := b.isLt; omega⟩ : Fin 4096)) = cat1 xin (rhOf pg hh) j n)
    (hh1 : ∀ (n : Fin 512) (u : Fin 64), h1 (ix2 b (nu n u)) = hh n u)
    (n : Fin 512) (u : Fin 64) :
    addf (mulf z h1) (mulf (subf (broadcastInDim S32x32768 ![] bcast_S_S32x32768 (constant (F := Ideal) S_ .f32 0x3F800000#32)) z) (Host.tanh (F := Ideal) (shapeCast S32x32768 (addf (Host.dotGeneral (F := Ideal) dot_S16384x384_S384x64_S16384x64_1_0_0_1_n_n none (tapsMat A x0) W) (broadcastInDim S16384x64 ![0, 1] bcast_S1x64_S16384x64_0_1 (broadcastInDim S1x64 ![1] bcast_S64_S1x64_1 bias))) shapeCasts_S16384x64_S32x32768)))
        (ix2 b (nu n u))
      = cell pg (fun s n u => preR1 (fun n k => A (ix2 n k)) xin s (fun k => W (ix2 k u)) (bias (ix1 u)) n) hh n u := by
  rw [gru_apply, pre_apply, hz, hh1]
  have hpre : (∑ k : Fin 384, tapsMat A x0 (ix2 (⟨b.val * 512 + n.val, by have := b.isLt; have := n.isLt; omega⟩ : Fin 16384) k) * W (ix2 k u))
        + bias (ix1 u)
      = preR1 (fun n k => A (ix2 n k)) xin (rhOf pg hh) (fun k => W (ix2 k u)) (bias (ix1 u)) n := by
    unfold preR1
    refine congrArg (· + bias (ix1 u)) (Finset.sum_congr rfl fun k _ => ?_)
    rw [tapsMat_apply]
    refine congrArg (fun f => tap (fun n k => A (ix2 n k)) (k.val % 3) f n * W (ix2 k u)) (funext fun n' => ?_)
    exact hx0 n' ⟨k.val / 3, by have := k.isLt; omega⟩
  rw [hpre]
  rfl

end Cert.ReferenceIdeal.RefVal.L1c

end
-- ==== Proof.Ref1c.lean ====
/-
  Layer 1's updated state for the actual arguments: from layer 0's updated state and layer 1's gates agreeing
  with the specification it follows that layer 1's updated state is the specification's.
-/
import proofs.«168098_g44504451121623_cont_8to1_c_180_35_alg».proof.Proof.RefRunP
import proofs.«168098_g44504451121623_cont_8to1_c_180_35_alg».proof.Proof.RefDefs
import proofs.«168098_g44504451121623_cont_8to1_c_180_35_alg».proof.Proof.Ref1cB

noncomputable section

namespace Cert.ReferenceIdeal.RefVal

open Cert.ReferenceIdeal Cert.ReferenceIdeal.Gen Cert.ReferenceIdeal.Value Cert.Spec Idealize.ShloMosaic Idealize.ShloMosaic.ValueIdx
  Idealize.ShloMosaic.StableHlo Idealize.SL.Sem

theorem L1c.v65_apply (V0 : Valuation τ sig (Elt Ideal)) (b : Fin 32) (n : Fin 512) (u : Fin 64) :
    res_main_v65 (F := Ideal) V0 (ix2 b (nu n u)) = H V0 1 b n u := by
  unfold res_main_v65
  exact L0g.slab_apply 1 _ _ b _

theorem ref_v127 (V0 : Valuation τ sig (Elt Ideal))
    (h63 : ∀ (b : Fin 32) (n : Fin 512) (u : Fin 64),
      res_main_v63 (F := Ideal) V0 (ix2 b (nu n u)) = h0nR (PR V0) (X V0 b) (H V0 0 b) n u)
    (hg1 : ∀ (b : Fin 32) (n : Fin 512) (o : Fin 128),
      res_main_v94 (F := Ideal) V0 (ix3 b n o) = gateOf (pg1R (PR V0) (h0nR (PR V0) (X V0 b) (H V0 0 b))) (H V0 1 b) n o)
    (b : Fin 32) (n : Fin 512) (u : Fin 64) :
    res_main_v127 (F := Ideal) V0 (ix2 b (nu n u))
      = h1nR (PR V0) (X V0 b) (H V0 0 b) (H V0 1 b) n u := by
  have hz : ∀ (n : Fin 512) (u : Fin 64), res_main_v98 (F := Ideal) V0 (ix2 b (nu n u))
      = gateOf (pg1R (PR V0) (h0nR (PR V0) (X V0 b) (H V0 0 b))) (H V0 1 b) n (⟨64 + u.val, by have := u.isLt; omega⟩ : Fin 128) :=
    fun n u => by
      unfold res_main_v98
      exact L1c.z_apply _ b _ _ (hg1 b) n u
  have hx0 : ∀ (n : Fin 512) (j : Fin 128),
      res_main_v104 (F := Ideal) V0 (ix2 n (⟨j.val * 32 + b.val, by have := j.isLt; have := b.isLt; omega⟩ : Fin 4096))
        = cat1 (h0nR (PR V0) (X V0 b) (H V0 0 b))
            (rhOf (pg1R (PR V0) (h0nR (PR V0) (X V0 b) (H V0 0 b))) (H V0 1 b)) j n :=
    fun n j => by
      unfold res_main_v104
      exact L1c.x0_cat1 _ _ _ b _ _ _ (h63 b) (hg1 b) (L1c.v65_apply V0 b) n j
  unfold res_main_v127 res_main_v105
  exact L1c.cell_apply (V0 (Proc.devRef .tc main_arg1)) (res_main_v104 (F := Ideal) V0) (V0 (Proc.devRef .tc main_arg9))
    (V0 (Proc.devRef .tc main_arg10)) (res_main_v98 (F := Ideal) V0) (res_main_v65 (F := Ideal) V0) b
    (h0nR (PR V0) (X V0 b) (H V0 0 b)) (H V0 1 b) (pg1R (PR V0) (h0nR (PR V0) (X V0 b) (H V0 0 b)))
    hz hx0 (L1c.v65_apply V0 b) n u

end Cert.ReferenceIdeal.RefVal

end
-- ==== Proof.RefFinal.lean ====
/-
  The chain of dependencies closed: layer 0's gates, its updated state, layer 1's gates, its updated state, then
  the output and the returned states.
-/
import proofs.«168098_g44504451121623_cont_8to1_c_180_35_alg».proof.Proof.RefRunP
import proofs.«168098_g44504451121623_cont_8to1_c_180_35_alg».proof.Proof.RefDefs
import proofs.«168098_g44504451121623_cont_8to1_c_180_35_alg».proof.Proof.RefOut
import proofs.«168098_g44504451121623_cont_8to1_c_180_35_alg».proof.Proof.Ref0g
import proofs.«168098_g44504451121623_cont_8to1_c_180_35_alg».proof.Proof.Ref0cD
import proofs.«168098_g44504451121623_cont_8to1_c_180_35_alg».proof.Proof.Ref1g
import proofs.«168098_g44504451121623_cont_8to1_c_180_35_alg».proof.Proof.Ref1c

noncomputable section

namespace Cert.ReferenceIdeal.RefVal

open Cert.ReferenceIdeal Cert.ReferenceIdeal.Gen Cert.ReferenceIdeal.Value Cert.Spec Idealize.ShloMosaic
  Idealize.ShloMosaic.ValueIdx Idealize.SL.Sem

theorem v63_all (V0 : Valuation τ sig (Elt Ideal)) : ∀ (b : Fin 32) (n : Fin 512) (u : Fin 64),
    res_main_v63 (F := Ideal) V0 (ix2 b (nu n u))
      = h0nR (PR V0) (X V0 b) (H V0 0 b) n u :=
  fun b n u => ref_v63 V0 (fun b n o => ref_gate0 V0 b n o) b n u

theorem gate1_all (V0 : Valuation τ sig (Elt Ideal)) : ∀ (b : Fin 32) (n : Fin 512) (o : Fin 128),
    res_main_v94 (F := Ideal) V0 (ix3 b n o)
      = gateOf (pg1R (PR V0) (h0nR (PR V0) (X V0 b) (H V0 0 b))) (H V0 1 b) n o :=
  fun b n o => ref_gate1 V0 (v63_all V0) b n o

theorem v127_all (V0 : Valuation τ sig (Elt Ideal)) : ∀ (b : Fin 32) (n : Fin 512) (u : Fin 64),
    res_main_v127 (F := Ideal) V0 (ix2 b (nu n u))
      = h1nR (PR V0) (X V0 b) (H V0 0 b) (H V0 1 b) n u :=
  fun b n u => ref_v127 V0 (v63_all V0) (gate1_all V0) b n u

theorem ref_out (V0 : Valuation τ sig (Elt Ideal)) :
    shapeCast _ (addf (Host.dotGeneral (F := Ideal) (φ₁ := .f32) (φ₂ := .f32) dot_S16384x64_S64x1_S16384x1_1_0_0_1_n_n none (shapeCast _ (res_main_v127 (F := Ideal) V0) shapeCasts_S32x32768_S16384x64) (V0 (Proc.devRef .tc main_arg11))) (broadcastInDim S16384x1 ![0, 1] bcast_S1x1_S16384x1_0_1 (broadcastInDim S1x1 ![1] bcast_S1_S1x1_1 (V0 (Proc.devRef .tc main_arg12))))) shapeCasts_S16384x1_S32x512
      = outArr (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) :=
  ref_out_chain V0 (res_main_v127 (F := Ideal) V0) (v127_all V0)

theorem ref_hs (V0 : Valuation τ sig (Elt Ideal)) :
    concatenate S2x32x32768 0 [⟨S1x32x32768, (broadcastInDim S1x32x32768 ![1, 2] bcast_S32x32768_S1x32x32768_1_2 (res_main_v63 (F := Ideal) V0))⟩, ⟨S1x32x32768, (broadcastInDim S1x32x32768 ![1, 2] bcast_S32x32768_S1x32x32768_1_2 (res_main_v127 (F := Ideal) V0))⟩] concatenates_S1x32x32768_S1x32x32768_S2x32x32768_d0
      = hsArr (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) (V0 (Proc.devRef .tc main_arg11))
          (V0 (Proc.devRef .tc main_arg12)) :=
  ref_hs_chain V0 (res_main_v63 (F := Ideal) V0) (res_main_v127 (F := Ideal) V0) (v63_all V0) (v127_all V0)

end Cert.ReferenceIdeal.RefVal

end
-- ==== Proof.lean ====
/-
  Kernel and reference compute one two-layer diffusion-convolution GRU step and its projection over the extended
  reals (Spec). They differ in the order of finite sums and in where the factor 2 of the second Chebyshev tap
  sits (SpecAlg joins the two forms); rounding to bf16 and back is the identity over the reals, which is all the
  two conjuncts of `preserves` say. Each program runs to its end and leaves its arguments unchanged.
-/
import proofs.«168098_g44504451121623_cont_8to1_c_180_35_alg».proof.Defs
import proofs.«168098_g44504451121623_cont_8to1_c_180_35_alg».proof.Proof.Gen.Kernel
import proofs.«168098_g44504451121623_cont_8to1_c_180_35_alg».proof.Proof.Gen.KernelIdeal
import proofs.«168098_g44504451121623_cont_8to1_c_180_35_alg».proof.Proof.Gen.ReferenceIdeal
import proofs.«168098_g44504451121623_cont_8to1_c_180_35_alg».proof.Proof.Gen.Pre_finite_inputs
import proofs.«168098_g44504451121623_cont_8to1_c_180_35_alg».proof.Proof.RefRunP
import proofs.«168098_g44504451121623_cont_8to1_c_180_35_alg».proof.Proof.KFrameB
import proofs.«168098_g44504451121623_cont_8to1_c_180_35_alg».proof.Proof.KFrameI
import proofs.«168098_g44504451121623_cont_8to1_c_180_35_alg».proof.Proof.KRunI
import proofs.«168098_g44504451121623_cont_8to1_c_180_35_alg».proof.Proof.RefFinal
import Idealize.ShloMosaic.Adequacy
import Idealize.ShloMosaic.Init

noncomputable section

namespace Cert.Proof

open Idealize.ShloMosaic Idealize.SL.Sem Cert.Spec

theorem frame_k : Cert.frame_Kernel := fun m ρ _ => Cert.Kernel.GenH.frame m ρ

theorem frame_ki : Cert.frame_KernelIdeal := fun m ρ _ => Cert.KernelIdeal.GenH.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal :=
  ⟨IdealRules.truncf_extf.statement _ _ _, IdealRules.truncf_extf.statement _ _ _⟩

theorem algebraic : Cert.algebraic_KernelIdeal_ReferenceIdeal := by
  intro m ρ m' ρ' _ hagree
  refine ⟨fun c => Cert.KernelIdeal.KVal.Run.outA m c, fun c => Cert.KernelIdeal.KVal.Run.hsA m c,
    Cert.KernelIdeal.KVal.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  all_goals obtain ⟨h0, h1, h2, h3, h4, h5, h6, h7, h8, h9, h10, h11, h12⟩ := hagree c
  · rw [Cert.ReferenceIdeal.RefVal.ref_out]; exact congr (congr (congr (congr (congr (congr (congr (congr (congr (congr (congr (congr (congrArg outArr h0) h1) h2) h3) h4) h5) h6) h7) h8) h9) h10) h11) h12
  · rw [Cert.ReferenceIdeal.RefVal.ref_hs]; exact congr (congr (congr (congr (congr (congr (congr (congr (congr (congr (congr (congr (congrArg hsArr h0) h1) h2) h3) h4) h5) h6) h7) h8) h9) h10) h11) h12

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
